-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v30) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_v113) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x96 : Shape := ⟨2, ![131072, 96]⟩
abbrev S131072x128 : Shape := ⟨2, ![131072, 128]⟩
abbrev S4096x32x32 : Shape := ⟨3, ![4096, 32, 32]⟩
abbrev S128x96 : Shape := ⟨2, ![128, 96]⟩
abbrev S128 : Shape := ⟨1, ![128]⟩
abbrev S384x128 : Shape := ⟨2, ![384, 128]⟩
abbrev S384 : Shape := ⟨1, ![384]⟩
abbrev S16x128 : Shape := ⟨2, ![16, 128]⟩
abbrev S16 : Shape := ⟨1, ![16]⟩
abbrev S128x128 : Shape := ⟨2, ![128, 128]⟩
abbrev S_ : Shape := ⟨0, ![]⟩

class Facts : Prop where
  bcast_S_S131072x96 : S_.BroadcastsInDim S131072x96 (![] : Fin 0 → Fin S131072x96.rank)
  reducesTo_S131072x96_S_d0_1 : S131072x96.ReducesTo [0, 1] S_
  h_S_ : 0 < S_.numel
  bcast_S_S131072x128 : S_.BroadcastsInDim S131072x128 (![] : Fin 0 → Fin S131072x128.rank)
  reducesTo_S131072x128_S_d0_1 : S131072x128.ReducesTo [0, 1] S_
  bcast_S_S4096x32x32 : S_.BroadcastsInDim S4096x32x32 (![] : Fin 0 → Fin S4096x32x32.rank)
  reducesTo_S4096x32x32_S_d0_1_2 : S4096x32x32.ReducesTo [0, 1, 2] S_
  bcast_S_S128x96 : S_.BroadcastsInDim S128x96 (![] : Fin 0 → Fin S128x96.rank)
  reducesTo_S128x96_S_d0_1 : S128x96.ReducesTo [0, 1] S_
  bcast_S_S128 : S_.BroadcastsInDim S128 (![] : Fin 0 → Fin S128.rank)
  reducesTo_S128_S_d0 : S128.ReducesTo [0] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_
  bcast_S_S16x128 : S_.BroadcastsInDim S16x128 (![] : Fin 0 → Fin S16x128.rank)
  reducesTo_S16x128_S_d0_1 : S16x128.ReducesTo [0, 1] S_
  bcast_S_S16 : S_.BroadcastsInDim S16 (![] : Fin 0 → Fin S16.rank)
  reducesTo_S16_S_d0 : S16.ReducesTo [0] S_
  bcast_S_S128x128 : S_.BroadcastsInDim S128x128 (![] : Fin 0 → Fin S128x128.rank)
  reducesTo_S128x128_S_d0_1 : S128x128.ReducesTo [0, 1] S_

variable [Facts]

def fn_part6 {F : FTy → Type} [FloatOps F] (main_arg21 : FVec F S128x128 .f32) (main_arg22 : FVec F S128 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128x128 .f32 := Host.absf main_arg21
  let main_cst_40 : FVec F S_ .f32 := constant S_ .f32 0x7F800000#32
  let main_v105 : FVec F S128x128 .f32 := broadcastInDim S128x128 ![] bcast_S_S128x128 main_cst_40
  let main_v106 : IVec S128x128 1 := cmpf .olt main_v104 main_v105
  let main_c_41 : IVec S_ 1 := constantI S_ 1 1#1
  let main_v107 : IVec S_ 1 := (fun x v => Host.reduce IntOp.andi x v reducesTo_S128x128_S_d0_1 h_S_) main_v106 main_c_41
  let main_v108 : IVec S_ 1 := andi main_v103 main_v107
  let main_v109 : FVec F S128 .f32 := Host.absf main_arg22
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  main_v113

def fn_part5 {F : FTy → Type} [FloatOps F] (main_arg18 : FVec F S128 .f32) (main_arg19 : FVec F S128x128 .f32) (main_arg20 : FVec F S128 .f32) (main_arg21 : FVec F S128x128 .f32) (main_arg22 : FVec F S128 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg18
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x128 .f32 := Host.absf main_arg19
  let main_cst_36 : FVec F S_ .f32 := constant S_ .f32 0x7F800000#32
  let main_v95 : FVec F S128x128 .f32 := broadcastInDim S128x128 ![] bcast_S_S128x128 main_cst_36
  let main_v96 : IVec S128x128 1 := cmpf .olt main_v94 main_v95
  let main_c_37 : IVec S_ 1 := constantI S_ 1 1#1
  let main_v97 : IVec S_ 1 := (fun x v => Host.reduce IntOp.andi x v reducesTo_S128x128_S_d0_1 h_S_) main_v96 main_c_37
  let main_v98 : IVec S_ 1 := andi main_v93 main_v97
  let main_v99 : FVec F S128 .f32 := Host.absf main_arg20
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg21 main_arg22 main_v98 main_v101 main_c_39

def fn_part4 {F : FTy → Type} [FloatOps F] (main_arg14 : FVec F S128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S128x128 .f32) (main_arg22 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg15
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg17
  let main_cst_32 : FVec F S_ .f32 := constant S_ .f32 0x7F800000#32
  fn_part5 (F := F) main_arg18 main_arg19 main_arg20 main_arg21 main_arg22 main_v83 main_v84 main_cst_32

def fn_part3 {F : FTy → Type} [FloatOps F] (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S128x128 .f32) (main_arg22 : FVec F S128 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg13
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg14 main_arg15 main_arg16 main_arg17 main_arg18 main_arg19 main_arg20 main_arg21 main_arg22 main_v63 main_v67

def fn_part2 {F : FTy → Type} [FloatOps F] (main_arg7 : FVec F S384x128 .f32) (main_arg8 : FVec F S384 .f32) (main_arg9 : FVec F S16x128 .f32) (main_arg10 : FVec F S16 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S128x128 .f32) (main_arg22 : FVec F S128 .f32) (main_v33 : IVec S_ 1) : IVec S_ 1 :=
  let main_v34 : FVec F S384x128 .f32 := Host.absf main_arg7
  let main_cst_12 : FVec F S_ .f32 := constant S_ .f32 0x7F800000#32
  let main_v35 : FVec F S384x128 .f32 := broadcastInDim S384x128 ![] bcast_S_S384x128 main_cst_12
  let main_v36 : IVec S384x128 1 := cmpf .olt main_v34 main_v35
  let main_c_13 : IVec S_ 1 := constantI S_ 1 1#1
  let main_v37 : IVec S_ 1 := (fun x v => Host.reduce IntOp.andi x v reducesTo_S384x128_S_d0_1 h_S_) main_v36 main_c_13
  let main_v38 : IVec S_ 1 := andi main_v33 main_v37
  let main_v39 : FVec F S384 .f32 := Host.absf main_arg8
  let main_cst_14 : FVec F S_ .f32 := constant S_ .f32 0x7F800000#32
  let main_v40 : FVec F S384 .f32 := broadcastInDim S384 ![] bcast_S_S384 main_cst_14
  let main_v41 : IVec S384 1 := cmpf .olt main_v39 main_v40
  let main_c_15 : IVec S_ 1 := constantI S_ 1 1#1
  let main_v42 : IVec S_ 1 := (fun x v => Host.reduce IntOp.andi x v reducesTo_S384_S_d0 h_S_) main_v41 main_c_15
  let main_v43 : IVec S_ 1 := andi main_v38 main_v42
  let main_v44 : FVec F S16x128 .f32 := Host.absf main_arg9
  let main_cst_16 : FVec F S_ .f32 := constant S_ .f32 0x7F800000#32
  let main_v45 : FVec F S16x128 .f32 := broadcastInDim S16x128 ![] bcast_S_S16x128 main_cst_16
  let main_v46 : IVec S16x128 1 := cmpf .olt main_v44 main_v45
  let main_c_17 : IVec S_ 1 := constantI S_ 1 1#1
  let main_v47 : IVec S_ 1 := (fun x v => Host.reduce IntOp.andi x v reducesTo_S16x128_S_d0_1 h_S_) main_v46 main_c_17
  let main_v48 : IVec S_ 1 := andi main_v43 main_v47
  let main_v49 : FVec F S16 .f32 := Host.absf main_arg10
  let main_cst_18 : FVec F S_ .f32 := constant S_ .f32 0x7F800000#32
  let main_v50 : FVec F S16 .f32 := broadcastInDim S16 ![] bcast_S_S16 main_cst_18
  fn_part3 (F := F) main_arg11 main_arg12 main_arg13 main_arg14 main_arg15 main_arg16 main_arg17 main_arg18 main_arg19 main_arg20 main_arg21 main_arg22 main_v48 main_v49 main_v50

def fn_part1 {F : FTy → Type} [FloatOps F] (main_arg4 : FVec F S128 .f32) (main_arg5 : FVec F S384x128 .f32) (main_arg6 : FVec F S384 .f32) (main_arg7 : FVec F S384x128 .f32) (main_arg8 : FVec F S384 .f32) (main_arg9 : FVec F S16x128 .f32) (main_arg10 : FVec F S16 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S128x128 .f32) (main_arg22 : FVec F S128 .f32) (main_v13 : IVec S_ 1) (main_v16 : IVec S128x96 1) : IVec S_ 1 :=
  let main_c_5 : IVec S_ 1 := constantI S_ 1 1#1
  let main_v17 : IVec S_ 1 := (fun x v => Host.reduce IntOp.andi x v reducesTo_S128x96_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S384x128 .f32 := Host.absf main_arg5
  let main_cst_8 : FVec F S_ .f32 := constant S_ .f32 0x7F800000#32
  let main_v25 : FVec F S384x128 .f32 := broadcastInDim S384x128 ![] bcast_S_S384x128 main_cst_8
  let main_v26 : IVec S384x128 1 := cmpf .olt main_v24 main_v25
  let main_c_9 : IVec S_ 1 := constantI S_ 1 1#1
  let main_v27 : IVec S_ 1 := (fun x v => Host.reduce IntOp.andi x v reducesTo_S384x128_S_d0_1 h_S_) main_v26 main_c_9
  let main_v28 : IVec S_ 1 := andi main_v23 main_v27
  let main_v29 : FVec F S384 .f32 := Host.absf main_arg6
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S131072x96 .f32) (main_arg1 : FVec F S131072x128 .f32) (main_arg2 : FVec F S4096x32x32 .f32) (main_arg3 : FVec F S128x96 .f32) (main_arg4 : FVec F S128 .f32) (main_arg5 : FVec F S384x128 .f32) (main_arg6 : FVec F S384 .f32) (main_arg7 : FVec F S384x128 .f32) (main_arg8 : FVec F S384 .f32) (main_arg9 : FVec F S16x128 .f32) (main_arg10 : FVec F S16 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S128x128 .f32) (main_arg22 : FVec F S128 .f32) : IVec S_ 1 :=
  let main_v0 : FVec F S131072x96 .f32 := Host.absf main_arg0
  let main_cst : FVec F S_ .f32 := constant S_ .f32 0x7F800000#32
  let main_v1 : FVec F S131072x96 .f32 := broadcastInDim S131072x96 ![] bcast_S_S131072x96 main_cst
  let main_v2 : IVec S131072x96 1 := cmpf .olt main_v0 main_v1
  let main_c : IVec S_ 1 := constantI S_ 1 1#1
  let main_v3 : IVec S_ 1 := (fun x v => Host.reduce IntOp.andi x v reducesTo_S131072x96_S_d0_1 h_S_) main_v2 main_c
  let main_v4 : FVec F S131072x128 .f32 := Host.absf main_arg1
  let main_cst_0 : FVec F S_ .f32 := constant S_ .f32 0x7F800000#32
  let main_v5 : FVec F S131072x128 .f32 := broadcastInDim S131072x128 ![] bcast_S_S131072x128 main_cst_0
  let main_v6 : IVec S131072x128 1 := cmpf .olt main_v4 main_v5
  let main_c_1 : IVec S_ 1 := constantI S_ 1 1#1
  let main_v7 : IVec S_ 1 := (fun x v => Host.reduce IntOp.andi x v reducesTo_S131072x128_S_d0_1 h_S_) main_v6 main_c_1
  let main_v8 : IVec S_ 1 := andi main_v3 main_v7
  let main_v9 : FVec F S4096x32x32 .f32 := Host.absf main_arg2
  let main_cst_2 : FVec F S_ .f32 := constant S_ .f32 0x7F800000#32
  let main_v10 : FVec F S4096x32x32 .f32 := broadcastInDim S4096x32x32 ![] bcast_S_S4096x32x32 main_cst_2
  let main_v11 : IVec S4096x32x32 1 := cmpf .olt main_v9 main_v10
  let main_c_3 : IVec S_ 1 := constantI S_ 1 1#1
  let main_v12 : IVec S_ 1 := (fun x v => Host.reduce IntOp.andi x v reducesTo_S4096x32x32_S_d0_1_2 h_S_) main_v11 main_c_3
  let main_v13 : IVec S_ 1 := andi main_v8 main_v12
  let main_v14 : FVec F S128x96 .f32 := Host.absf main_arg3
  let main_cst_4 : FVec F S_ .f32 := constant S_ .f32 0x7F800000#32
  let main_v15 : FVec F S128x96 .f32 := broadcastInDim S128x96 ![] bcast_S_S128x96 main_cst_4
  let main_v16 : IVec S128x96 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S131072x96 : Shape := ⟨2, ![131072, 96]⟩
abbrev S131072x128 : Shape := ⟨2, ![131072, 128]⟩
abbrev S4096x32x32 : Shape := ⟨3, ![4096, 32, 32]⟩
abbrev S128x96 : Shape := ⟨2, ![128, 96]⟩
abbrev S128 : Shape := ⟨1, ![128]⟩
abbrev S384x128 : Shape := ⟨2, ![384, 128]⟩
abbrev S384 : Shape := ⟨1, ![384]⟩
abbrev S16x128 : Shape := ⟨2, ![16, 128]⟩
abbrev S16 : Shape := ⟨1, ![16]⟩
abbrev S128x128 : Shape := ⟨2, ![128, 128]⟩
abbrev S4096x32x96 : Shape := ⟨3, ![4096, 32, 96]⟩
abbrev S4096x32x128 : Shape := ⟨3, ![4096, 32, 128]⟩
abbrev S96x128 : Shape := ⟨2, ![96, 128]⟩
abbrev S128x16 : Shape := ⟨2, ![128, 16]⟩
abbrev S256x128 : Shape := ⟨2, ![256, 128]⟩
abbrev S128x256 : Shape := ⟨2, ![128, 256]⟩
abbrev S256x256 : Shape := ⟨2, ![256, 256]⟩
abbrev S256 : Shape := ⟨1, ![256]⟩
abbrev S128x384 : Shape := ⟨2, ![128, 384]⟩
abbrev S4096x32x16 : Shape := ⟨3, ![4096, 32, 16]⟩
abbrev S64x32x96 : Shape := ⟨3, ![64, 32, 96]⟩
abbrev S64x32x128 : Shape := ⟨3, ![64, 32, 128]⟩
abbrev S64x32x32 : Shape := ⟨3, ![64, 32, 32]⟩
abbrev S64x32x16 : Shape := ⟨3, ![64, 32, 16]⟩
abbrev S2048x96 : Shape := ⟨2, ![2048, 96]⟩
abbrev S2048x128 : Shape := ⟨2, ![2048, 128]⟩
abbrev S1x128 : Shape := ⟨2, ![1, 128]⟩
abbrev S2048x256 : Shape := ⟨2, ![2048, 256]⟩
abbrev S1x256 : Shape := ⟨2, ![1, 256]⟩
abbrev S2048x384 : Shape := ⟨2, ![2048, 384]⟩
abbrev S1x384 : Shape := ⟨2, ![1, 384]⟩
abbrev S64x32 : Shape := ⟨2, ![64, 32]⟩
abbrev S64x32x1 : Shape := ⟨3, ![64, 32, 1]⟩
abbrev S2048x16 : Shape := ⟨2, ![2048, 16]⟩
abbrev S1x16 : Shape := ⟨2, ![1, 16]⟩
abbrev S131072x16 : Shape := ⟨2, ![131072, 16]⟩

abbrev nBuf : Space → Nat
  | .hbm => 55
  | .vmem => 24
  | .smem => 0
  | _ => 0

abbrev bufTy : (tb : Table) → Fin (tcTables nBuf tb) → BufTy
  | .hbm, ⟨0, _⟩ => ⟨S131072x96, .f32⟩
  | .hbm, ⟨1, _⟩ => ⟨S131072x128, .f32⟩
  | .hbm, ⟨2, _⟩ => ⟨S4096x32x32, .f32⟩
  | .hbm, ⟨3, _⟩ => ⟨S128x96, .f32⟩
  | .hbm, ⟨4, _⟩ => ⟨S128, .f32⟩
  | .hbm, ⟨5, _⟩ => ⟨S384x128, .f32⟩
  | .hbm, ⟨6, _⟩ => ⟨S384, .f32⟩
  | .hbm, ⟨7, _⟩ => ⟨S384x128, .f32⟩
  | .hbm, ⟨8, _⟩ => ⟨S384, .f32⟩
  | .hbm, ⟨9, _⟩ => ⟨S16x128, .f32⟩
  | .hbm, ⟨10, _⟩ => ⟨S16, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S128x128, .f32⟩
  | .hbm, ⟨20, _⟩ => ⟨S128, .f32⟩
  | .hbm, ⟨21, _⟩ => ⟨S128x128, .f32⟩
  | .hbm, ⟨22, _⟩ => ⟨S128, .f32⟩
  | .hbm, ⟨23, _⟩ => ⟨S4096x32x96, .f32⟩
  | .hbm, ⟨24, _⟩ => ⟨S4096x32x128, .f32⟩
  | .hbm, ⟨25, _⟩ => ⟨S96x128, .f32⟩
  | .hbm, ⟨26, _⟩ => ⟨S128x16, .f32⟩
  | .hbm, ⟨27, _⟩ => ⟨S256x128, .f32⟩
  | .hbm, ⟨28, _⟩ => ⟨S128x256, .f32⟩
  | .hbm, ⟨29, _⟩ => ⟨S256x128, .f32⟩
  | .hbm, ⟨30, _⟩ => ⟨S128x256, .f32⟩
  | .hbm, ⟨31, _⟩ => ⟨S256x256, .f32⟩
  | .hbm, ⟨32, _⟩ => ⟨S256, .f32⟩
  | .hbm, ⟨33, _⟩ => ⟨S256, .f32⟩
  | .hbm, ⟨34, _⟩ => ⟨S256, .f32⟩
  | .hbm, ⟨35, _⟩ => ⟨S128x128, .f32⟩
  | .hbm, ⟨36, _⟩ => ⟨S128x128, .f32⟩
  | .hbm, ⟨37, _⟩ => ⟨S128, .f32⟩
  | .hbm, ⟨38, _⟩ => ⟨S128x128, .f32⟩
  | .hbm, ⟨39, _⟩ => ⟨S128x128, .f32⟩
  | .hbm, ⟨40, _⟩ => ⟨S128, .f32⟩
  | .hbm, ⟨41, _⟩ => ⟨S128x128, .f32⟩
  | .hbm, ⟨42, _⟩ => ⟨S128x128, .f32⟩
  | .hbm, ⟨43, _⟩ => ⟨S128x128, .f32⟩
  | .hbm, ⟨44, _⟩ => ⟨S128x384, .f32⟩
  | .hbm, ⟨45, _⟩ => ⟨S384, .f32⟩
  | .hbm, ⟨46, _⟩ => ⟨S128x128, .f32⟩
  | .hbm, ⟨47, _⟩ => ⟨S128x128, .f32⟩
  | .hbm, ⟨48, _⟩ => ⟨S128x128, .f32⟩
  | .hbm, ⟨49, _⟩ => ⟨S128x384, .f32⟩
  | .hbm, ⟨50, _⟩ => ⟨S384, .f32⟩
  | .hbm, ⟨51, _⟩ => ⟨S4096x32x16, .f32⟩
  | .hbm, ⟨52, _⟩ => ⟨S4096x32x128, .f32⟩
  | .hbm, ⟨53, _⟩ => ⟨S131072x16, .f32⟩
  | .hbm, ⟨54, _⟩ => ⟨S131072x128, .f32⟩
  | .local _ .vmem, ⟨0, _⟩ => ⟨S64x32x96, .f32⟩
  | .local _ .vmem, ⟨1, _⟩ => ⟨S64x32x96, .f32⟩
  | .local _ .vmem, ⟨2, _⟩ => ⟨S64x32x128, .f32⟩
  | .local _ .vmem, ⟨3, _⟩ => ⟨S64x32x128, .f32⟩
  | .local _ .vmem, ⟨4, _⟩ => ⟨S64x32x32, .f32⟩
  | .local _ .vmem, ⟨5, _⟩ => ⟨S64x32x32, .f32⟩
  | .local _ .vmem, ⟨6, _⟩ => ⟨S96x128, .f32⟩
  | .local _ .vmem, ⟨7, _⟩ => ⟨S128, .f32⟩
  | .local _ .vmem, ⟨8, _⟩ => ⟨S256x256, .f32⟩
  | .local _ .vmem, ⟨9, _⟩ => ⟨S256, .f32⟩
  | .local _ .vmem, ⟨10, _⟩ => ⟨S128x128, .f32⟩
  | .local _ .vmem, ⟨11, _⟩ => ⟨S128, .f32⟩
  | .local _ .vmem, ⟨12, _⟩ => ⟨S128x128, .f32⟩
  | .local _ .vmem, ⟨13, _⟩ => ⟨S128, .f32⟩
  | .local _ .vmem, ⟨14, _⟩ => ⟨S128x384, .f32⟩
  | .local _ .vmem, ⟨15, _⟩ => ⟨S384, .f32⟩
  | .local _ .vmem, ⟨16, _⟩ => ⟨S128x384, .f32⟩
  | .local _ .vmem, ⟨17, _⟩ => ⟨S384, .f32⟩
  | .local _ .vmem, ⟨18, _⟩ => ⟨S128x16, .f32⟩
  | .local _ .vmem, ⟨19, _⟩ => ⟨S16, .f32⟩
  | .local _ .vmem, ⟨20, _⟩ => ⟨S64x32x16, .f32⟩
  | .local _ .vmem, ⟨21, _⟩ => ⟨S64x32x16, .f32⟩
  | .local _ .vmem, ⟨22, _⟩ => ⟨S64x32x128, .f32⟩
  | .local _ .vmem, ⟨23, _⟩ => ⟨S64x32x128, .f32⟩
  | _, _ => ⟨S131072x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28_0 : Ref sig .tc := ⟨.hbm, 51, rfl⟩
abbrev main_v28_1 : Ref sig .tc := ⟨.hbm, 52, rfl⟩
abbrev main_v29 : Ref sig .tc := ⟨.hbm, 53, rfl⟩
abbrev main_v30 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem17_1 : DmaSem sig := 21
abbrev cc0_sem18_0 : DmaSem sig := 22
abbrev cc0_sem18_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x32x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x32x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S96x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S384 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x384 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S384 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x16 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S16 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S64x32x16 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S64x32x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

class Facts₀ : Prop where
  shapeCasts_S131072x96_S4096x32x96 : S131072x96.ShapeCasts S4096x32x96
  shapeCasts_S131072x128_S4096x32x128 : S131072x128.ShapeCasts S4096x32x128
  transposes_S128x96_S96x128_1_0 : S128x96.Transposes [1, 0] S96x128
  transposes_S16x128_S128x16_1_0 : S16x128.Transposes [1, 0] S128x16
  slices_S384x128_S256x128_0_0 : S384x128.Slices ![0, 0] S256x128
  transposes_S256x128_S128x256_1_0 : S256x128.Transposes [1, 0] S128x256
  concatenates_S128x256_S128x256_S256x256_d0 : Shape.Concatenates [S128x256, S128x256] S256x256 0
  slices_S384_S256_0 : S384.Slices ![0] S256
  slices_S384x128_S128x128_256_0 : S384x128.Slices ![256, 0] S128x128
  transposes_S128x128_S128x128_1_0 : S128x128.Transposes [1, 0] S128x128
  slices_S384_S128_256 : S384.Slices ![256] S128
  concatenates_S128x128_S128x128_S128x128_S128x384_d1 : Shape.Concatenates [S128x128, S128x128, S128x128] S128x384 1
  concatenates_S128_S128_S128_S384_d0 : Shape.Concatenates [S128, S128, S128] S384 0
  inb_S64x32x96_S64x32x96_0_0_0 : ∀ a, (![0, 0, 0] : Fin 3 → Nat) a + S64x32x96.size a ≤ S64x32x96.size a
  h_S64x32x96 : 0 < S64x32x96.numel
  shapeCasts_S64x32x96_S64x32x96 : S64x32x96.ShapeCasts S64x32x96
  shapeCasts_S64x32x96_S2048x96 : S64x32x96.ShapeCasts S2048x96
  inb_S64x32x128_S64x32x128_0_0_0 : ∀ a, (![0, 0, 0] : Fin 3 → Nat) a + S64x32x128.size a ≤ S64x32x128.size a
  h_S64x32x128 : 0 < S64x32x128.numel
  shapeCasts_S64x32x128_S64x32x128 : S64x32x128.ShapeCasts S64x32x128
  shapeCasts_S64x32x128_S2048x128 : S64x32x128.ShapeCasts S2048x128
  bitsLt_bf16_f32 : FTy.bits .bf16 < FTy.bits .f32
  inb_S96x128_S96x128_0_0 : ∀ a, (![0, 0] : Fin 2 → Nat) a + S96x128.size a ≤ S96x128.size a
  h_S96x128 : 0 < S96x128.numel
  shapeCasts_S96x128_S96x128 : S96x128.ShapeCasts S96x128
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  concatenates_S2048x128_S2048x128_S2048x256_d1 : Shape.Concatenates [S2048x128, S2048x128] S2048x256 1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S2048x256 : S1x256.Broadcasts S2048x256
  slices_S2048x256_o0_0_S2048x128 : S2048x256.Slices ![0, 0] S2048x128
  slices_S2048x256_o0_128_S2048x128 : S2048x256.Slices ![0, 128] S2048x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128_S128 : S128.ShapeCasts S128
  shapeCasts_S2048x128_S64x32x128 : S2048x128.ShapeCasts S64x32x128
  inb_S64x32x32_S64x32x32_0_0_0 : ∀ a, (![0, 0, 0] : Fin 3 → Nat) a + S64x32x32.size a ≤ S64x32x32.size a
  h_S64x32x32 : 0 < S64x32x32.numel
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S384_S384_0 : ∀ a, (![0] : Fin 1 → Nat) a + S384.size a ≤ S384.size a
  h_S384 : 0 < S384.numel
  shapeCasts_S384_S384 : S384.ShapeCasts S384
  shapeCasts_S384_S1x384 : S384.ShapeCasts S1x384
  broadcasts_S1x384_S2048x384 : S1x384.Broadcasts S2048x384
  slices_S2048x384_o0_0_S2048x128 : S2048x384.Slices ![0, 0] S2048x128
  slices_S2048x384_o0_128_S2048x128 : S2048x384.Slices ![0, 128] S2048x128
  slices_S2048x384_o0_256_S2048x128 : S2048x384.Slices ![0, 256] S2048x128
  reduces_S64x32x32_S64x32 : S64x32x32.Reduces [2] S64x32
  shapeCasts_S64x32_S64x32x1 : S64x32.ShapeCasts S64x32x1
  broadcasts_S64x32x1_S64x32x32 : S64x32x1.Broadcasts S64x32x32
  inb_S128x16_S128x16_0_0 : ∀ a, (![0, 0] : Fin 2 → Nat) a + S128x16.size a ≤ S128x16.size a
  h_S128x16 : 0 < S128x16.numel
  shapeCasts_S128x16_S128x16 : S128x16.ShapeCasts S128x16
  inb_S16_S16_0 : ∀ a, (![0] : Fin 1 → Nat) a + S16.size a ≤ S16.size a
  h_S16 : 0 < S16.numel
  shapeCasts_S16_S1x16 : S16.ShapeCasts S1x16
  broadcasts_S1x16_S2048x16 : S1x16.Broadcasts S2048x16
  shapeCasts_S2048x16_S64x32x16 : S2048x16.ShapeCasts S64x32x16
  inb_S64x32x16_S64x32x16_0_0_0 : ∀ a, (![0, 0, 0] : Fin 3 → Nat) a + S64x32x16.size a ≤ S64x32x16.size a
  h_S64x32x16 : 0 < S64x32x16.numel
  shapeCasts_S4096x32x16_S131072x16 : S4096x32x16.ShapeCasts S131072x16
  shapeCasts_S4096x32x128_S131072x128 : S4096x32x128.ShapeCasts S131072x128
  dot_S2048x96_S96x128_S2048x128_1_0_0_1_n_n_wf : DotDims.WF S2048x96 S96x128 S2048x128 [1] [0] [0] [1] [] []
  dot_S2048x256_S256x256_S2048x256_1_0_0_1_n_n_wf : DotDims.WF S2048x256 S256x256 S2048x256 [1] [0] [0] [1] [] []
  dot_S2048x128_S128x128_S2048x128_1_0_0_1_n_n_wf : DotDims.WF S2048x128 S128x128 S2048x128 [1] [0] [0] [1] [] []
  dot_S2048x128_S128x384_S2048x384_1_0_0_1_n_n_wf : DotDims.WF S2048x128 S128x384 S2048x384 [1] [0] [0] [1] [] []
  dot_S64x32x128_S64x32x128_S64x32x32_2_2_1_1_0_0_wf : DotDims.WF S64x32x128 S64x32x128 S64x32x32 [2] [2] [1] [1] [0] [0]
  dot_S64x32x32_S64x32x128_S64x32x128_2_1_1_2_0_0_wf : DotDims.WF S64x32x32 S64x32x128 S64x32x128 [2] [1] [1] [2] [0] [0]
  dot_S2048x128_S128x16_S2048x16_1_0_0_1_n_n_wf : DotDims.WF S2048x128 S128x16 S2048x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x32x96.size a ≤ S4096x32x96.size a
  hwx0_0 : ∀ i : grid0.Coords, EltTy.bits .f32 = 32 ∨ (Rect.block (s := S4096x32x96) S64x32x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x32x128.size a ≤ S4096x32x128.size a
  hwx0_1 : ∀ i : grid0.Coords, EltTy.bits .f32 = 32 ∨ (Rect.block (s := S4096x32x128) S64x32x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x32x32.size a ≤ S4096x32x32.size a
  hwx0_2 : ∀ i : grid0.Coords, EltTy.bits .f32 = 32 ∨ (Rect.block (s := S4096x32x32) S64x32x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S96x128.size a ≤ S96x128.size a
  hwx0_3 : ∀ i : grid0.Coords, EltTy.bits .f32 = 32 ∨ (Rect.block (s := S96x128) S96x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x384.size a ≤ S128x384.size a
  hwx0_11 : ∀ i : grid0.Coords, EltTy.bits .f32 = 32 ∨ (Rect.block (s := S128x384) S128x384.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S384.size a ≤ S384.size a
  hwx0_12 : ∀ i : grid0.Coords, EltTy.bits .f32 = 32 ∨ (Rect.block (s := S384) S384.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x384.size a ≤ S128x384.size a
  hwx0_13 : ∀ i : grid0.Coords, EltTy.bits .f32 = 32 ∨ (Rect.block (s := S128x384) S128x384.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S384.size a ≤ S384.size a
  hwx0_14 : ∀ i : grid0.Coords, EltTy.bits .f32 = 32 ∨ (Rect.block (s := S384) S384.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128x16.size a ≤ S128x16.size a
  hwx0_15 : ∀ i : grid0.Coords, EltTy.bits .f32 = 32 ∨ (Rect.block (s := S128x16) S128x16.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S16.size a ≤ S16.size a
  hwx0_16 : ∀ i : grid0.Coords, EltTy.bits .f32 = 32 ∨ (Rect.block (s := S16) S16.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S64x32x16.size a ≤ S4096x32x16.size a
  hwx0_17 : ∀ i : grid0.Coords, EltTy.bits .f32 = 32 ∨ (Rect.block (s := S4096x32x16) S64x32x16.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S64x32x128.size a ≤ S4096x32x128.size a
  hwx0_18 : ∀ i : grid0.Coords, EltTy.bits .f32 = 32 ∨ (Rect.block (s := S4096x32x128) S64x32x128.size (cc0_transform_18 i) (hinb0_18 i)).WholeWords (EltTy.packing .f32)

variable [Facts₀]

def dot_S2048x96_S96x128_S2048x128_1_0_0_1_n_n : DotDims S2048x96 S96x128 S2048x128 where
  lhsContracting := [1]
  rhsContracting := [0]
  lhsNonContracting := [0]
  rhsNonContracting := [1]
  lhsBatch := []
  rhsBatch := []
  wf := dot_S2048x96_S96x128_S2048x128_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x384_S2048x384_1_0_0_1_n_n : DotDims S2048x128 S128x384 S2048x384 where
  lhsContracting := [1]
  rhsContracting := [0]
  lhsNonContracting := [0]
  rhsNonContracting := [1]
  lhsBatch := []
  rhsBatch := []
  wf := dot_S2048x128_S128x384_S2048x384_1_0_0_1_n_n_wf
def dot_S64x32x128_S64x32x128_S64x32x32_2_2_1_1_0_0 : DotDims S64x32x128 S64x32x128 S64x32x32 where
  lhsContracting := [2]
  rhsContracting := [2]
  lhsNonContracting := [1]
  rhsNonContracting := [1]
  lhsBatch := [0]
  rhsBatch := [0]
  wf := dot_S64x32x128_S64x32x128_S64x32x32_2_2_1_1_0_0_wf
def dot_S64x32x32_S64x32x128_S64x32x128_2_1_1_2_0_0 : DotDims S64x32x32 S64x32x128 S64x32x128 where
  lhsContracting := [2]
  rhsContracting := [1]
  lhsNonContracting := [1]
  rhsNonContracting := [2]
  lhsBatch := [0]
  rhsBatch := [0]
  wf := dot_S64x32x32_S64x32x128_S64x32x128_2_1_1_2_0_0_wf
def dot_S2048x128_S128x16_S2048x16_1_0_0_1_n_n : DotDims S2048x128 S128x16 S2048x16 where
  lhsContracting := [1]
  rhsContracting := [0]
  lhsNonContracting := [0]
  rhsNonContracting := [1]
  lhsBatch := []
  rhsBatch := []
  wf := dot_S2048x128_S128x16_S2048x16_1_0_0_1_n_n_wf

abbrev win0_0 : Pipeline.Window sig grid0 :=
  Pipeline.Window.ofSpec (Memref.whole main_v0) S64x32x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x32x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S96x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v14) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v16) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v17) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v21) S128x384.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v22) S384.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v26) S128x384.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v27) S384.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v3) S128x16.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg10) S16.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v28_0) S64x32x16.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v28_1) S64x32x128.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

class Facts : Prop extends Facts₀ where

variable [Facts]
-- ==== ReferenceIdeal.lean ====
abbrev S131072x96 : Shape := ⟨2, ![131072, 96]⟩
abbrev S131072x128 : Shape := ⟨2, ![131072, 128]⟩
abbrev S4096x32x32 : Shape := ⟨3, ![4096, 32, 32]⟩
abbrev S128x96 : Shape := ⟨2, ![128, 96]⟩
abbrev S128 : Shape := ⟨1, ![128]⟩
abbrev S384x128 : Shape := ⟨2, ![384, 128]⟩
abbrev S384 : Shape := ⟨1, ![384]⟩
abbrev S16x128 : Shape := ⟨2, ![16, 128]⟩
abbrev S16 : Shape := ⟨1, ![16]⟩
abbrev S128x128 : Shape := ⟨2, ![128, 128]⟩
abbrev S96x128 : Shape := ⟨2, ![96, 128]⟩
abbrev S1x128 : Shape := ⟨2, ![1, 128]⟩
abbrev S_ : Shape := ⟨0, ![]⟩
abbrev S128x384 : Shape := ⟨2, ![128, 384]⟩
abbrev S131072x384 : Shape := ⟨2, ![131072, 384]⟩
abbrev S1x384 : Shape := ⟨2, ![1, 384]⟩
abbrev S4096x32x128 : Shape := ⟨3, ![4096, 32, 128]⟩
abbrev S1x1x128 : Shape := ⟨3, ![1, 1, 128]⟩
abbrev S4096x32 : Shape := ⟨2, ![4096, 32]⟩
abbrev S4096x32x1 : Shape := ⟨3, ![4096, 32, 1]⟩
abbrev S128x16 : Shape := ⟨2, ![128, 16]⟩
abbrev S131072x16 : Shape := ⟨2, ![131072, 16]⟩
abbrev S1x16 : Shape := ⟨2, ![1, 16]⟩

abbrev nBuf : Space → Nat
  | .hbm => 171
  | .vmem => 0
  | .smem => 0
  | _ => 0

abbrev hbmTy0_0 (i : Nat) : BufTy := match i % 128 with
  | 0 => ⟨S131072x96, .f32⟩
  | 1 => ⟨S131072x128, .f32⟩
  | 2 => ⟨S4096x32x32, .f32⟩
  | 3 => ⟨S128x96, .f32⟩
  | 4 => ⟨S128, .f32⟩
  | 5 => ⟨S384x128, .f32⟩
  | 6 => ⟨S384, .f32⟩
  | 7 => ⟨S384x128, .f32⟩
  | 8 => ⟨S384, .f32⟩
  | 9 => ⟨S16x128, .f32⟩
  | 10 => ⟨S16, .f32⟩
  | 11 => ⟨S128x128, .f32⟩
  | 12 => ⟨S128, .f32⟩
  | 13 => ⟨S128x128, .f32⟩
  | 14 => ⟨S128, .f32⟩
  | 15 => ⟨S128x128, .f32⟩
  | 16 => ⟨S128, .f32⟩
  | 17 => ⟨S128x128, .f32⟩
  | 18 => ⟨S128, .f32⟩
  | 19 => ⟨S128x128, .f32⟩
  | 20 => ⟨S128, .f32⟩
  | 21 => ⟨S128x128, .f32⟩
  | 22 => ⟨S128, .f32⟩
  | 23 => ⟨S96x128, .f32⟩
  | 24 => ⟨S131072x128, .f32⟩
  | 25 => ⟨S1x128, .f32⟩
  | 26 => ⟨S131072x128, .f32⟩
  | 27 => ⟨S131072x128, .f32⟩
  | 28 => ⟨S_, .f32⟩
  | 29 => ⟨S131072x128, .f32⟩
  | 30 => ⟨S131072x128, .f32⟩
  | 31 => ⟨S128x384, .f32⟩
  | 32 => ⟨S131072x384, .f32⟩
  | 33 => ⟨S1x384, .f32⟩
  | 34 => ⟨S131072x384, .f32⟩
  | 35 => ⟨S131072x384, .f32⟩
  | 36 => ⟨S128x384, .f32⟩
  | 37 => ⟨S131072x384, .f32⟩
  | 38 => ⟨S1x384, .f32⟩
  | 39 => ⟨S131072x384, .f32⟩
  | 40 => ⟨S131072x384, .f32⟩
  | 41 => ⟨S131072x128, .f32⟩
  | 42 => ⟨S131072x128, .f32⟩
  | 43 => ⟨S131072x128, .f32⟩
  | 44 => ⟨S131072x128, .f32⟩
  | 45 => ⟨S131072x128, .f32⟩
  | 46 => ⟨S131072x128, .f32⟩
  | 47 => ⟨S131072x128, .f32⟩
  | 48 => ⟨S131072x128, .f32⟩
  | 49 => ⟨S131072x128, .f32⟩
  | 50 => ⟨S_, .f32⟩
  | 51 => ⟨S131072x128, .f32⟩
  | 52 => ⟨S131072x128, .f32⟩
  | 53 => ⟨S_, .f32⟩
  | 54 => ⟨S131072x128, .f32⟩
  | 55 => ⟨S131072x128, .f32⟩
  | 56 => ⟨S131072x128, .f32⟩
  | 57 => ⟨S131072x128, .f32⟩
  | 58 => ⟨S131072x128, .f32⟩
  | 59 => ⟨S_, .f32⟩
  | 60 => ⟨S131072x128, .f32⟩
  | 61 => ⟨S131072x128, .f32⟩
  | 62 => ⟨S_, .f32⟩
  | 63 => ⟨S131072x128, .f32⟩
  | 64 => ⟨S131072x128, .f32⟩
  | 65 => ⟨S131072x128, .f32⟩
  | 66 => ⟨S131072x128, .f32⟩
  | 67 => ⟨S131072x128, .f32⟩
  | 68 => ⟨S_, .f32⟩
  | 69 => ⟨S131072x128, .f32⟩
  | 70 => ⟨S131072x128, .f32⟩
  | 71 => ⟨S131072x128, .f32⟩
  | 72 => ⟨S131072x128, .f32⟩
  | 73 => ⟨S131072x128, .f32⟩
  | 74 => ⟨S4096x32x128, .f32⟩
  | 75 => ⟨S4096x32x128, .f32⟩
  | 76 => ⟨S1x1x128, .f32⟩
  | 77 => ⟨S4096x32x128, .f32⟩
  | 78 => ⟨S4096x32x128, .f32⟩
  | 79 => ⟨S_, .f32⟩
  | 80 => ⟨S4096x32x128, .f32⟩
  | 81 => ⟨S4096x32x128, .f32⟩
  | 82 => ⟨S4096x32x128, .f32⟩
  | 83 => ⟨S1x1x128, .f32⟩
  | 84 => ⟨S4096x32x128, .f32⟩
  | 85 => ⟨S4096x32x128, .f32⟩
  | 86 => ⟨S_, .f32⟩
  | 87 => ⟨S4096x32x128, .f32⟩
  | 88 => ⟨S4096x32x128, .f32⟩
  | 89 => ⟨S4096x32x128, .f32⟩
  | 90 => ⟨S1x1x128, .f32⟩
  | 91 => ⟨S4096x32x128, .f32⟩
  | 92 => ⟨S4096x32x128, .f32⟩
  | 93 => ⟨S_, .f32⟩
  | 94 => ⟨S4096x32x128, .f32⟩
  | 95 => ⟨S4096x32x128, .f32⟩
  | 96 => ⟨S4096x32x32, .f32⟩
  | 97 => ⟨S4096x32x32, .f32⟩
  | 98 => ⟨S_, .f32⟩
  | 99 => ⟨S4096x32x32, .f32⟩
  | 100 => ⟨S4096x32x32, .f32⟩
  | 101 => ⟨S_, .f32⟩
  | 102 => ⟨S4096x32x32, .f32⟩
  | 103 => ⟨S4096x32x32, .f32⟩
  | 104 => ⟨S4096x32x32, .f32⟩
  | 105 => ⟨S_, .f32⟩
  | 106 => ⟨S4096x32, .f32⟩
  | 107 => ⟨S_, .f32⟩
  | 108 => ⟨S4096x32, .f32⟩
  | 109 => ⟨S4096x32, .f32⟩
  | 110 => ⟨S4096x32x1, .f32⟩
  | 111 => ⟨S4096x32x32, .f32⟩
  | 112 => ⟨S4096x32x32, .f32⟩
  | 113 => ⟨S4096x32x32, .f32⟩
  | 114 => ⟨S_, .f32⟩
  | 115 => ⟨S4096x32, .f32⟩
  | 116 => ⟨S4096x32x1, .f32⟩
  | 117 => ⟨S4096x32x32, .f32⟩
  | 118 => ⟨S4096x32x32, .f32⟩
  | 119 => ⟨S4096x32x128, .f32⟩
  | 120 => ⟨S4096x32x128, .f32⟩
  | 121 => ⟨S1x1x128, .f32⟩
  | 122 => ⟨S4096x32x128, .f32⟩
  | 123 => ⟨S4096x32x128, .f32⟩
  | 124 => ⟨S_, .f32⟩
  | 125 => ⟨S4096x32x128, .f32⟩
  | 126 => ⟨S4096x32x128, .f32⟩
  | 127 => ⟨S4096x32x128, .f32⟩
  | _ => ⟨S131072x96, .f32⟩

abbrev hbmTy0_1 (i : Nat) : BufTy := match i % 128 with
  | 0 => ⟨S1x1x128, .f32⟩
  | 1 => ⟨S4096x32x128, .f32⟩
  | 2 => ⟨S4096x32x128, .f32⟩
  | 3 => ⟨S_, .f32⟩
  | 4 => ⟨S4096x32x128, .f32⟩
  | 5 => ⟨S4096x32x128, .f32⟩
  | 6 => ⟨S4096x32x128, .f32⟩
  | 7 => ⟨S1x1x128, .f32⟩
  | 8 => ⟨S4096x32x128, .f32⟩
  | 9 => ⟨S4096x32x128, .f32⟩
  | 10 => ⟨S_, .f32⟩
  | 11 => ⟨S4096x32x128, .f32⟩
  | 12 => ⟨S4096x32x128, .f32⟩
  | 13 => ⟨S4096x32x32, .f32⟩
  | 14 => ⟨S4096x32x32, .f32⟩
  | 15 => ⟨S_, .f32⟩
  | 16 => ⟨S4096x32x32, .f32⟩
  | 17 => ⟨S4096x32x32, .f32⟩
  | 18 => ⟨S_, .f32⟩
  | 19 => ⟨S4096x32x32, .f32⟩
  | 20 => ⟨S4096x32x32, .f32⟩
  | 21 => ⟨S4096x32x32, .f32⟩
  | 22 => ⟨S_, .f32⟩
  | 23 => ⟨S4096x32, .f32⟩
  | 24 => ⟨S_, .f32⟩
  | 25 => ⟨S4096x32, .f32⟩
  | 26 => ⟨S4096x32, .f32⟩
  | 27 => ⟨S4096x32x1, .f32⟩
  | 28 => ⟨S4096x32x32, .f32⟩
  | 29 => ⟨S4096x32x32, .f32⟩
  | 30 => ⟨S4096x32x32, .f32⟩
  | 31 => ⟨S_, .f32⟩
  | 32 => ⟨S4096x32, .f32⟩
  | 33 => ⟨S4096x32x1, .f32⟩
  | 34 => ⟨S4096x32x32, .f32⟩
  | 35 => ⟨S4096x32x32, .f32⟩
  | 36 => ⟨S4096x32x128, .f32⟩
  | 37 => ⟨S131072x128, .f32⟩
  | 38 => ⟨S128x16, .f32⟩
  | 39 => ⟨S131072x16, .f32⟩
  | 40 => ⟨S1x16, .f32⟩
  | 41 => ⟨S131072x16, .f32⟩
  | 42 => ⟨S131072x16, .f32⟩
  | _ => ⟨S131072x96, .f32⟩

abbrev hbmTy (i : Nat) : BufTy := match i / 128 with
  | 0 => hbmTy0_0 i
  | 1 => hbmTy0_1 i
  | _ => ⟨S131072x96, .f32⟩

abbrev bufTy : (tb : Table) → Fin (tcTables nBuf tb) → BufTy
  | .hbm, ⟨i, _⟩ => hbmTy i
  | _, _ => ⟨S131072x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_call0_cst : Ref sig .tc := ⟨.hbm, 28, rfl⟩
abbrev main_call0_v0 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst : Ref sig .tc := ⟨.hbm, 50, rfl⟩
abbrev main_v25 : Ref sig .tc := ⟨.hbm, 51, rfl⟩
abbrev main_v26 : Ref sig .tc := ⟨.hbm, 52, rfl⟩
abbrev main_cst_0 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_1 : Ref sig .tc := ⟨.hbm, 59, rfl⟩
abbrev main_v32 : Ref sig .tc := ⟨.hbm, 60, rfl⟩
abbrev main_v33 : Ref sig .tc := ⟨.hbm, 61, rfl⟩
abbrev main_cst_2 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_3 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_call1_cst : Ref sig .tc := ⟨.hbm, 79, rfl⟩
abbrev main_call1_v0 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_call2_cst : Ref sig .tc := ⟨.hbm, 86, rfl⟩
abbrev main_call2_v0 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_call3_cst : Ref sig .tc := ⟨.hbm, 93, rfl⟩
abbrev main_call3_v0 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_4 : Ref sig .tc := ⟨.hbm, 98, rfl⟩
abbrev main_v62 : Ref sig .tc := ⟨.hbm, 99, rfl⟩
abbrev main_v63 : Ref sig .tc := ⟨.hbm, 100, rfl⟩
abbrev main_cst_5 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_cst_6 : Ref sig .tc := ⟨.hbm, 105, rfl⟩
abbrev main_v67 : Ref sig .tc := ⟨.hbm, 106, rfl⟩
abbrev main_cst_7 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_cst_8 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_call4_cst : Ref sig .tc := ⟨.hbm, 124, rfl⟩
abbrev main_call4_v0 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_call5_cst : Ref sig .tc := ⟨.hbm, 131, rfl⟩
abbrev main_call5_v0 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_call6_cst : Ref sig .tc := ⟨.hbm, 138, rfl⟩
abbrev main_call6_v0 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_cst_9 : Ref sig .tc := ⟨.hbm, 143, rfl⟩
abbrev main_v96 : Ref sig .tc := ⟨.hbm, 144, rfl⟩
abbrev main_v97 : Ref sig .tc := ⟨.hbm, 145, rfl⟩
abbrev main_cst_10 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_cst_11 : Ref sig .tc := ⟨.hbm, 150, rfl⟩
abbrev main_v101 : Ref sig .tc := ⟨.hbm, 151, rfl⟩
abbrev main_cst_12 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_cst_13 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩

abbrev nD : Nat := 1
abbrev τ : Topo := Topo.v7x

variable {F : FTy → Type} [FloatOps F]

class Facts₀ : Prop where
  transposes_S128x96_S96x128_1_0 : S128x96.Transposes [1, 0] S96x128
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S_S131072x128 : S_.BroadcastsInDim S131072x128 (![] : Fin 0 → Fin S131072x128.rank)
  transposes_S384x128_S128x384_1_0 : S384x128.Transposes [1, 0] S128x384
  bcast_S384_S1x384_1 : S384.BroadcastsInDim S1x384 (![1] : Fin 1 → Fin S1x384.rank)
  bcast_S1x384_S131072x384_0_1 : S1x384.BroadcastsInDim S131072x384 (![0, 1] : Fin 2 → Fin S131072x384.rank)
  slices_S131072x384_S131072x128_0_0 : S131072x384.Slices ![0, 0] S131072x128
  slices_S131072x384_S131072x128_0_128 : S131072x384.Slices ![0, 128] S131072x128
  slices_S131072x384_S131072x128_0_256 : S131072x384.Slices ![0, 256] S131072x128
  shapeCasts_S131072x128_S4096x32x128 : S131072x128.ShapeCasts S4096x32x128
  bcast_S128_S1x1x128_2 : S128.BroadcastsInDim S1x1x128 (![2] : Fin 1 → Fin S1x1x128.rank)
  bcast_S1x1x128_S4096x32x128_0_1_2 : S1x1x128.BroadcastsInDim S4096x32x128 (![0, 1, 2] : Fin 3 → Fin S4096x32x128.rank)
  bcast_S_S4096x32x128 : S_.BroadcastsInDim S4096x32x128 (![] : Fin 0 → Fin S4096x32x128.rank)
  bcast_S_S4096x32x32 : S_.BroadcastsInDim S4096x32x32 (![] : Fin 0 → Fin S4096x32x32.rank)
  reducesTo_S4096x32x32_S4096x32_d2 : S4096x32x32.ReducesTo [2] S4096x32
  h_S_ : 0 < S_.numel
  bcast_S_S4096x32 : S_.BroadcastsInDim S4096x32 (![] : Fin 0 → Fin S4096x32.rank)
  bcast_S4096x32_S4096x32x1_0_1 : S4096x32.BroadcastsInDim S4096x32x1 (![0, 1] : Fin 2 → Fin S4096x32x1.rank)
  bcast_S4096x32x1_S4096x32x32_0_1_2 : S4096x32x1.BroadcastsInDim S4096x32x32 (![0, 1, 2] : Fin 3 → Fin S4096x32x32.rank)
  shapeCasts_S4096x32x128_S131072x128 : S4096x32x128.ShapeCasts S131072x128
  transposes_S16x128_S128x16_1_0 : S16x128.Transposes [1, 0] S128x16
  bcast_S16_S1x16_1 : S16.BroadcastsInDim S1x16 (![1] : Fin 1 → Fin S1x16.rank)
  bcast_S1x16_S131072x16_0_1 : S1x16.BroadcastsInDim S131072x16 (![0, 1] : Fin 2 → Fin S131072x16.rank)
  dot_S131072x96_S96x128_S131072x128_1_0_0_1_n_n_wf : DotDims.WF S131072x96 S96x128 S131072x128 [1] [0] [0] [1] [] []
  dot_S131072x128_S128x384_S131072x384_1_0_0_1_n_n_wf : DotDims.WF S131072x128 S128x384 S131072x384 [1] [0] [0] [1] [] []
  dot_S4096x32x128_S128x128_S4096x32x128_2_1_01_0_n_n_wf : DotDims.WF S4096x32x128 S128x128 S4096x32x128 [2] [1] [0, 1] [0] [] []
  dot_S4096x32x128_S4096x32x128_S4096x32x32_2_2_1_1_0_0_wf : DotDims.WF S4096x32x128 S4096x32x128 S4096x32x32 [2] [2] [1] [1] [0] [0]
  dot_S4096x32x32_S4096x32x128_S4096x32x128_2_1_1_2_0_0_wf : DotDims.WF S4096x32x32 S4096x32x128 S4096x32x128 [2] [1] [1] [2] [0] [0]
  dot_S131072x128_S128x16_S131072x16_1_0_0_1_n_n_wf : DotDims.WF S131072x128 S128x16 S131072x16 [1] [0] [0] [1] [] []

variable [Facts₀]

def dot_S131072x96_S96x128_S131072x128_1_0_0_1_n_n : DotDims S131072x96 S96x128 S131072x128 where
  lhsContracting := [1]
  rhsContracting := [0]
  lhsNonContracting := [0]
  rhsNonContracting := [1]
  lhsBatch := []
  rhsBatch := []
  wf := dot_S131072x96_S96x128_S131072x128_1_0_0_1_n_n_wf
def dot_S131072x128_S128x384_S131072x384_1_0_0_1_n_n : DotDims S131072x128 S128x384 S131072x384 where
  lhsContracting := [1]
  rhsContracting := [0]
  lhsNonContracting := [0]
  rhsNonContracting := [1]
  lhsBatch := []
  rhsBatch := []
  wf := dot_S131072x128_S128x384_S131072x384_1_0_0_1_n_n_wf
def dot_S4096x32x128_S128x128_S4096x32x128_2_1_01_0_n_n : DotDims S4096x32x128 S128x128 S4096x32x128 where
  lhsContracting := [2]
  rhsContracting := [1]
  lhsNonContracting := [0, 1]
  rhsNonContracting := [0]
  lhsBatch := []
  rhsBatch := []
  wf := dot_S4096x32x128_S128x128_S4096x32x128_2_1_01_0_n_n_wf
def dot_S4096x32x128_S4096x32x128_S4096x32x32_2_2_1_1_0_0 : DotDims S4096x32x128 S4096x32x128 S4096x32x32 where
  lhsContracting := [2]
  rhsContracting := [2]
  lhsNonContracting := [1]
  rhsNonContracting := [1]
  lhsBatch := [0]
  rhsBatch := [0]
  wf := dot_S4096x32x128_S4096x32x128_S4096x32x32_2_2_1_1_0_0_wf
def dot_S4096x32x32_S4096x32x128_S4096x32x128_2_1_1_2_0_0 : DotDims S4096x32x32 S4096x32x128 S4096x32x128 where
  lhsContracting := [2]
  rhsContracting := [1]
  lhsNonContracting := [1]
  rhsNonContracting := [2]
  lhsBatch := [0]
  rhsBatch := [0]
  wf := dot_S4096x32x32_S4096x32x128_S4096x32x128_2_1_1_2_0_0_wf
def dot_S131072x128_S128x16_S131072x16_1_0_0_1_n_n : DotDims S131072x128 S128x16 S131072x16 where
  lhsContracting := [1]
  rhsContracting := [0]
  lhsNonContracting := [0]
  rhsNonContracting := [1]
  lhsBatch := []
  rhsBatch := []
  wf := dot_S131072x128_S128x16_S131072x16_1_0_0_1_n_n_wf

class Facts : Prop extends Facts₀ where

variable [Facts]
-- ==== Proof.KBHost.lean ====
import proofs.«403671_j61134564491522_3_alg».proof.Proof.Gen.Kernel.Launch
import proofs.«403671_j61134564491522_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.HFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

abbrev V0 (c : Dev nD) : Valuation τ sig (Elt F) := StableHlo.after (List.flatten [hostOps0]) (fun b => m (c, b))

abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.reshape_writes, Finset.mem_singleton] <;> exact StableHlo.devRef_ne_of_ne (by decide)

noncomputable def written0 : List (Ref sig .tc) :=
  [main_v0, main_v1, main_v2, main_v3, main_v4, main_v5, main_v6, main_v7, main_v8, main_v9, main_v10, main_v11, main_v12, main_v13,
   main_v14, main_v15, main_v16, main_v17, main_v18, main_v19, main_v20, main_v21, main_v22, main_v23, main_v24, main_v25, main_v26, main_v27]

noncomputable def written1 : List (Ref sig .tc) := [main_v29, main_v30]

theorem V_kept (c : Dev nD) (b : Ref sig .tc) (hb : ∀ y ∈ written0, b ≠ y) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.unary_writes, StableHlo.binary_writes, StableHlo.nary_writes, StableHlo.reshape_writes, Finset.mem_singleton]
    repeat' apply And.intro
    all_goals exact StableHlo.devRef_ne_of_ne (hb _ (by simp only [written0, List.mem_cons, true_or, or_true]))))

theorem W_kept (dats : (p : Fin _) → (c : Dev nD) → Dat τ (Elt F) Unit ℕ (UR sig nD τ) ℕ (cfgs p) c) (c : Dev nD) (b : Ref sig .tc)
    (h1 : ∀ y ∈ written1, b ≠ y) (hw : ∀ w, Pipeline.arrRef spec0 w ≠ b) :
    Pipeline.afterTail₀ cfgs dats 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (h1 _ (by simp only [written1, List.mem_cons, true_or, or_true])))),
    Pipeline.withArrays_of_ne _ c (V0 m c) _ b hw]

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The 23 arguments of @main. -/
noncomputable def mainArgs : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22]

section frame
variable (dats : (p : Fin 1) → (c : Dev nD) → Dat τ (Elt F) Unit ℕ (UR sig nD τ) ℕ (cfgs p) c)
  (hA : ∀ c w, (dats 0 c).A w = V m c (Pipeline.arrRef spec0 w))
  {r : PUnit × MemSt nD τ sig (Elt F)}
  (hr : Pipeline.FramePost cfgs dats 0 (Pipeline.afterTail₀ cfgs dats 0 (V0 m) [hostOps1]) r)
include hr

theorem arg_rest (c : Dev nD) (b : Ref sig .tc) (hrest : b ∈ Pipeline.restRefs sig (cfgs 0).spec)
    (h0 : ∀ y ∈ written0, b ≠ y) (h1 : ∀ y ∈ written1, b ≠ y) (hw : ∀ w, Pipeline.arrRef spec0 w ≠ b) :
    r.2.mem ((c.tc : Thread nD τ).loc b) = m ((c.tc : Thread nD τ).loc b) :=
  ((hr c).2 b hrest).trans ((W_kept m dats c b h1 hw).trans (V_kept m c b h0))

include hA

theorem arg_staged (c : Dev nD) (w : Fin cfg0.W) (b : Ref sig .tc) (hb : Pipeline.arrRef spec0 w = b)
    (hin : (cfg0.win w).isOut = false) (h0 : ∀ y ∈ written0, b ≠ y) :
    r.2.mem ((c.tc : Thread nD τ).loc b) = m ((c.tc : Thread nD τ).loc b) := by
  subst hb
  exact ((hr c).1 w).trans (((dats 0 c).arrAt_in w hin _).trans ((hA c w).trans (V_kept m c _ h0)))

/-- No argument is ever written: none is a result buffer of a host line, none an output of the region. -/
theorem args_kept (c : Dev nD) : ∀ b ∈ mainArgs, r.2.mem ((c.tc : Thread nD τ).loc b) = m ((c.tc : Thread nD τ).loc b) := by
  intro b hb
  simp only [mainArgs, List.mem_cons, List.mem_nil_iff, or_false] at hb
  rcases hb with rfl | rfl | rfl | rfl | rfl | rfl | rfl | rfl | rfl | rfl | rfl | rfl | rfl | rfl | rfl | rfl | rfl | rfl | rfl | rfl | rfl | rfl | rfl
  all_goals first
    | exact arg_rest m dats hr c _ (Pipeline.mem_restRefs_of _ (by decide) (by decide)) (by decide) (by decide) (by decide)
    | exact arg_staged m dats hA hr c 2 _ rfl rfl (by decide)
    | exact arg_staged m dats hA hr c 4 _ rfl rfl (by decide)
    | exact arg_staged m dats hA hr c 16 _ rfl rfl (by decide)
end frame

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD, ∀ b ∈ mainArgs,
      r.2.mem ((c.tc : Thread nD τ).loc b) = m ((c.tc : Thread nD τ).loc b)) :=
  (θ_run defs _ _).mono (fun _ hr c => args_kept m dats hA hr c) h

end Cert.Kernel.HFrame

end
-- ==== Proof.KBBody.lean ====
import proofs.«403671_j61134564491522_3_alg».proof.Proof.KBHost
import proofs.«403671_j61134564491522_3_alg».proof.Proof.Gen.Kernel.Skeleton

set_option maxRecDepth 16384

noncomputable section

namespace Cert.Kernel.HFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

abbrev rX : Rect S64x32x96 := Rect.unit (s := S64x32x96) ![0, 0, 0] S64x32x96.size inb_S64x32x96_S64x32x96_0_0_0
abbrev rH : Rect S64x32x128 := Rect.unit (s := S64x32x128) ![0, 0, 0] S64x32x128.size inb_S64x32x128_S64x32x128_0_0_0
abbrev rM : Rect S64x32x32 := Rect.unit (s := S64x32x32) ![0, 0, 0] S64x32x32.size inb_S64x32x32_S64x32x32_0_0_0
abbrev rQ : Rect S64x32x16 := Rect.unit (s := S64x32x16) ![0, 0, 0] S64x32x16.size inb_S64x32x16_S64x32x16_0_0_0
abbrev r96x128 : Rect S96x128 := Rect.unit (s := S96x128) ![0, 0] S96x128.size inb_S96x128_S96x128_0_0
abbrev r256x256 : Rect S256x256 := Rect.unit (s := S256x256) ![0, 0] S256x256.size inb_S256x256_S256x256_0_0
abbrev r128x128 : Rect S128x128 := Rect.unit (s := S128x128) ![0, 0] S128x128.size inb_S128x128_S128x128_0_0
abbrev r128x384 : Rect S128x384 := Rect.unit (s := S128x384) ![0, 0] S128x384.size inb_S128x384_S128x384_0_0
abbrev r128x16 : Rect S128x16 := Rect.unit (s := S128x16) ![0, 0] S128x16.size inb_S128x16_S128x16_0_0
abbrev r128 : Rect S128 := Rect.unit (s := S128) ![0] S128.size inb_S128_S128_0
abbrev r256 : Rect S256 := Rect.unit (s := S256) ![0] S256.size inb_S256_S256_0
abbrev r384 : Rect S384 := Rect.unit (s := S384) ![0] S384.size inb_S384_S384_0
abbrev r16 : Rect S16 := Rect.unit (s := S16) ![0] S16.size inb_S16_S16_0

section values
variable (x0 : Vec F S64x32x96 .f32) (x1 : Vec F S64x32x128 .f32) (x2 : Vec F S64x32x32 .f32) (x3 : Vec F S96x128 .f32) (x4 : Vec F S128 .f32)
  (x5 : Vec F S256x256 .f32) (x6 : Vec F S256 .f32) (x7 : Vec F S128x128 .f32) (x8 : Vec F S128 .f32) (x9 : Vec F S128x128 .f32) (x10 : Vec F S128 .f32)
  (x11 : Vec F S128x384 .f32) (x12 : Vec F S384 .f32) (x13 : Vec F S128x384 .f32) (x14 : Vec F S384 .f32) (x15 : Vec F S128x16 .f32) (x16 : Vec F S16 .f32)

def p1v5 : FVec F S2048x128 .f32 := k0_pay3 (View.ld x1 rH)
def p1v18 : FVec F S2048x128 .bf16 := k0_pay5 (View.ld x1 rH)
def p1v29 : FVec F S2048x128 .f32 :=
  k0_pay7 (View.ld x0 rX) (View.ld x1 rH) (View.ld x3 r96x128) (View.ld x4 r128) (View.ld x5 r256x256) (View.ld x6 r256)
def p1v30 : FVec F S2048x128 .f32 :=
  k0_pay8 (View.ld x0 rX) (View.ld x1 rH) (View.ld x3 r96x128) (View.ld x4 r128) (View.ld x5 r256x256) (View.ld x6 r256)
def p1v39 : FVec F S2048x128 .f32 :=
  k0_pay9 (View.ld x0 rX) (View.ld x3 r96x128) (View.ld x4 r128) (View.ld x7 r128x128) (View.ld x8 r128)

def p2v75 : FVec F S64x32x128 .f32 :=
  k0_pay11 (p1v5 x1) (p1v18 x1) (p1v29 x0 x1 x3 x4 x5 x6) (p1v30 x0 x1 x3 x4 x5 x6) (p1v39 x0 x3 x4 x7 x8)
    (View.ld x9 r128x128) (View.ld x10 r128) (View.ld x11 r128x384) (View.ld x12 r384)
def p2v83 : FVec F S64x32x32 .f32 :=
  k0_pay12 (p1v5 x1) (p1v18 x1) (p1v29 x0 x1 x3 x4 x5 x6) (p1v30 x0 x1 x3 x4 x5 x6) (p1v39 x0 x3 x4 x7 x8)
    (View.ld x9 r128x128) (View.ld x10 r128) (View.ld x2 rM) (View.ld x11 r128x384) (View.ld x12 r384)
def p2v84 : FVec F S64x32x32 .f32 := k0_pay13

def p3v115 : FVec F S64x32x128 .f32 :=
  k0_pay15 (View.ld x2 rM) (p2v75 x0 x1 x3 x4 x5 x6 x7 x8 x9 x10 x11 x12) (p2v83 x0 x1 x2 x3 x4 x5 x6 x7 x8 x9 x10 x11 x12) p2v84
    (View.ld x13 r128x384) (View.ld x14 r384)
def p3v128 : FVec F S64x32x32 .f32 :=
  k0_pay16 (View.ld x2 rM) (p2v75 x0 x1 x3 x4 x5 x6 x7 x8 x9 x10 x11 x12) (p2v83 x0 x1 x2 x3 x4 x5 x6 x7 x8 x9 x10 x11 x12) p2v84
    (View.ld x13 r128x384) (View.ld x14 r384)
def p3v131 : FVec F S64x32x32 .f32 :=
  k0_pay17 (View.ld x2 rM) (p2v75 x0 x1 x3 x4 x5 x6 x7 x8 x9 x10 x11 x12) (p2v83 x0 x1 x2 x3 x4 x5 x6 x7 x8 x9 x10 x11 x12) p2v84
    (View.ld x13 r128x384) (View.ld x14 r384)

def out0_18 : Vec F S64x32x128 .f32 :=
  View.canon [⟨rH, k0_pay1 (p3v115 x0 x1 x2 x3 x4 x5 x6 x7 x8 x9 x10 x11 x12 x13 x14) (p3v128 x0 x1 x2 x3 x4 x5 x6 x7 x8 x9 x10 x11 x12 x13 x14)
    (p3v131 x0 x1 x2 x3 x4 x5 x6 x7 x8 x9 x10 x11 x12 x13 x14)⟩]

def out0_17 : Vec F S64x32x16 .f32 :=
  View.canon [⟨rQ, k0_pay2 (p3v115 x0 x1 x2 x3 x4 x5 x6 x7 x8 x9 x10 x11 x12 x13 x14) (p3v128 x0 x1 x2 x3 x4 x5 x6 x7 x8 x9 x10 x11 x12 x13 x14)
    (p3v131 x0 x1 x2 x3 x4 x5 x6 x7 x8 x9 x10 x11 x12 x13 x14) (View.ld x15 r128x16) (View.ld x16 r16)⟩]
end values

theorem cover0_18 (p0 : Vec F S64x32x128 .f32) (y : S64x32x128.Idx) :
    ∃ pc ∈ ([⟨rH, p0⟩] : List (View.Piece (Elt F) S64x32x128 .f32)), y ∈ pc.1.set :=
  View.cover_of_tiled [⟨rH, p0⟩] S64x32x128.size (by rfl) y
theorem cover0_17 (p0 : Vec F S64x32x16 .f32) (y : S64x32x16.Idx) :
    ∃ pc ∈ ([⟨rQ, p0⟩] : List (View.Piece (Elt F) S64x32x16 .f32)), y ∈ pc.1.set :=
  View.cover_of_tiled [⟨rQ, p0⟩] S64x32x16.size (by rfl) y

local notation "𝕄" => MT nD τ sig Unit (Elt F) ℕ (UR sig nD τ) ℕ

set_option maxHeartbeats 1000000 in

theorem sound_kernel (c : Dev nD) (E : Set ℕ) (i : grid0.Coords)
    (arg1 : Memref sig .tc .vmem S64x32x96 .f32) (harg1 : arg1.IsWhole)
    (arg2 : Memref sig .tc .vmem S64x32x128 .f32) (harg2 : arg2.IsWhole)
    (arg3 : Memref sig .tc .vmem S64x32x32 .f32) (harg3 : arg3.IsWhole)
    (arg4 : Memref sig .tc .vmem S96x128 .f32) (harg4 : arg4.IsWhole)
    (arg5 : Memref sig .tc .vmem S128 .f32) (harg5 : arg5.IsWhole)
    (arg6 : Memref sig .tc .vmem S256x256 .f32) (harg6 : arg6.IsWhole)
    (arg7 : Memref sig .tc .vmem S256 .f32) (harg7 : arg7.IsWhole)
    (arg8 : Memref sig .tc .vmem S128x128 .f32) (harg8 : arg8.IsWhole)
    (arg9 : Memref sig .tc .vmem S128 .f32) (harg9 : arg9.IsWhole)
    (arg10 : Memref sig .tc .vmem S128x128 .f32) (harg10 : arg10.IsWhole)
    (arg11 : Memref sig .tc .vmem S128 .f32) (harg11 : arg11.IsWhole)
    (arg12 : Memref sig .tc .vmem S128x384 .f32) (harg12 : arg12.IsWhole)
    (arg13 : Memref sig .tc .vmem S384 .f32) (harg13 : arg13.IsWhole)
    (arg14 : Memref sig .tc .vmem S128x384 .f32) (harg14 : arg14.IsWhole)
    (arg15 : Memref sig .tc .vmem S384 .f32) (harg15 : arg15.IsWhole)
    (arg16 : Memref sig .tc .vmem S128x16 .f32) (harg16 : arg16.IsWhole)
    (arg17 : Memref sig .tc .vmem S16 .f32) (harg17 : arg17.IsWhole)
    (arg18 : Memref sig .tc .vmem S64x32x16 .f32) (harg18 : arg18.IsWhole)
    (arg19 : Memref sig .tc .vmem S64x32x128 .f32) (harg19 : arg19.IsWhole)
    (x0 : Vec F S64x32x96 .f32) (x1 : Vec F S64x32x128 .f32) (x2 : Vec F S64x32x32 .f32) (x3 : Vec F S96x128 .f32) (x4 : Vec F S128 .f32) (x5 : Vec F S256x256 .f32) (x6 : Vec F S256 .f32) (x7 : Vec F S128x128 .f32) (x8 : Vec F S128 .f32) (x9 : Vec F S128x128 .f32) (x10 : Vec F S128 .f32) (x11 : Vec F S128x384 .f32) (x12 : Vec F S384 .f32) (x13 : Vec F S128x384 .f32) (x14 : Vec F S384 .f32) (x15 : Vec F S128x16 .f32) (x16 : Vec F S16 .f32)
    (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11
        ∗ owns (c : Thread nD τ) arg13 fullShare x12
        ∗ owns (c : Thread nD τ) arg14 fullShare x13
        ∗ owns (c : Thread nD τ) arg15 fullShare x14
        ∗ owns (c : Thread nD τ) arg16 fullShare x15
        ∗ owns (c : Thread nD τ) arg17 fullShare x16
        ∗ (∃ d, owns (c : Thread nD τ) arg18 fullShare d)
        ∗ (∃ d, owns (c : Thread nD τ) arg19 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare x12
            ∗ owns (c : Thread nD τ) arg14 fullShare x13
            ∗ owns (c : Thread nD τ) arg15 fullShare x14
            ∗ owns (c : Thread nD τ) arg16 fullShare x15
            ∗ owns (c : Thread nD τ) arg17 fullShare x16
            ∗ owns (c : Thread nD τ) arg18 fullShare (out0_17 x0 x1 x2 x3 x4 x5 x6 x7 x8 x9 x10 x11 x12 x13 x14 x15 x16)
            ∗ owns (c : Thread nD τ) arg19 fullShare (out0_18 x0 x1 x2 x3 x4 x5 x6 x7 x8 x9 x10 x11 x12 x13 x14)) -∗ K ⟨⟩))
      ⊢ wp frame (wpE (defs₀ (F := F)) Variants.none c none) E
          (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__fused_kernel_eq_skeleton]; unfold cc0__fused_kernel_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, Hk⟩
  subst hf0 hf1 hf2 hf3 hf4 hf5 hf6 hf7 hf8 hf9 hf10 hf11 hf12 hf13 hf14 hf15 hf16
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists _; isplitr
    swap; · iexact H17
    ipureintro
    exact View.read_writes_eq_canon _ _ _ (cover0_17 _)
  iexists _; isplitr
  swap; · iexact H18
  ipureintro
  exact View.read_writes_eq_canon _ _ _ (cover0_18 _)

end Cert.Kernel.HFrame

end
-- ==== Proof.KBFrame.lean ====
import proofs.«403671_j61134564491522_3_alg».proof.Proof.KBBody

set_option maxRecDepth 16384

noncomputable section

namespace Cert.Kernel.HFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body leaves in the two output blocks at point `t`. -/
abbrev o17 (c : Dev nD) (t : Fin cfg0.N) := out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
abbrev o18 (c : Dev nD) (t : Fin cfg0.N) := out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => o17 m c t
    | ⟨18, _⟩ => o18 m c t
    | ⟨_ + 19, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_17 (c : Dev nD) (t : Fin cfg0.N) :
    (dats m 0 c).after 17 t = o17 m c t := by dsimp only [dats]
theorem after0_18 (c : Dev nD) (t : Fin cfg0.N) :
    (dats m 0 c).after 18 t = o18 m c t := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]

theorem blockOf_eq (c : Dev nD) (w : Fin cfg0.W) (t : Fin cfg0.N) : (dats m 0 c).blockOf w t = iblk m c w t := by
  unfold Dat.blockOf iblk; rw [A_eq]

theorem before0_0 (c : Dev nD) (t : Fin cfg0.N) (d) : (dats m 0 c).before 0 t d = iblk m c 0 t := by
  rw [(dats m 0 c).before_in_eq_fetched 0 rfl (fun _ => rfl) (fun _ _ _ => rfl) (fun t => by rw [after0_0, blockOf_eq])]
  unfold Dat.fetched; rw [blockOf_eq]; rfl
theorem before0_1 (c : Dev nD) (t : Fin cfg0.N) (d) : (dats m 0 c).before 1 t d = iblk m c 1 t := by
  rw [(dats m 0 c).before_in_eq_fetched 1 rfl (fun _ => rfl) (fun _ _ _ => rfl) (fun t => by rw [after0_1, blockOf_eq])]
  unfold Dat.fetched; rw [blockOf_eq]; rfl
theorem before0_2 (c : Dev nD) (t : Fin cfg0.N) (d) : (dats m 0 c).before 2 t d = iblk m c 2 t := by
  rw [(dats m 0 c).before_in_eq_fetched 2 rfl (fun _ => rfl) (fun _ _ _ => rfl) (fun t => by rw [after0_2, blockOf_eq])]
  unfold Dat.fetched; rw [blockOf_eq]; rfl
theorem before0_3 (c : Dev nD) (t : Fin cfg0.N) (d) : (dats m 0 c).before 3 t d = iblk m c 3 t := by
  rw [(dats m 0 c).before_in_eq_fetched 3 rfl (fun _ => rfl) (fun _ _ _ => rfl) (fun t => by rw [after0_3, blockOf_eq])]
  unfold Dat.fetched; rw [blockOf_eq]; rfl
theorem before0_4 (c : Dev nD) (t : Fin cfg0.N) (d) : (dats m 0 c).before 4 t d = iblk m c 4 t := by
  rw [(dats m 0 c).before_in_eq_fetched 4 rfl (fun _ => rfl) (fun _ _ _ => rfl) (fun t => by rw [after0_4, blockOf_eq])]
  unfold Dat.fetched; rw [blockOf_eq]; rfl
theorem before0_5 (c : Dev nD) (t : Fin cfg0.N) (d) : (dats m 0 c).before 5 t d = iblk m c 5 t := by
  rw [(dats m 0 c).before_in_eq_fetched 5 rfl (fun _ => rfl) (fun _ _ _ => rfl) (fun t => by rw [after0_5, blockOf_eq])]
  unfold Dat.fetched; rw [blockOf_eq]; rfl
theorem before0_6 (c : Dev nD) (t : Fin cfg0.N) (d) : (dats m 0 c).before 6 t d = iblk m c 6 t := by
  rw [(dats m 0 c).before_in_eq_fetched 6 rfl (fun _ => rfl) (fun _ _ _ => rfl) (fun t => by rw [after0_6, blockOf_eq])]
  unfold Dat.fetched; rw [blockOf_eq]; rfl
theorem before0_7 (c : Dev nD) (t : Fin cfg0.N) (d) : (dats m 0 c).before 7 t d = iblk m c 7 t := by
  rw [(dats m 0 c).before_in_eq_fetched 7 rfl (fun _ => rfl) (fun _ _ _ => rfl) (fun t => by rw [after0_7, blockOf_eq])]
  unfold Dat.fetched; rw [blockOf_eq]; rfl
theorem before0_8 (c : Dev nD) (t : Fin cfg0.N) (d) : (dats m 0 c).before 8 t d = iblk m c 8 t := by
  rw [(dats m 0 c).before_in_eq_fetched 8 rfl (fun _ => rfl) (fun _ _ _ => rfl) (fun t => by rw [after0_8, blockOf_eq])]
  unfold Dat.fetched; rw [blockOf_eq]; rfl
theorem before0_9 (c : Dev nD) (t : Fin cfg0.N) (d) : (dats m 0 c).before 9 t d = iblk m c 9 t := by
  rw [(dats m 0 c).before_in_eq_fetched 9 rfl (fun _ => rfl) (fun _ _ _ => rfl) (fun t => by rw [after0_9, blockOf_eq])]
  unfold Dat.fetched; rw [blockOf_eq]; rfl
theorem before0_10 (c : Dev nD) (t : Fin cfg0.N) (d) : (dats m 0 c).before 10 t d = iblk m c 10 t := by
  rw [(dats m 0 c).before_in_eq_fetched 10 rfl (fun _ => rfl) (fun _ _ _ => rfl) (fun t => by rw [after0_10, blockOf_eq])]
  unfold Dat.fetched; rw [blockOf_eq]; rfl
theorem before0_11 (c : Dev nD) (t : Fin cfg0.N) (d) : (dats m 0 c).before 11 t d = iblk m c 11 t := by
  rw [(dats m 0 c).before_in_eq_fetched 11 rfl (fun _ => rfl) (fun _ _ _ => rfl) (fun t => by rw [after0_11, blockOf_eq])]
  unfold Dat.fetched; rw [blockOf_eq]; rfl
theorem before0_12 (c : Dev nD) (t : Fin cfg0.N) (d) : (dats m 0 c).before 12 t d = iblk m c 12 t := by
  rw [(dats m 0 c).before_in_eq_fetched 12 rfl (fun _ => rfl) (fun _ _ _ => rfl) (fun t => by rw [after0_12, blockOf_eq])]
  unfold Dat.fetched; rw [blockOf_eq]; rfl
theorem before0_13 (c : Dev nD) (t : Fin cfg0.N) (d) : (dats m 0 c).before 13 t d = iblk m c 13 t := by
  rw [(dats m 0 c).before_in_eq_fetched 13 rfl (fun _ => rfl) (fun _ _ _ => rfl) (fun t => by rw [after0_13, blockOf_eq])]
  unfold Dat.fetched; rw [blockOf_eq]; rfl
theorem before0_14 (c : Dev nD) (t : Fin cfg0.N) (d) : (dats m 0 c).before 14 t d = iblk m c 14 t := by
  rw [(dats m 0 c).before_in_eq_fetched 14 rfl (fun _ => rfl) (fun _ _ _ => rfl) (fun t => by rw [after0_14, blockOf_eq])]
  unfold Dat.fetched; rw [blockOf_eq]; rfl
theorem before0_15 (c : Dev nD) (t : Fin cfg0.N) (d) : (dats m 0 c).before 15 t d = iblk m c 15 t := by
  rw [(dats m 0 c).before_in_eq_fetched 15 rfl (fun _ => rfl) (fun _ _ _ => rfl) (fun t => by rw [after0_15, blockOf_eq])]
  unfold Dat.fetched; rw [blockOf_eq]; rfl
theorem before0_16 (c : Dev nD) (t : Fin cfg0.N) (d) : (dats m 0 c).before 16 t d = iblk m c 16 t := by
  rw [(dats m 0 c).before_in_eq_fetched 16 rfl (fun _ => rfl) (fun _ _ _ => rfl) (fun t => by rw [after0_16, blockOf_eq])]
  unfold Dat.fetched; rw [blockOf_eq]; rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (sound_kernel c Set.univ (grid0.coords t) _ _ _ _ _ _ _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  iintro ⟨H0, H1, H2, H3, H4, H5, H6, H7, H8, H9, H10, H11, H12, H13, H14, H15, H16, H17, H18⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

theorem body_obligation (c : Dev nD) : BodyObligation (dats (F := F) m 0 c) (defs₀ (F := F)) Variants.none () Set.univ := fun t => by
  rw [bigSep_W0, bigSep_W0]
  exact sound_body m c t

set_option backward.isDefEq.respectTransparency.types false in

theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: every weakly fair execution ends, faultless, with the arguments as launched. -/
theorem frame : θ_run defs (onTc (τ := τ) (main (F := F))) ⟨m, fun _ => 0, ρ⟩ (fun r => ∀ c : Dev nD, ∀ b ∈ mainArgs,
      r.2.mem ((c.tc : Thread nD τ).loc b) = m ((c.tc : Thread nD τ).loc b)) :=
  frame_of m ρ (dats m) (A_eq m) (run_main m ρ)

end Cert.Kernel.HFrame

end
-- ==== Proof.KIHost.lean ====
import proofs.«403671_j61134564491522_3_alg».proof.Proof.Gen.KernelIdeal.Launch
import proofs.«403671_j61134564491522_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.HFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

abbrev V0 (c : Dev nD) : Valuation τ sig (Elt F) := StableHlo.after (List.flatten [hostOps0]) (fun b => m (c, b))

abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.reshape_writes, Finset.mem_singleton] <;> exact StableHlo.devRef_ne_of_ne (by decide)

noncomputable def written0 : List (Ref sig .tc) :=
  [main_v0, main_v1, main_v2, main_v3, main_v4, main_v5, main_v6, main_v7, main_v8, main_v9, main_v10, main_v11, main_v12, main_v13,
   main_v14, main_v15, main_v16, main_v17, main_v18, main_v19, main_v20, main_v21, main_v22, main_v23, main_v24, main_v25, main_v26, main_v27]

noncomputable def written1 : List (Ref sig .tc) := [main_v29, main_v30]

theorem V_kept (c : Dev nD) (b : Ref sig .tc) (hb : ∀ y ∈ written0, b ≠ y) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.unary_writes, StableHlo.binary_writes, StableHlo.nary_writes, StableHlo.reshape_writes, Finset.mem_singleton]
    repeat' apply And.intro
    all_goals exact StableHlo.devRef_ne_of_ne (hb _ (by simp only [written0, List.mem_cons, true_or, or_true]))))

theorem W_kept (dats : (p : Fin _) → (c : Dev nD) → Dat τ (Elt F) Unit ℕ (UR sig nD τ) ℕ (cfgs p) c) (c : Dev nD) (b : Ref sig .tc)
    (h1 : ∀ y ∈ written1, b ≠ y) (hw : ∀ w, Pipeline.arrRef spec0 w ≠ b) :
    Pipeline.afterTail₀ cfgs dats 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (h1 _ (by simp only [written1, List.mem_cons, true_or, or_true])))),
    Pipeline.withArrays_of_ne _ c (V0 m c) _ b hw]

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The 23 arguments of @main. -/
noncomputable def mainArgs : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22]

section frame
variable (dats : (p : Fin 1) → (c : Dev nD) → Dat τ (Elt F) Unit ℕ (UR sig nD τ) ℕ (cfgs p) c)
  (hA : ∀ c w, (dats 0 c).A w = V m c (Pipeline.arrRef spec0 w))
  {r : PUnit × MemSt nD τ sig (Elt F)}
  (hr : Pipeline.FramePost cfgs dats 0 (Pipeline.afterTail₀ cfgs dats 0 (V0 m) [hostOps1]) r)
include hr

theorem arg_rest (c : Dev nD) (b : Ref sig .tc) (hrest : b ∈ Pipeline.restRefs sig (cfgs 0).spec)
    (h0 : ∀ y ∈ written0, b ≠ y) (h1 : ∀ y ∈ written1, b ≠ y) (hw : ∀ w, Pipeline.arrRef spec0 w ≠ b) :
    r.2.mem ((c.tc : Thread nD τ).loc b) = m ((c.tc : Thread nD τ).loc b) :=
  ((hr c).2 b hrest).trans ((W_kept m dats c b h1 hw).trans (V_kept m c b h0))

include hA

theorem arg_staged (c : Dev nD) (w : Fin cfg0.W) (b : Ref sig .tc) (hb : Pipeline.arrRef spec0 w = b)
    (hin : (cfg0.win w).isOut = false) (h0 : ∀ y ∈ written0, b ≠ y) :
    r.2.mem ((c.tc : Thread nD τ).loc b) = m ((c.tc : Thread nD τ).loc b) := by
  subst hb
  exact ((hr c).1 w).trans (((dats 0 c).arrAt_in w hin _).trans ((hA c w).trans (V_kept m c _ h0)))

/-- No argument is ever written: none is a result buffer of a host line, none an output of the region. -/
theorem args_kept (c : Dev nD) : ∀ b ∈ mainArgs, r.2.mem ((c.tc : Thread nD τ).loc b) = m ((c.tc : Thread nD τ).loc b) := by
  intro b hb
  simp only [mainArgs, List.mem_cons, List.mem_nil_iff, or_false] at hb
  rcases hb with rfl | rfl | rfl | rfl | rfl | rfl | rfl | rfl | rfl | rfl | rfl | rfl | rfl | rfl | rfl | rfl | rfl | rfl | rfl | rfl | rfl | rfl | rfl
  all_goals first
    | exact arg_rest m dats hr c _ (Pipeline.mem_restRefs_of _ (by decide) (by decide)) (by decide) (by decide) (by decide)
    | exact arg_staged m dats hA hr c 2 _ rfl rfl (by decide)
    | exact arg_staged m dats hA hr c 4 _ rfl rfl (by decide)
    | exact arg_staged m dats hA hr c 16 _ rfl rfl (by decide)
end frame

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD, ∀ b ∈ mainArgs,
      r.2.mem ((c.tc : Thread nD τ).loc b) = m ((c.tc : Thread nD τ).loc b)) :=
  (θ_run defs _ _).mono (fun _ hr c => args_kept m dats hA hr c) h

end Cert.KernelIdeal.HFrame

end
-- ==== Proof.KIBody.lean ====
import proofs.«403671_j61134564491522_3_alg».proof.Proof.KIHost
import proofs.«403671_j61134564491522_3_alg».proof.Proof.Gen.KernelIdeal.Skeleton

set_option maxRecDepth 16384

noncomputable section

namespace Cert.KernelIdeal.HFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

abbrev rX : Rect S64x32x96 := Rect.unit (s := S64x32x96) ![0, 0, 0] S64x32x96.size inb_S64x32x96_S64x32x96_0_0_0
abbrev rH : Rect S64x32x128 := Rect.unit (s := S64x32x128) ![0, 0, 0] S64x32x128.size inb_S64x32x128_S64x32x128_0_0_0
abbrev rM : Rect S64x32x32 := Rect.unit (s := S64x32x32) ![0, 0, 0] S64x32x32.size inb_S64x32x32_S64x32x32_0_0_0
abbrev rQ : Rect S64x32x16 := Rect.unit (s := S64x32x16) ![0, 0, 0] S64x32x16.size inb_S64x32x16_S64x32x16_0_0_0
abbrev r96x128 : Rect S96x128 := Rect.unit (s := S96x128) ![0, 0] S96x128.size inb_S96x128_S96x128_0_0
abbrev r256x256 : Rect S256x256 := Rect.unit (s := S256x256) ![0, 0] S256x256.size inb_S256x256_S256x256_0_0
abbrev r128x128 : Rect S128x128 := Rect.unit (s := S128x128) ![0, 0] S128x128.size inb_S128x128_S128x128_0_0
abbrev r128x384 : Rect S128x384 := Rect.unit (s := S128x384) ![0, 0] S128x384.size inb_S128x384_S128x384_0_0
abbrev r128x16 : Rect S128x16 := Rect.unit (s := S128x16) ![0, 0] S128x16.size inb_S128x16_S128x16_0_0
abbrev r128 : Rect S128 := Rect.unit (s := S128) ![0] S128.size inb_S128_S128_0
abbrev r256 : Rect S256 := Rect.unit (s := S256) ![0] S256.size inb_S256_S256_0
abbrev r384 : Rect S384 := Rect.unit (s := S384) ![0] S384.size inb_S384_S384_0
abbrev r16 : Rect S16 := Rect.unit (s := S16) ![0] S16.size inb_S16_S16_0

section values
variable (x0 : Vec F S64x32x96 .f32) (x1 : Vec F S64x32x128 .f32) (x2 : Vec F S64x32x32 .f32) (x3 : Vec F S96x128 .f32) (x4 : Vec F S128 .f32)
  (x5 : Vec F S256x256 .f32) (x6 : Vec F S256 .f32) (x7 : Vec F S128x128 .f32) (x8 : Vec F S128 .f32) (x9 : Vec F S128x128 .f32) (x10 : Vec F S128 .f32)
  (x11 : Vec F S128x384 .f32) (x12 : Vec F S384 .f32) (x13 : Vec F S128x384 .f32) (x14 : Vec F S384 .f32) (x15 : Vec F S128x16 .f32) (x16 : Vec F S16 .f32)

def p1v5 : FVec F S2048x128 .f32 := k0_pay3 (View.ld x1 rH)
def p1v18 : FVec F S2048x128 .bf16 := k0_pay5 (View.ld x1 rH)
def p1v29 : FVec F S2048x128 .f32 :=
  k0_pay7 (View.ld x0 rX) (View.ld x1 rH) (View.ld x3 r96x128) (View.ld x4 r128) (View.ld x5 r256x256) (View.ld x6 r256)
def p1v30 : FVec F S2048x128 .f32 :=
  k0_pay8 (View.ld x0 rX) (View.ld x1 rH) (View.ld x3 r96x128) (View.ld x4 r128) (View.ld x5 r256x256) (View.ld x6 r256)
def p1v39 : FVec F S2048x128 .f32 :=
  k0_pay9 (View.ld x0 rX) (View.ld x3 r96x128) (View.ld x4 r128) (View.ld x7 r128x128) (View.ld x8 r128)

def p2v75 : FVec F S64x32x128 .f32 :=
  k0_pay11 (p1v5 x1) (p1v18 x1) (p1v29 x0 x1 x3 x4 x5 x6) (p1v30 x0 x1 x3 x4 x5 x6) (p1v39 x0 x3 x4 x7 x8)
    (View.ld x9 r128x128) (View.ld x10 r128) (View.ld x11 r128x384) (View.ld x12 r384)
def p2v83 : FVec F S64x32x32 .f32 :=
  k0_pay12 (p1v5 x1) (p1v18 x1) (p1v29 x0 x1 x3 x4 x5 x6) (p1v30 x0 x1 x3 x4 x5 x6) (p1v39 x0 x3 x4 x7 x8)
    (View.ld x9 r128x128) (View.ld x10 r128) (View.ld x2 rM) (View.ld x11 r128x384) (View.ld x12 r384)
def p2v84 : FVec F S64x32x32 .f32 := k0_pay13

def p3v115 : FVec F S64x32x128 .f32 :=
  k0_pay15 (View.ld x2 rM) (p2v75 x0 x1 x3 x4 x5 x6 x7 x8 x9 x10 x11 x12) (p2v83 x0 x1 x2 x3 x4 x5 x6 x7 x8 x9 x10 x11 x12) p2v84
    (View.ld x13 r128x384) (View.ld x14 r384)
def p3v128 : FVec F S64x32x32 .f32 :=
  k0_pay16 (View.ld x2 rM) (p2v75 x0 x1 x3 x4 x5 x6 x7 x8 x9 x10 x11 x12) (p2v83 x0 x1 x2 x3 x4 x5 x6 x7 x8 x9 x10 x11 x12) p2v84
    (View.ld x13 r128x384) (View.ld x14 r384)
def p3v131 : FVec F S64x32x32 .f32 :=
  k0_pay17 (View.ld x2 rM) (p2v75 x0 x1 x3 x4 x5 x6 x7 x8 x9 x10 x11 x12) (p2v83 x0 x1 x2 x3 x4 x5 x6 x7 x8 x9 x10 x11 x12) p2v84
    (View.ld x13 r128x384) (View.ld x14 r384)

def out0_18 : Vec F S64x32x128 .f32 :=
  View.canon [⟨rH, k0_pay1 (p3v115 x0 x1 x2 x3 x4 x5 x6 x7 x8 x9 x10 x11 x12 x13 x14) (p3v128 x0 x1 x2 x3 x4 x5 x6 x7 x8 x9 x10 x11 x12 x13 x14)
    (p3v131 x0 x1 x2 x3 x4 x5 x6 x7 x8 x9 x10 x11 x12 x13 x14)⟩]

def out0_17 : Vec F S64x32x16 .f32 :=
  View.canon [⟨rQ, k0_pay2 (p3v115 x0 x1 x2 x3 x4 x5 x6 x7 x8 x9 x10 x11 x12 x13 x14) (p3v128 x0 x1 x2 x3 x4 x5 x6 x7 x8 x9 x10 x11 x12 x13 x14)
    (p3v131 x0 x1 x2 x3 x4 x5 x6 x7 x8 x9 x10 x11 x12 x13 x14) (View.ld x15 r128x16) (View.ld x16 r16)⟩]
end values

theorem cover0_18 (p0 : Vec F S64x32x128 .f32) (y : S64x32x128.Idx) :
    ∃ pc ∈ ([⟨rH, p0⟩] : List (View.Piece (Elt F) S64x32x128 .f32)), y ∈ pc.1.set :=
  View.cover_of_tiled [⟨rH, p0⟩] S64x32x128.size (by rfl) y
theorem cover0_17 (p0 : Vec F S64x32x16 .f32) (y : S64x32x16.Idx) :
    ∃ pc ∈ ([⟨rQ, p0⟩] : List (View.Piece (Elt F) S64x32x16 .f32)), y ∈ pc.1.set :=
  View.cover_of_tiled [⟨rQ, p0⟩] S64x32x16.size (by rfl) y

local notation "𝕄" => MT nD τ sig Unit (Elt F) ℕ (UR sig nD τ) ℕ

set_option maxHeartbeats 1000000 in

theorem sound_kernel (c : Dev nD) (E : Set ℕ) (i : grid0.Coords)
    (arg1 : Memref sig .tc .vmem S64x32x96 .f32) (harg1 : arg1.IsWhole)
    (arg2 : Memref sig .tc .vmem S64x32x128 .f32) (harg2 : arg2.IsWhole)
    (arg3 : Memref sig .tc .vmem S64x32x32 .f32) (harg3 : arg3.IsWhole)
    (arg4 : Memref sig .tc .vmem S96x128 .f32) (harg4 : arg4.IsWhole)
    (arg5 : Memref sig .tc .vmem S128 .f32) (harg5 : arg5.IsWhole)
    (arg6 : Memref sig .tc .vmem S256x256 .f32) (harg6 : arg6.IsWhole)
    (arg7 : Memref sig .tc .vmem S256 .f32) (harg7 : arg7.IsWhole)
    (arg8 : Memref sig .tc .vmem S128x128 .f32) (harg8 : arg8.IsWhole)
    (arg9 : Memref sig .tc .vmem S128 .f32) (harg9 : arg9.IsWhole)
    (arg10 : Memref sig .tc .vmem S128x128 .f32) (harg10 : arg10.IsWhole)
    (arg11 : Memref sig .tc .vmem S128 .f32) (harg11 : arg11.IsWhole)
    (arg12 : Memref sig .tc .vmem S128x384 .f32) (harg12 : arg12.IsWhole)
    (arg13 : Memref sig .tc .vmem S384 .f32) (harg13 : arg13.IsWhole)
    (arg14 : Memref sig .tc .vmem S128x384 .f32) (harg14 : arg14.IsWhole)
    (arg15 : Memref sig .tc .vmem S384 .f32) (harg15 : arg15.IsWhole)
    (arg16 : Memref sig .tc .vmem S128x16 .f32) (harg16 : arg16.IsWhole)
    (arg17 : Memref sig .tc .vmem S16 .f32) (harg17 : arg17.IsWhole)
    (arg18 : Memref sig .tc .vmem S64x32x16 .f32) (harg18 : arg18.IsWhole)
    (arg19 : Memref sig .tc .vmem S64x32x128 .f32) (harg19 : arg19.IsWhole)
    (x0 : Vec F S64x32x96 .f32) (x1 : Vec F S64x32x128 .f32) (x2 : Vec F S64x32x32 .f32) (x3 : Vec F S96x128 .f32) (x4 : Vec F S128 .f32) (x5 : Vec F S256x256 .f32) (x6 : Vec F S256 .f32) (x7 : Vec F S128x128 .f32) (x8 : Vec F S128 .f32) (x9 : Vec F S128x128 .f32) (x10 : Vec F S128 .f32) (x11 : Vec F S128x384 .f32) (x12 : Vec F S384 .f32) (x13 : Vec F S128x384 .f32) (x14 : Vec F S384 .f32) (x15 : Vec F S128x16 .f32) (x16 : Vec F S16 .f32)
    (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11
        ∗ owns (c : Thread nD τ) arg13 fullShare x12
        ∗ owns (c : Thread nD τ) arg14 fullShare x13
        ∗ owns (c : Thread nD τ) arg15 fullShare x14
        ∗ owns (c : Thread nD τ) arg16 fullShare x15
        ∗ owns (c : Thread nD τ) arg17 fullShare x16
        ∗ (∃ d, owns (c : Thread nD τ) arg18 fullShare d)
        ∗ (∃ d, owns (c : Thread nD τ) arg19 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare x12
            ∗ owns (c : Thread nD τ) arg14 fullShare x13
            ∗ owns (c : Thread nD τ) arg15 fullShare x14
            ∗ owns (c : Thread nD τ) arg16 fullShare x15
            ∗ owns (c : Thread nD τ) arg17 fullShare x16
            ∗ owns (c : Thread nD τ) arg18 fullShare (out0_17 x0 x1 x2 x3 x4 x5 x6 x7 x8 x9 x10 x11 x12 x13 x14 x15 x16)
            ∗ owns (c : Thread nD τ) arg19 fullShare (out0_18 x0 x1 x2 x3 x4 x5 x6 x7 x8 x9 x10 x11 x12 x13 x14)) -∗ K ⟨⟩))
      ⊢ wp frame (wpE (defs₀ (F := F)) Variants.none c none) E
          (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__fused_kernel_eq_skeleton]; unfold cc0__fused_kernel_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, Hk⟩
  subst hf0 hf1 hf2 hf3 hf4 hf5 hf6 hf7 hf8 hf9 hf10 hf11 hf12 hf13 hf14 hf15 hf16
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists _; isplitr
    swap; · iexact H17
    ipureintro
    exact View.read_writes_eq_canon _ _ _ (cover0_17 _)
  iexists _; isplitr
  swap; · iexact H18
  ipureintro
  exact View.read_writes_eq_canon _ _ _ (cover0_18 _)

end Cert.KernelIdeal.HFrame

end
-- ==== Proof.KIFrame.lean ====
import proofs.«403671_j61134564491522_3_alg».proof.Proof.KIBody

set_option maxRecDepth 16384

noncomputable section

namespace Cert.KernelIdeal.HFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body leaves in the two output blocks at point `t`. -/
abbrev o17 (c : Dev nD) (t : Fin cfg0.N) := out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
abbrev o18 (c : Dev nD) (t : Fin cfg0.N) := out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => o17 m c t
    | ⟨18, _⟩ => o18 m c t
    | ⟨_ + 19, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_17 (c : Dev nD) (t : Fin cfg0.N) :
    (dats m 0 c).after 17 t = o17 m c t := by dsimp only [dats]
theorem after0_18 (c : Dev nD) (t : Fin cfg0.N) :
    (dats m 0 c).after 18 t = o18 m c t := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]

theorem blockOf_eq (c : Dev nD) (w : Fin cfg0.W) (t : Fin cfg0.N) : (dats m 0 c).blockOf w t = iblk m c w t := by
  unfold Dat.blockOf iblk; rw [A_eq]

theorem before0_0 (c : Dev nD) (t : Fin cfg0.N) (d) : (dats m 0 c).before 0 t d = iblk m c 0 t := by
  rw [(dats m 0 c).before_in_eq_fetched 0 rfl (fun _ => rfl) (fun _ _ _ => rfl) (fun t => by rw [after0_0, blockOf_eq])]
  unfold Dat.fetched; rw [blockOf_eq]; rfl
theorem before0_1 (c : Dev nD) (t : Fin cfg0.N) (d) : (dats m 0 c).before 1 t d = iblk m c 1 t := by
  rw [(dats m 0 c).before_in_eq_fetched 1 rfl (fun _ => rfl) (fun _ _ _ => rfl) (fun t => by rw [after0_1, blockOf_eq])]
  unfold Dat.fetched; rw [blockOf_eq]; rfl
theorem before0_2 (c : Dev nD) (t : Fin cfg0.N) (d) : (dats m 0 c).before 2 t d = iblk m c 2 t := by
  rw [(dats m 0 c).before_in_eq_fetched 2 rfl (fun _ => rfl) (fun _ _ _ => rfl) (fun t => by rw [after0_2, blockOf_eq])]
  unfold Dat.fetched; rw [blockOf_eq]; rfl
theorem before0_3 (c : Dev nD) (t : Fin cfg0.N) (d) : (dats m 0 c).before 3 t d = iblk m c 3 t := by
  rw [(dats m 0 c).before_in_eq_fetched 3 rfl (fun _ => rfl) (fun _ _ _ => rfl) (fun t => by rw [after0_3, blockOf_eq])]
  unfold Dat.fetched; rw [blockOf_eq]; rfl
theorem before0_4 (c : Dev nD) (t : Fin cfg0.N) (d) : (dats m 0 c).before 4 t d = iblk m c 4 t := by
  rw [(dats m 0 c).before_in_eq_fetched 4 rfl (fun _ => rfl) (fun _ _ _ => rfl) (fun t => by rw [after0_4, blockOf_eq])]
  unfold Dat.fetched; rw [blockOf_eq]; rfl
theorem before0_5 (c : Dev nD) (t : Fin cfg0.N) (d) : (dats m 0 c).before 5 t d = iblk m c 5 t := by
  rw [(dats m 0 c).before_in_eq_fetched 5 rfl (fun _ => rfl) (fun _ _ _ => rfl) (fun t => by rw [after0_5, blockOf_eq])]
  unfold Dat.fetched; rw [blockOf_eq]; rfl
theorem before0_6 (c : Dev nD) (t : Fin cfg0.N) (d) : (dats m 0 c).before 6 t d = iblk m c 6 t := by
  rw [(dats m 0 c).before_in_eq_fetched 6 rfl (fun _ => rfl) (fun _ _ _ => rfl) (fun t => by rw [after0_6, blockOf_eq])]
  unfold Dat.fetched; rw [blockOf_eq]; rfl
theorem before0_7 (c : Dev nD) (t : Fin cfg0.N) (d) : (dats m 0 c).before 7 t d = iblk m c 7 t := by
  rw [(dats m 0 c).before_in_eq_fetched 7 rfl (fun _ => rfl) (fun _ _ _ => rfl) (fun t => by rw [after0_7, blockOf_eq])]
  unfold Dat.fetched; rw [blockOf_eq]; rfl
theorem before0_8 (c : Dev nD) (t : Fin cfg0.N) (d) : (dats m 0 c).before 8 t d = iblk m c 8 t := by
  rw [(dats m 0 c).before_in_eq_fetched 8 rfl (fun _ => rfl) (fun _ _ _ => rfl) (fun t => by rw [after0_8, blockOf_eq])]
  unfold Dat.fetched; rw [blockOf_eq]; rfl
theorem before0_9 (c : Dev nD) (t : Fin cfg0.N) (d) : (dats m 0 c).before 9 t d = iblk m c 9 t := by
  rw [(dats m 0 c).before_in_eq_fetched 9 rfl (fun _ => rfl) (fun _ _ _ => rfl) (fun t => by rw [after0_9, blockOf_eq])]
  unfold Dat.fetched; rw [blockOf_eq]; rfl
theorem before0_10 (c : Dev nD) (t : Fin cfg0.N) (d) : (dats m 0 c).before 10 t d = iblk m c 10 t := by
  rw [(dats m 0 c).before_in_eq_fetched 10 rfl (fun _ => rfl) (fun _ _ _ => rfl) (fun t => by rw [after0_10, blockOf_eq])]
  unfold Dat.fetched; rw [blockOf_eq]; rfl
theorem before0_11 (c : Dev nD) (t : Fin cfg0.N) (d) : (dats m 0 c).before 11 t d = iblk m c 11 t := by
  rw [(dats m 0 c).before_in_eq_fetched 11 rfl (fun _ => rfl) (fun _ _ _ => rfl) (fun t => by rw [after0_11, blockOf_eq])]
  unfold Dat.fetched; rw [blockOf_eq]; rfl
theorem before0_12 (c : Dev nD) (t : Fin cfg0.N) (d) : (dats m 0 c).before 12 t d = iblk m c 12 t := by
  rw [(dats m 0 c).before_in_eq_fetched 12 rfl (fun _ => rfl) (fun _ _ _ => rfl) (fun t => by rw [after0_12, blockOf_eq])]
  unfold Dat.fetched; rw [blockOf_eq]; rfl
theorem before0_13 (c : Dev nD) (t : Fin cfg0.N) (d) : (dats m 0 c).before 13 t d = iblk m c 13 t := by
  rw [(dats m 0 c).before_in_eq_fetched 13 rfl (fun _ => rfl) (fun _ _ _ => rfl) (fun t => by rw [after0_13, blockOf_eq])]
  unfold Dat.fetched; rw [blockOf_eq]; rfl
theorem before0_14 (c : Dev nD) (t : Fin cfg0.N) (d) : (dats m 0 c).before 14 t d = iblk m c 14 t := by
  rw [(dats m 0 c).before_in_eq_fetched 14 rfl (fun _ => rfl) (fun _ _ _ => rfl) (fun t => by rw [after0_14, blockOf_eq])]
  unfold Dat.fetched; rw [blockOf_eq]; rfl
theorem before0_15 (c : Dev nD) (t : Fin cfg0.N) (d) : (dats m 0 c).before 15 t d = iblk m c 15 t := by
  rw [(dats m 0 c).before_in_eq_fetched 15 rfl (fun _ => rfl) (fun _ _ _ => rfl) (fun t => by rw [after0_15, blockOf_eq])]
  unfold Dat.fetched; rw [blockOf_eq]; rfl
theorem before0_16 (c : Dev nD) (t : Fin cfg0.N) (d) : (dats m 0 c).before 16 t d = iblk m c 16 t := by
  rw [(dats m 0 c).before_in_eq_fetched 16 rfl (fun _ => rfl) (fun _ _ _ => rfl) (fun t => by rw [after0_16, blockOf_eq])]
  unfold Dat.fetched; rw [blockOf_eq]; rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (sound_kernel c Set.univ (grid0.coords t) _ _ _ _ _ _ _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  iintro ⟨H0, H1, H2, H3, H4, H5, H6, H7, H8, H9, H10, H11, H12, H13, H14, H15, H16, H17, H18⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

theorem body_obligation (c : Dev nD) : BodyObligation (dats (F := F) m 0 c) (defs₀ (F := F)) Variants.none () Set.univ := fun t => by
  rw [bigSep_W0, bigSep_W0]
  exact sound_body m c t

set_option backward.isDefEq.respectTransparency.types false in

theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: every weakly fair execution ends, faultless, with the arguments as launched. -/
theorem frame : θ_run defs (onTc (τ := τ) (main (F := F))) ⟨m, fun _ => 0, ρ⟩ (fun r => ∀ c : Dev nD, ∀ b ∈ mainArgs,
      r.2.mem ((c.tc : Thread nD τ).loc b) = m ((c.tc : Thread nD τ).loc b)) :=
  frame_of m ρ (dats m) (A_eq m) (run_main m ρ)

end Cert.KernelIdeal.HFrame

end
-- ==== Proof.Spec.lean ====
import Idealize.ShloMosaic.PureOps.Ideal
import Mathlib.Algebra.BigOperators.Fin

noncomputable section

namespace RNNSpec

open Idealize.ShloMosaic

abbrev one32 : EReal := Ideal.ofBits .f32 0x3F800000#32
abbrev big32 : EReal := Ideal.ofBits .f32 0x59FFCB9E#32

/-- An affine row: `x · W j + b j`. -/
def dense {n k : ℕ} (W : Fin n → Fin k → EReal) (b : Fin n → EReal) (x : Fin k → EReal) (j : Fin n) : EReal :=
  (∑ d : Fin k, x d * W j d) + b j

def relu (x : EReal) : EReal := max x 0

/-- The three 128-wide bands of a 384-wide axis. -/
def lo (j : Fin 128) : Fin 384 := ⟨j.val, by omega⟩
def mid (j : Fin 128) : Fin 384 := ⟨j.val + 128, by omega⟩
def hi (j : Fin 128) : Fin 384 := ⟨j.val + 256, by omega⟩

section row
variable (Wfc1 : Fin 128 → Fin 96 → EReal) (bfc1 : Fin 128 → EReal)
variable (Wih : Fin 384 → Fin 128 → EReal) (bih : Fin 384 → EReal)
variable (Whh : Fin 384 → Fin 128 → EReal) (bhh : Fin 384 → EReal)

def fc1 (x : Fin 96 → EReal) (j : Fin 128) : EReal := relu (dense Wfc1 bfc1 x j)

/-- The GRU's reset, update and candidate gates, read off bands `lo`, `mid`, `hi` of the 384 rows. -/
def rgate (x h : Fin 128 → EReal) (j : Fin 128) : EReal :=
  Ideal.logistic (dense Wih bih x (lo j) + dense Whh bhh h (lo j))
def zgate (x h : Fin 128 → EReal) (j : Fin 128) : EReal :=
  Ideal.logistic (dense Wih bih x (mid j) + dense Whh bhh h (mid j))
def ngate (x h : Fin 128 → EReal) (j : Fin 128) : EReal :=
  Ideal.tanh (dense Wih bih x (hi j) + rgate Wih bih Whh bhh x h j * dense Whh bhh h (hi j))

/-- The new hidden row, `(1 - z) · n + z · h`. -/
def gru (x h : Fin 128 → EReal) (j : Fin 128) : EReal :=
  (one32 - zgate Wih bih Whh bhh x h j) * ngate Wih bih Whh bhh x h j + zgate Wih bih Whh bhh x h j * h j

def cell (x : Fin 96 → EReal) (h : Fin 128 → EReal) (j : Fin 128) : EReal :=
  gru Wih bih Whh bhh (fc1 Wfc1 bfc1 x) h j
end row

section attention
variable (Wv : Fin 128 → Fin 128 → EReal) (bv : Fin 128 → EReal)
variable (Wk : Fin 128 → Fin 128 → EReal) (bk : Fin 128 → EReal)
variable (Wq : Fin 128 → Fin 128 → EReal) (bq : Fin 128 → EReal)

def proj (W : Fin 128 → Fin 128 → EReal) (b : Fin 128 → EReal) (H : Fin 32 → Fin 128 → EReal) (a : Fin 32) (j : Fin 128) : EReal :=
  relu (dense W b (H a) j)

def score (q k : Fin 32 → Fin 128 → EReal) (i j : Fin 32) : EReal := ∑ h : Fin 128, q i h * k j h

/-- The score where the mask is 1, pushed down by `big32` where it is 0. -/
def masked (s m : EReal) : EReal := s * m - big32 * (one32 - m)

def rowmax (s : Fin 32 → EReal) : EReal := (Finset.univ : Finset (Fin 32)).fold max ⊥ s

/-- Softmax with the row's maximum subtracted first. -/
def soft (s : Fin 32 → EReal) (j : Fin 32) : EReal :=
  Ideal.div (Ideal.exp (s j - rowmax s)) (∑ j' : Fin 32, Ideal.exp (s j' - rowmax s))

def logits (M : Fin 32 → Fin 32 → EReal) (H : Fin 32 → Fin 128 → EReal) (i j : Fin 32) : EReal :=
  masked (score (proj Wq bq H) (proj Wk bk H) i j) (M i j)

/-- One attention layer over the 32 agents: softmax of the masked query-key scores, mixed with the values. -/
def att (M : Fin 32 → Fin 32 → EReal) (H : Fin 32 → Fin 128 → EReal) (i : Fin 32) (h : Fin 128) : EReal :=
  ∑ j : Fin 32, soft (logits Wk bk Wq bq M H i) j * proj Wv bv H j h
end attention

structure Weights where
  Wfc1 : Fin 128 → Fin 96 → EReal
  bfc1 : Fin 128 → EReal
  Wih : Fin 384 → Fin 128 → EReal
  bih : Fin 384 → EReal
  Whh : Fin 384 → Fin 128 → EReal
  bhh : Fin 384 → EReal
  Wfc2 : Fin 16 → Fin 128 → EReal
  bfc2 : Fin 16 → EReal
  Wv1 : Fin 128 → Fin 128 → EReal
  bv1 : Fin 128 → EReal
  Wk1 : Fin 128 → Fin 128 → EReal
  bk1 : Fin 128 → EReal
  Wq1 : Fin 128 → Fin 128 → EReal
  bq1 : Fin 128 → EReal
  Wv2 : Fin 128 → Fin 128 → EReal
  bv2 : Fin 128 → EReal
  Wk2 : Fin 128 → Fin 128 → EReal
  bk2 : Fin 128 → EReal
  Wq2 : Fin 128 → Fin 128 → EReal
  bq2 : Fin 128 → EReal

section net
variable (P : Weights)

/-- The network of one batch element: GRU rows, two attention layers, and the linear head on the second. -/
def H0 (X : Fin 32 → Fin 96 → EReal) (Hd : Fin 32 → Fin 128 → EReal) (a : Fin 32) (j : Fin 128) : EReal :=
  cell P.Wfc1 P.bfc1 P.Wih P.bih P.Whh P.bhh (X a) (Hd a) j
def H1 (X : Fin 32 → Fin 96 → EReal) (Hd : Fin 32 → Fin 128 → EReal) (M : Fin 32 → Fin 32 → EReal) : Fin 32 → Fin 128 → EReal :=
  att P.Wv1 P.bv1 P.Wk1 P.bk1 P.Wq1 P.bq1 M (H0 P X Hd)

def H2 (X : Fin 32 → Fin 96 → EReal) (Hd : Fin 32 → Fin 128 → EReal) (M : Fin 32 → Fin 32 → EReal) : Fin 32 → Fin 128 → EReal :=
  att P.Wv2 P.bv2 P.Wk2 P.bk2 P.Wq2 P.bq2 M (H1 P X Hd M)

def Q (X : Fin 32 → Fin 96 → EReal) (Hd : Fin 32 → Fin 128 → EReal) (M : Fin 32 → Fin 32 → EReal) (a : Fin 32) (j : Fin 16) : EReal :=
  dense P.Wfc2 P.bfc2 (H2 P X Hd M a) j
end net

end RNNSpec

end
-- ==== Proof.KIface.lean ====
import proofs.«403671_j61134564491522_3_alg».proof.Proof.Spec

namespace RNNSpec

/-- Agent `a` of batch element `b` is row `b·32 + a` of a 64-element block. -/
def brow (b : Fin 64) (a : Fin 32) : Fin 2048 := ⟨b.val * 32 + a.val, by omega⟩

/-- The fused reset/update weight: its 256 rows are the input half then the hidden half; its 256 columns are the first two bands of the 384. -/
def lo256 (k : Fin 128) : Fin 256 := ⟨k.val, by omega⟩
def hi256 (k : Fin 128) : Fin 256 := ⟨k.val + 128, by omega⟩
def c384 (c : Fin 256) : Fin 384 := ⟨c.val, by omega⟩

theorem c384_lo256 (j : Fin 128) : c384 (lo256 j) = lo j := rfl
theorem c384_hi256 (j : Fin 128) : c384 (hi256 j) = mid j := rfl

end RNNSpec
-- ==== Proof.KMat.lean ====
import proofs.«403671_j61134564491522_3_alg».proof.Proof.Gen.KernelIdeal.Skeleton
import proofs.«403671_j61134564491522_3_alg».proof.Proof.KIface
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HValue

open Idealize.ShloMosaic Idealize.ShloMosaic.ValueIdx Cert.KernelIdeal Cert.KernelIdeal.Gen RNNSpec

/-! The kernel's four matrix-product shapes, each into a zero accumulator, read at an index: a sum over the one
    contracted coordinate. The axis lemmas say which coordinate each operand axis reads. -/

theorem lhsA_0 (i : S2048x128.Idx) (q : dot_S2048x128_S128x128_S2048x128_1_0_0_1_n_n.contr.Idx) :
    (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
theorem lhsA_1 (i : S2048x128.Idx) (q : dot_S2048x128_S128x128_S2048x128_1_0_0_1_n_n.contr.Idx) :
    (dot_S2048x128_S128x128_S2048x128_1_0_0_1_n_n.lhsIdx i q 1).val = (q ⟨0, by decide⟩).val :=
  dot_S2048x128_S128x128_S2048x128_1_0_0_1_n_n.lhsIdx_val_of_single rfl i q
theorem rhsA_0 (i : S2048x128.Idx) (q : dot_S2048x128_S128x128_S2048x128_1_0_0_1_n_n.contr.Idx) :
    (dot_S2048x128_S128x128_S2048x128_1_0_0_1_n_n.rhsIdx i q 0).val = (q ⟨0, by decide⟩).val :=
  dot_S2048x128_S128x128_S2048x128_1_0_0_1_n_n.rhsIdx_val_of_single rfl i q
theorem rhsA_1 (i : S2048x128.Idx) (q : dot_S2048x128_S128x128_S2048x128_1_0_0_1_n_n.contr.Idx) :
    (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

theorem mmA_apply {φ₁ φ₂ : FTy} (A : FVec Ideal S2048x128 φ₁) (B : FVec Ideal S128x128 φ₂) (r : Fin 2048) (c : Fin 128) :
    matmul dot_S2048x128_S128x128_S2048x128_1_0_0_1_n_n none A B (constant (F := Ideal) S2048x128 .f32 0x00000000#32) (ix2 r c)
      = ∑ k : Fin 128, A (ix2 r k) * B (ix2 k c) := by
  simp only [matmul]
  rw [Ideal.matmul_constant_zero_apply, ← Equiv.sum_comp (contrEquiv1 dot_S2048x128_S128x128_S2048x128_1_0_0_1_n_n 128 rfl rfl).symm]
  refine Finset.sum_congr rfl fun k _ => ?_
  have hk := contrEquiv1_symm_val dot_S2048x128_S128x128_S2048x128_1_0_0_1_n_n 128 rfl rfl k
  have el : dot_S2048x128_S128x128_S2048x128_1_0_0_1_n_n.lhsIdx (ix2 r c) ((contrEquiv1 dot_S2048x128_S128x128_S2048x128_1_0_0_1_n_n 128 rfl rfl).symm k) = ix2 r k := funext fun a => Fin.ext (by
    match a with
    | ⟨0, _⟩ => exact lhsA_0 _ _
    | ⟨1, _⟩ => exact (lhsA_1 _ _).trans hk)
  have er : dot_S2048x128_S128x128_S2048x128_1_0_0_1_n_n.rhsIdx (ix2 r c) ((contrEquiv1 dot_S2048x128_S128x128_S2048x128_1_0_0_1_n_n 128 rfl rfl).symm k) = ix2 k c := funext fun a => Fin.ext (by
    match a with
    | ⟨0, _⟩ => exact (rhsA_0 _ _).trans hk
    | ⟨1, _⟩ => exact rhsA_1 _ _)
  rw [el, er]

theorem lhsB_0 (i : S2048x384.Idx) (q : dot_S2048x128_S128x384_S2048x384_1_0_0_1_n_n.contr.Idx) :
    (dot_S2048x128_S128x384_S2048x384_1_0_0_1_n_n.lhsIdx i q 0).val = (i 0).val := by
  unfold DotDims.lhsIdx
  rw [dif_neg (show ¬(0 : Fin S2048x128.rank) ∈ dot_S2048x128_S128x384_S2048x384_1_0_0_1_n_n.lhsBatch by decide), dif_pos (show (0 : Fin S2048x128.rank) ∈ dot_S2048x128_S128x384_S2048x384_1_0_0_1_n_n.lhsNonContracting by decide)]
  rfl
theorem lhsB_1 (i : S2048x384.Idx) (q : dot_S2048x128_S128x384_S2048x384_1_0_0_1_n_n.contr.Idx) :
    (dot_S2048x128_S128x384_S2048x384_1_0_0_1_n_n.lhsIdx i q 1).val = (q ⟨0, by decide⟩).val :=
  dot_S2048x128_S128x384_S2048x384_1_0_0_1_n_n.lhsIdx_val_of_single rfl i q
theorem rhsB_0 (i : S2048x384.Idx) (q : dot_S2048x128_S128x384_S2048x384_1_0_0_1_n_n.contr.Idx) :
    (dot_S2048x128_S128x384_S2048x384_1_0_0_1_n_n.rhsIdx i q 0).val = (q ⟨0, by decide⟩).val :=
  dot_S2048x128_S128x384_S2048x384_1_0_0_1_n_n.rhsIdx_val_of_single rfl i q
theorem rhsB_1 (i : S2048x384.Idx) (q : dot_S2048x128_S128x384_S2048x384_1_0_0_1_n_n.contr.Idx) :
    (dot_S2048x128_S128x384_S2048x384_1_0_0_1_n_n.rhsIdx i q 1).val = (i 1).val := by
  unfold DotDims.rhsIdx
  rw [dif_neg (show ¬(1 : Fin S128x384.rank) ∈ dot_S2048x128_S128x384_S2048x384_1_0_0_1_n_n.rhsBatch by decide), dif_pos (show (1 : Fin S128x384.rank) ∈ dot_S2048x128_S128x384_S2048x384_1_0_0_1_n_n.rhsNonContracting by decide)]
  rfl

theorem mmB_apply {φ₁ φ₂ : FTy} (A : FVec Ideal S2048x128 φ₁) (B : FVec Ideal S128x384 φ₂) (r : Fin 2048) (c : Fin 384) :
    matmul dot_S2048x128_S128x384_S2048x384_1_0_0_1_n_n none A B (constant (F := Ideal) S2048x384 .f32 0x00000000#32) (ix2 r c)
      = ∑ k : Fin 128, A (ix2 r k) * B (ix2 k c) := by
  simp only [matmul]
  rw [Ideal.matmul_constant_zero_apply, ← Equiv.sum_comp (contrEquiv1 dot_S2048x128_S128x384_S2048x384_1_0_0_1_n_n 128 rfl rfl).symm]
  refine Finset.sum_congr rfl fun k _ => ?_
  have hk := contrEquiv1_symm_val dot_S2048x128_S128x384_S2048x384_1_0_0_1_n_n 128 rfl rfl k
  have el : dot_S2048x128_S128x384_S2048x384_1_0_0_1_n_n.lhsIdx (ix2 r c) ((contrEquiv1 dot_S2048x128_S128x384_S2048x384_1_0_0_1_n_n 128 rfl rfl).symm k) = ix2 r k := funext fun a => Fin.ext (by
    match a with
    | ⟨0, _⟩ => exact lhsB_0 _ _
    | ⟨1, _⟩ => exact (lhsB_1 _ _).trans hk)
  have er : dot_S2048x128_S128x384_S2048x384_1_0_0_1_n_n.rhsIdx (ix2 r c) ((contrEquiv1 dot_S2048x128_S128x384_S2048x384_1_0_0_1_n_n 128 rfl rfl).symm k) = ix2 k c := funext fun a => Fin.ext (by
    match a with
    | ⟨0, _⟩ => exact (rhsB_0 _ _).trans hk
    | ⟨1, _⟩ => exact rhsB_1 _ _)
  rw [el, er]

theorem lhsC_0 (i : S64x32x32.Idx) (q : dot_S64x32x128_S64x32x128_S64x32x32_2_2_1_1_0_0.contr.Idx) :
    (dot_S64x32x128_S64x32x128_S64x32x32_2_2_1_1_0_0.lhsIdx i q 0).val = (i 0).val := by
  unfold DotDims.lhsIdx
  rw [dif_pos (show (0 : Fin S64x32x128.rank) ∈ dot_S64x32x128_S64x32x128_S64x32x32_2_2_1_1_0_0.lhsBatch by decide)]
  rfl
theorem lhsC_1 (i : S64x32x32.Idx) (q : dot_S64x32x128_S64x32x128_S64x32x32_2_2_1_1_0_0.contr.Idx) :
    (dot_S64x32x128_S64x32x128_S64x32x32_2_2_1_1_0_0.lhsIdx i q 1).val = (i 1).val := by
  unfold DotDims.lhsIdx
  rw [dif_neg (show ¬(1 : Fin S64x32x128.rank) ∈ dot_S64x32x128_S64x32x128_S64x32x32_2_2_1_1_0_0.lhsBatch by decide), dif_pos (show (1 : Fin S64x32x128.rank) ∈ dot_S64x32x128_S64x32x128_S64x32x32_2_2_1_1_0_0.lhsNonContracting by decide)]
  rfl
theorem lhsC_2 (i : S64x32x32.Idx) (q : dot_S64x32x128_S64x32x128_S64x32x32_2_2_1_1_0_0.contr.Idx) :
    (dot_S64x32x128_S64x32x128_S64x32x32_2_2_1_1_0_0.lhsIdx i q 2).val = (q ⟨0, by decide⟩).val :=
  dot_S64x32x128_S64x32x128_S64x32x32_2_2_1_1_0_0.lhsIdx_val_of_single rfl i q
theorem rhsC_0 (i : S64x32x32.Idx) (q : dot_S64x32x128_S64x32x128_S64x32x32_2_2_1_1_0_0.contr.Idx) :
    (dot_S64x32x128_S64x32x128_S64x32x32_2_2_1_1_0_0.rhsIdx i q 0).val = (i 0).val := by
  unfold DotDims.rhsIdx
  rw [dif_pos (show (0 : Fin S64x32x128.rank) ∈ dot_S64x32x128_S64x32x128_S64x32x32_2_2_1_1_0_0.rhsBatch by decide)]
  rfl
theorem rhsC_1 (i : S64x32x32.Idx) (q : dot_S64x32x128_S64x32x128_S64x32x32_2_2_1_1_0_0.contr.Idx) :
    (dot_S64x32x128_S64x32x128_S64x32x32_2_2_1_1_0_0.rhsIdx i q 1).val = (i 2).val := by
  unfold DotDims.rhsIdx
  rw [dif_neg (show ¬(1 : Fin S64x32x128.rank) ∈ dot_S64x32x128_S64x32x128_S64x32x32_2_2_1_1_0_0.rhsBatch by decide), dif_pos (show (1 : Fin S64x32x128.rank) ∈ dot_S64x32x128_S64x32x128_S64x32x32_2_2_1_1_0_0.rhsNonContracting by decide)]
  rfl
theorem rhsC_2 (i : S64x32x32.Idx) (q : dot_S64x32x128_S64x32x128_S64x32x32_2_2_1_1_0_0.contr.Idx) :
    (dot_S64x32x128_S64x32x128_S64x32x32_2_2_1_1_0_0.rhsIdx i q 2).val = (q ⟨0, by decide⟩).val :=
  dot_S64x32x128_S64x32x128_S64x32x32_2_2_1_1_0_0.rhsIdx_val_of_single rfl i q

theorem mmC_apply {φ₁ φ₂ : FTy} (A : FVec Ideal S64x32x128 φ₁) (B : FVec Ideal S64x32x128 φ₂) (b : Fin 64) (i j : Fin 32) :
    matmul dot_S64x32x128_S64x32x128_S64x32x32_2_2_1_1_0_0 none A B (constant (F := Ideal) S64x32x32 .f32 0x00000000#32) (ix3 b i j)
      = ∑ h : Fin 128, A (ix3 b i h) * B (ix3 b j h) := by
  simp only [matmul]
  rw [Ideal.matmul_constant_zero_apply, ← Equiv.sum_comp (contrEquiv1 dot_S64x32x128_S64x32x128_S64x32x32_2_2_1_1_0_0 128 rfl rfl).symm]
  refine Finset.sum_congr rfl fun k _ => ?_
  have hk := contrEquiv1_symm_val dot_S64x32x128_S64x32x128_S64x32x32_2_2_1_1_0_0 128 rfl rfl k
  have el : dot_S64x32x128_S64x32x128_S64x32x32_2_2_1_1_0_0.lhsIdx (ix3 b i j) ((contrEquiv1 dot_S64x32x128_S64x32x128_S64x32x32_2_2_1_1_0_0 128 rfl rfl).symm k) = ix3 b i k := funext fun a => Fin.ext (by
    match a with
    | ⟨0, _⟩ => exact lhsC_0 _ _
    | ⟨1, _⟩ => exact lhsC_1 _ _
    | ⟨2, _⟩ => exact (lhsC_2 _ _).trans hk)
  have er : dot_S64x32x128_S64x32x128_S64x32x32_2_2_1_1_0_0.rhsIdx (ix3 b i j) ((contrEquiv1 dot_S64x32x128_S64x32x128_S64x32x32_2_2_1_1_0_0 128 rfl rfl).symm k) = ix3 b j k := funext fun a => Fin.ext (by
    match a with
    | ⟨0, _⟩ => exact rhsC_0 _ _
    | ⟨1, _⟩ => exact rhsC_1 _ _
    | ⟨2, _⟩ => exact (rhsC_2 _ _).trans hk)
  rw [el, er]

theorem mix_lhs_0 (i : S64x32x128.Idx) (q : dot_S64x32x32_S64x32x128_S64x32x128_2_1_1_2_0_0.contr.Idx) :
    (dot_S64x32x32_S64x32x128_S64x32x128_2_1_1_2_0_0.lhsIdx i q 0).val = (i 0).val := by
  unfold DotDims.lhsIdx
  rw [dif_pos (show (0 : Fin S64x32x32.rank) ∈ dot_S64x32x32_S64x32x128_S64x32x128_2_1_1_2_0_0.lhsBatch by decide)]
  rfl
theorem mix_lhs_1 (i : S64x32x128.Idx) (q : dot_S64x32x32_S64x32x128_S64x32x128_2_1_1_2_0_0.contr.Idx) :
    (dot_S64x32x32_S64x32x128_S64x32x128_2_1_1_2_0_0.lhsIdx i q 1).val = (i 1).val := by
  unfold DotDims.lhsIdx
  rw [dif_neg (show ¬(1 : Fin S64x32x32.rank) ∈ dot_S64x32x32_S64x32x128_S64x32x128_2_1_1_2_0_0.lhsBatch by decide), dif_pos (show (1 : Fin S64x32x32.rank) ∈ dot_S64x32x32_S64x32x128_S64x32x128_2_1_1_2_0_0.lhsNonContracting by decide)]
  rfl
theorem mix_lhs_2 (i : S64x32x128.Idx) (q : dot_S64x32x32_S64x32x128_S64x32x128_2_1_1_2_0_0.contr.Idx) :
    (dot_S64x32x32_S64x32x128_S64x32x128_2_1_1_2_0_0.lhsIdx i q 2).val = (q ⟨0, by decide⟩).val :=
  dot_S64x32x32_S64x32x128_S64x32x128_2_1_1_2_0_0.lhsIdx_val_of_single rfl i q
theorem mix_rhs_0 (i : S64x32x128.Idx) (q : dot_S64x32x32_S64x32x128_S64x32x128_2_1_1_2_0_0.contr.Idx) :
    (dot_S64x32x32_S64x32x128_S64x32x128_2_1_1_2_0_0.rhsIdx i q 0).val = (i 0).val := by
  unfold DotDims.rhsIdx
  rw [dif_pos (show (0 : Fin S64x32x128.rank) ∈ dot_S64x32x32_S64x32x128_S64x32x128_2_1_1_2_0_0.rhsBatch by decide)]
  rfl
theorem mix_rhs_1 (i : S64x32x128.Idx) (q : dot_S64x32x32_S64x32x128_S64x32x128_2_1_1_2_0_0.contr.Idx) :
    (dot_S64x32x32_S64x32x128_S64x32x128_2_1_1_2_0_0.rhsIdx i q 1).val = (q ⟨0, by decide⟩).val :=
  dot_S64x32x32_S64x32x128_S64x32x128_2_1_1_2_0_0.rhsIdx_val_of_single rfl i q
theorem mix_rhs_2 (i : S64x32x128.Idx) (q : dot_S64x32x32_S64x32x128_S64x32x128_2_1_1_2_0_0.contr.Idx) :
    (dot_S64x32x32_S64x32x128_S64x32x128_2_1_1_2_0_0.rhsIdx i q 2).val = (i 2).val := by
  unfold DotDims.rhsIdx
  rw [dif_neg (show ¬(2 : Fin S64x32x128.rank) ∈ dot_S64x32x32_S64x32x128_S64x32x128_2_1_1_2_0_0.rhsBatch by decide), dif_pos (show (2 : Fin S64x32x128.rank) ∈ dot_S64x32x32_S64x32x128_S64x32x128_2_1_1_2_0_0.rhsNonContracting by decide)]
  rfl

theorem mix_apply (A : FVec Ideal S64x32x32 .bf16) (B : FVec Ideal S64x32x128 .bf16) (b : Fin 64) (i : Fin 32) (h : Fin 128) :
    matmul dot_S64x32x32_S64x32x128_S64x32x128_2_1_1_2_0_0 none A B (constant (F := Ideal) S64x32x128 .f32 0x00000000#32) (ix3 b i h)
      = ∑ j : Fin 32, A (ix3 b i j) * B (ix3 b j h) := by
  simp only [matmul]
  rw [Ideal.matmul_constant_zero_apply, ← Equiv.sum_comp (contrEquiv1 dot_S64x32x32_S64x32x128_S64x32x128_2_1_1_2_0_0 32 rfl rfl).symm]
  refine Finset.sum_congr rfl fun k _ => ?_
  have hk := contrEquiv1_symm_val dot_S64x32x32_S64x32x128_S64x32x128_2_1_1_2_0_0 32 rfl rfl k
  have el : dot_S64x32x32_S64x32x128_S64x32x128_2_1_1_2_0_0.lhsIdx (ix3 b i h) ((contrEquiv1 dot_S64x32x32_S64x32x128_S64x32x128_2_1_1_2_0_0 32 rfl rfl).symm k) = ix3 b i k := funext fun a => Fin.ext (by
    match a with
    | ⟨0, _⟩ => exact mix_lhs_0 _ _
    | ⟨1, _⟩ => exact mix_lhs_1 _ _
    | ⟨2, _⟩ => exact (mix_lhs_2 _ _).trans hk)
  have er : dot_S64x32x32_S64x32x128_S64x32x128_2_1_1_2_0_0.rhsIdx (ix3 b i h) ((contrEquiv1 dot_S64x32x32_S64x32x128_S64x32x128_2_1_1_2_0_0 32 rfl rfl).symm k) = ix3 b k h := funext fun a => Fin.ext (by
    match a with
    | ⟨0, _⟩ => exact mix_rhs_0 _ _
    | ⟨1, _⟩ => exact (mix_rhs_1 _ _).trans hk
    | ⟨2, _⟩ => exact mix_rhs_2 _ _)
  rw [el, er]

/-! A row sum over the last axis, and a block's 2048 rows, each at an index. -/

theorem lift_ix (b : Fin 64) (i : Fin 32) (j : Fin 32) :
    reduces_S64x32x32_S64x32.lift (ix2 b i) j = ix3 b i j := by
  funext a
  match a with
  | ⟨0, _⟩ => rfl
  | ⟨1, _⟩ => rfl
  | ⟨2, _⟩ => rfl

theorem rowsum_apply (src : FVec Ideal S64x32x32 .f32) (b : Fin 64) (i : Fin 32) :
    multiReduction (F := Ideal) .add [2] S64x32 src 0x00000000#32 reduces_S64x32x32_S64x32 (.inl rfl) rfl (ix2 b i)
      = ∑ j : Fin 32, src (ix3 b i j) := by
  refine (Ideal.multiReduction_add_single src 0x00000000#32 reduces_S64x32x32_S64x32 (.inl rfl) rfl (ix2 b i)).trans ?_
  refine Finset.sum_congr rfl fun j _ => ?_
  exact congrArg src (lift_ix b i j)

theorem rows_apply {α : Type} (x : S64x32x128.Idx → α) (b : Fin 64) (a : Fin 32) (k : Fin 128) :
    shapeCast S2048x128 x shapeCasts_S64x32x128_S2048x128 (ix2 (brow b a) k) = x (ix3 b a k) :=
  shapeCast_apply x shapeCasts_S64x32x128_S2048x128 _ _ (by
    rw [Shape.rowMajor_val_three, Shape.rowMajor_val_two]
    rfl)

end Cert.KernelIdeal.HValue

end
-- ==== Proof.KVal1.lean ====
import proofs.«403671_j61134564491522_3_alg».proof.Proof.Gen.KernelIdeal.Skeleton
import proofs.«403671_j61134564491522_3_alg».proof.Proof.Spec
import Idealize.ShloMosaic.Lib.ValueIdx
import Idealize.ShloMosaic.Lib.ValueLayout
import Idealize.ShloMosaic.Lib.Pipeline.Value
import Idealize.ShloMosaic.PureOps.Ideal.Laws
import proofs.«403671_j61134564491522_3_alg».proof.Proof.KIface
import proofs.«403671_j61134564491522_3_alg».proof.Proof.KMat

noncomputable section

namespace Cert.KernelIdeal.HValue

open Idealize.ShloMosaic Idealize.ShloMosaic.ValueIdx Cert.KernelIdeal Cert.KernelIdeal.Gen RNNSpec

variable (P : Weights)

namespace K1

theorem zero32 : (FloatOps.ofBits (F := Ideal) .f32 0x00000000#32 : Ideal .f32) = (0 : EReal) := Ideal.ofBits_zero_f32

theorem cast_rows128 {α : Type} (x : S64x32x128.Idx → α) (h : S64x32x128.ShapeCasts S2048x128)
    (b : Fin 64) (a : Fin 32) (j : Fin 128) :
    shapeCast S2048x128 x h (ix2 (brow b a) j) = x (ix3 b a j) :=
  shapeCast_apply x h _ _ (by rw [Shape.rowMajor_val_three, Shape.rowMajor_val_two]; rfl)

theorem cast_rows96 {α : Type} (x : S64x32x96.Idx → α) (h : S64x32x96.ShapeCasts S2048x96)
    (b : Fin 64) (a : Fin 32) (j : Fin 96) :
    shapeCast S2048x96 x h (ix2 (brow b a) j) = x (ix3 b a j) :=
  shapeCast_apply x h _ _ (by rw [Shape.rowMajor_val_three, Shape.rowMajor_val_two]; rfl)

theorem bias128_apply {α : Type} (v : S128.Idx → α) (h1 : S128.ShapeCasts S1x128) (h2 : S1x128.Broadcasts S2048x128)
    (p : Fin 2048) (q : Fin 128) :
    broadcastTo S2048x128 (shapeCast S1x128 v h1) h2 (ix2 p q) = v (ix1 q) :=
  (broadcastTo_1b_ab_apply _ h2 p q).trans (shapeCast_a_1a_apply v h1 0 q)

theorem bias256_apply {α : Type} (v : S256.Idx → α) (h1 : S256.ShapeCasts S1x256) (h2 : S1x256.Broadcasts S2048x256)
    (p : Fin 2048) (q : Fin 256) :
    broadcastTo S2048x256 (shapeCast S1x256 v h1) h2 (ix2 p q) = v (ix1 q) :=
  (broadcastTo_1b_ab_apply _ h2 p q).trans (shapeCast_a_1a_apply v h1 0 q)

theorem sum256 {M : Type*} [AddCommMonoid M] (f : Fin 256 → M) :
    ∑ k, f k = ∑ k : Fin 128, f (lo256 k) + ∑ k : Fin 128, f (hi256 k) := by
  refine (Fin.sum_univ_add (a := 128) (b := 128) f).trans ?_
  exact congrArg (∑ k : Fin 128, f (lo256 k) + ·)
    (Finset.sum_congr rfl fun k _ => congrArg f (Fin.ext (Nat.add_comm 128 k.val)))

theorem concat_lo {α : Type} (x₁ x₂ : S2048x128.Idx → α) (h : Shape.Concatenates [S2048x128, S2048x128] S2048x256 1)
    (p : Fin 2048) (k : Fin 128) :
    concatenate S2048x256 1 [⟨S2048x128, x₁⟩, ⟨S2048x128, x₂⟩] h (ix2 p (lo256 k)) = x₁ (ix2 p k) :=
  concatenate_pair_apply_left 1 x₁ x₂ h _ rfl (ix2 p k) (fun b => match b with | ⟨0, _⟩ => rfl | ⟨1, _⟩ => rfl)

theorem concat_hi {α : Type} (x₁ x₂ : S2048x128.Idx → α) (h : Shape.Concatenates [S2048x128, S2048x128] S2048x256 1)
    (p : Fin 2048) (k : Fin 128) :
    concatenate S2048x256 1 [⟨S2048x128, x₁⟩, ⟨S2048x128, x₂⟩] h (ix2 p (hi256 k)) = x₂ (ix2 p k) :=
  concatenate_pair_apply_right 1 x₁ x₂ h _ rfl rfl (ix2 p k)
    (fun b => match b with | ⟨0, _⟩ => fun _ => rfl | ⟨1, _⟩ => fun hb => absurd rfl hb) rfl

theorem lhs_mm96_0 (i : S2048x128.Idx) (q : dot_S2048x96_S96x128_S2048x128_1_0_0_1_n_n.contr.Idx) :
    (dot_S2048x96_S96x128_S2048x128_1_0_0_1_n_n.lhsIdx i q 0).val = (i 0).val := by
  unfold DotDims.lhsIdx
  rw [dif_neg (show ¬(0 : Fin S2048x96.rank) ∈ dot_S2048x96_S96x128_S2048x128_1_0_0_1_n_n.lhsBatch by decide), dif_pos (show (0 : Fin S2048x96.rank) ∈ dot_S2048x96_S96x128_S2048x128_1_0_0_1_n_n.lhsNonContracting by decide)]
  rfl
theorem lhs_mm96_1 (i : S2048x128.Idx) (q : dot_S2048x96_S96x128_S2048x128_1_0_0_1_n_n.contr.Idx) :
    (dot_S2048x96_S96x128_S2048x128_1_0_0_1_n_n.lhsIdx i q 1).val = (q ⟨0, by decide⟩).val :=
  dot_S2048x96_S96x128_S2048x128_1_0_0_1_n_n.lhsIdx_val_of_single rfl i q
theorem rhs_mm96_0 (i : S2048x128.Idx) (q : dot_S2048x96_S96x128_S2048x128_1_0_0_1_n_n.contr.Idx) :
    (dot_S2048x96_S96x128_S2048x128_1_0_0_1_n_n.rhsIdx i q 0).val = (q ⟨0, by decide⟩).val :=
  dot_S2048x96_S96x128_S2048x128_1_0_0_1_n_n.rhsIdx_val_of_single rfl i q
theorem rhs_mm96_1 (i : S2048x128.Idx) (q : dot_S2048x96_S96x128_S2048x128_1_0_0_1_n_n.contr.Idx) :
    (dot_S2048x96_S96x128_S2048x128_1_0_0_1_n_n.rhsIdx i q 1).val = (i 1).val := by
  unfold DotDims.rhsIdx
  rw [dif_neg (show ¬(1 : Fin S96x128.rank) ∈ dot_S2048x96_S96x128_S2048x128_1_0_0_1_n_n.rhsBatch by decide), dif_pos (show (1 : Fin S96x128.rank) ∈ dot_S2048x96_S96x128_S2048x128_1_0_0_1_n_n.rhsNonContracting by decide)]
  rfl

theorem mm96_apply (l : FVec Ideal S2048x96 .bf16) (r : FVec Ideal S96x128 .bf16) (p : Fin 2048) (q : Fin 128) :
    matmul dot_S2048x96_S96x128_S2048x128_1_0_0_1_n_n none l r (constant (F := Ideal) S2048x128 .f32 0x00000000#32) (ix2 p q)
      = ∑ k : Fin 96, l (ix2 p k) * r (ix2 k q) := by
  simp only [matmul]
  rw [Ideal.matmul_constant_zero_apply, ← Equiv.sum_comp (contrEquiv1 dot_S2048x96_S96x128_S2048x128_1_0_0_1_n_n 96 rfl rfl).symm]
  refine Finset.sum_congr rfl fun k _ => ?_
  have hk := contrEquiv1_symm_val dot_S2048x96_S96x128_S2048x128_1_0_0_1_n_n 96 rfl rfl k
  have el : dot_S2048x96_S96x128_S2048x128_1_0_0_1_n_n.lhsIdx (ix2 p q) ((contrEquiv1 dot_S2048x96_S96x128_S2048x128_1_0_0_1_n_n 96 rfl rfl).symm k) = ix2 p k := funext fun a => Fin.ext (by
    match a with
    | ⟨0, _⟩ => exact lhs_mm96_0 _ _
    | ⟨1, _⟩ => exact (lhs_mm96_1 _ _).trans hk)
  have er : dot_S2048x96_S96x128_S2048x128_1_0_0_1_n_n.rhsIdx (ix2 p q) ((contrEquiv1 dot_S2048x96_S96x128_S2048x128_1_0_0_1_n_n 96 rfl rfl).symm k) = ix2 k q := funext fun a => Fin.ext (by
    match a with
    | ⟨0, _⟩ => exact (rhs_mm96_0 _ _).trans hk
    | ⟨1, _⟩ => exact rhs_mm96_1 _ _)
  rw [el, er]

theorem lhs_mm256_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem lhs_mm256_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
theorem rhs_mm256_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
theorem rhs_mm256_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

theorem mm256_apply (l : FVec Ideal S2048x256 .bf16) (r : FVec Ideal S256x256 .bf16) (p : Fin 2048) (q : Fin 256) :
    matmul dot_S2048x256_S256x256_S2048x256_1_0_0_1_n_n none l r (constant (F := Ideal) S2048x256 .f32 0x00000000#32) (ix2 p q)
      = ∑ k : Fin 256, l (ix2 p k) * r (ix2 k q) := by
  simp only [matmul]
  rw [Ideal.matmul_constant_zero_apply, ← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p q) ((contrEquiv1 dot_S2048x256_S256x256_S2048x256_1_0_0_1_n_n 256 rfl rfl).symm k) = ix2 p k := funext fun a => Fin.ext (by
    match a with
    | ⟨0, _⟩ => exact lhs_mm256_0 _ _
    | ⟨1, _⟩ => exact (lhs_mm256_1 _ _).trans hk)
  have er : dot_S2048x256_S256x256_S2048x256_1_0_0_1_n_n.rhsIdx (ix2 p q) ((contrEquiv1 dot_S2048x256_S256x256_S2048x256_1_0_0_1_n_n 256 rfl rfl).symm k) = ix2 k q := funext fun a => Fin.ext (by
    match a with
    | ⟨0, _⟩ => exact (rhs_mm256_0 _ _).trans hk
    | ⟨1, _⟩ => exact rhs_mm256_1 _ _)
  rw [el, er]

end K1

open K1

theorem pay3_apply (v3 : Vec Ideal S64x32x128 .f32) (b : Fin 64) (a : Fin 32) (j : Fin 128) :
    k0_pay3 (F := Ideal) v3 (ix2 (brow b a) j) = v3 (ix3 b a j) := by
  unfold k0_pay3
  rw [shapeCast_self]
  exact cast_rows128 v3 _ b a j

theorem pay5_apply (v3 : Vec Ideal S64x32x128 .f32) (b : Fin 64) (a : Fin 32) (j : Fin 128) :
    k0_pay5 (F := Ideal) v3 (ix2 (brow b a) j) = v3 (ix3 b a j) := by
  unfold k0_pay5
  exact (truncf_apply (ψ := .bf16) (k0_pay3 (F := Ideal) v3) bitsLt_bf16_f32 _).trans (pay3_apply v3 b a j)

theorem pay4_apply (v0 : Vec Ideal S64x32x96 .f32) (v7 : Vec Ideal S96x128 .f32) (v11 : Vec Ideal S128 .f32)
    (h7 : ∀ (k : Fin 96) (j : Fin 128), v7 (ix2 k j) = P.Wfc1 j k) (h11 : ∀ j : Fin 128, v11 (ix1 j) = P.bfc1 j)
    (b : Fin 64) (a : Fin 32) (j : Fin 128) :
    k0_pay4 (F := Ideal) v0 v7 v11 (ix2 (brow b a) j) = fc1 P.Wfc1 P.bfc1 (fun k => v0 (ix3 b a k)) j := by
  unfold k0_pay4
  simp only [truncf_apply, maximumf_apply, addf_apply, broadcast_apply, shapeCast_self]
  rw [mm96_apply, bias128_apply]
  simp only [truncf_apply, cast_rows96, h7, h11, zero32]
  rfl

theorem pay6_apply (v0 : Vec Ideal S64x32x96 .f32) (v3 : Vec Ideal S64x32x128 .f32) (v7 : Vec Ideal S96x128 .f32) (v11 : Vec Ideal S128 .f32)
    (v20 : Vec Ideal S256x256 .f32) (v24 : Vec Ideal S256 .f32)
    (h7 : ∀ (k : Fin 96) (j : Fin 128), v7 (ix2 k j) = P.Wfc1 j k) (h11 : ∀ j : Fin 128, v11 (ix1 j) = P.bfc1 j)
    (h20x : ∀ (k : Fin 128) (c : Fin 256), v20 (ix2 (lo256 k) c) = P.Wih (c384 c) k)
    (h20h : ∀ (k : Fin 128) (c : Fin 256), v20 (ix2 (hi256 k) c) = P.Whh (c384 c) k)
    (h24 : ∀ c : Fin 256, v24 (ix1 c) = P.bih (c384 c) + P.bhh (c384 c))
    (b : Fin 64) (a : Fin 32) (c : Fin 256) :
    k0_pay6 (F := Ideal) v0 v3 v7 v11 v20 v24 (ix2 (brow b a) c)
      = dense P.Wih P.bih (fc1 P.Wfc1 P.bfc1 (fun k => v0 (ix3 b a k))) (c384 c)
        + dense P.Whh P.bhh (fun k => v3 (ix3 b a k)) (c384 c) := by
  unfold k0_pay6
  simp only [addf_apply, shapeCast_self]
  rw [mm256_apply, bias256_apply, sum256]
  simp only [concat_lo, concat_hi, truncf_apply, pay4_apply P v0 v7 v11 h7 h11, pay5_apply, h20x, h20h, h24]

  exact add_add_add_comm _ _ _ _

theorem pay7_apply (v0 : Vec Ideal S64x32x96 .f32) (v3 : Vec Ideal S64x32x128 .f32) (v7 : Vec Ideal S96x128 .f32) (v11 : Vec Ideal S128 .f32)
    (v20 : Vec Ideal S256x256 .f32) (v24 : Vec Ideal S256 .f32)
    (h7 : ∀ (k : Fin 96) (j : Fin 128), v7 (ix2 k j) = P.Wfc1 j k) (h11 : ∀ j : Fin 128, v11 (ix1 j) = P.bfc1 j)
    (h20x : ∀ (k : Fin 128) (c : Fin 256), v20 (ix2 (lo256 k) c) = P.Wih (c384 c) k)
    (h20h : ∀ (k : Fin 128) (c : Fin 256), v20 (ix2 (hi256 k) c) = P.Whh (c384 c) k)
    (h24 : ∀ c : Fin 256, v24 (ix1 c) = P.bih (c384 c) + P.bhh (c384 c))
    (b : Fin 64) (a : Fin 32) (j : Fin 128) :
    k0_pay7 (F := Ideal) v0 v3 v7 v11 v20 v24 (ix2 (brow b a) j)
      = dense P.Wih P.bih (fc1 P.Wfc1 P.bfc1 (fun k => v0 (ix3 b a k))) (lo j)
        + dense P.Whh P.bhh (fun k => v3 (ix3 b a k)) (lo j) := by
  unfold k0_pay7
  refine (slice2_axis1_apply 0 _ _ (brow b a) j (lo256 j) (Nat.zero_add _).symm).trans ?_
  exact pay6_apply P v0 v3 v7 v11 v20 v24 h7 h11 h20x h20h h24 b a (lo256 j)

theorem pay8_apply (v0 : Vec Ideal S64x32x96 .f32) (v3 : Vec Ideal S64x32x128 .f32) (v7 : Vec Ideal S96x128 .f32) (v11 : Vec Ideal S128 .f32)
    (v20 : Vec Ideal S256x256 .f32) (v24 : Vec Ideal S256 .f32)
    (h7 : ∀ (k : Fin 96) (j : Fin 128), v7 (ix2 k j) = P.Wfc1 j k) (h11 : ∀ j : Fin 128, v11 (ix1 j) = P.bfc1 j)
    (h20x : ∀ (k : Fin 128) (c : Fin 256), v20 (ix2 (lo256 k) c) = P.Wih (c384 c) k)
    (h20h : ∀ (k : Fin 128) (c : Fin 256), v20 (ix2 (hi256 k) c) = P.Whh (c384 c) k)
    (h24 : ∀ c : Fin 256, v24 (ix1 c) = P.bih (c384 c) + P.bhh (c384 c))
    (b : Fin 64) (a : Fin 32) (j : Fin 128) :
    k0_pay8 (F := Ideal) v0 v3 v7 v11 v20 v24 (ix2 (brow b a) j)
      = dense P.Wih P.bih (fc1 P.Wfc1 P.bfc1 (fun k => v0 (ix3 b a k))) (mid j)
        + dense P.Whh P.bhh (fun k => v3 (ix3 b a k)) (mid j) := by
  unfold k0_pay8
  refine (slice2_axis1_apply 128 _ _ (brow b a) j (hi256 j) (Nat.add_comm _ _)).trans ?_
  exact pay6_apply P v0 v3 v7 v11 v20 v24 h7 h11 h20x h20h h24 b a (hi256 j)

theorem pay9_apply (v0 : Vec Ideal S64x32x96 .f32) (v7 : Vec Ideal S96x128 .f32) (v11 : Vec Ideal S128 .f32)
    (v31 : Vec Ideal S128x128 .f32) (v35 : Vec Ideal S128 .f32)
    (h7 : ∀ (k : Fin 96) (j : Fin 128), v7 (ix2 k j) = P.Wfc1 j k) (h11 : ∀ j : Fin 128, v11 (ix1 j) = P.bfc1 j)
    (h31 : ∀ (k j : Fin 128), v31 (ix2 k j) = P.Wih (hi j) k) (h35 : ∀ j : Fin 128, v35 (ix1 j) = P.bih (hi j))
    (b : Fin 64) (a : Fin 32) (j : Fin 128) :
    k0_pay9 (F := Ideal) v0 v7 v11 v31 v35 (ix2 (brow b a) j)
      = dense P.Wih P.bih (fc1 P.Wfc1 P.bfc1 (fun k => v0 (ix3 b a k))) (hi j) := by
  unfold k0_pay9
  simp only [addf_apply, shapeCast_self]
  rw [mmA_apply, bias128_apply]
  simp only [truncf_apply, pay4_apply P v0 v7 v11 h7 h11, h31, h35]
  rfl

end Cert.KernelIdeal.HValue

end
-- ==== Proof.KVal2.lean ====
import proofs.«403671_j61134564491522_3_alg».proof.Proof.Gen.KernelIdeal.Skeleton
import proofs.«403671_j61134564491522_3_alg».proof.Proof.Spec
import Idealize.ShloMosaic.Lib.ValueIdx
import Idealize.ShloMosaic.Lib.ValueLayout
import Idealize.ShloMosaic.Lib.Pipeline.Value
import Idealize.ShloMosaic.PureOps.Ideal.Laws
import proofs.«403671_j61134564491522_3_alg».proof.Proof.KIface
import proofs.«403671_j61134564491522_3_alg».proof.Proof.KMat

noncomputable section

namespace Cert.KernelIdeal.HValue

open Idealize.ShloMosaic Idealize.ShloMosaic.ValueIdx Cert.KernelIdeal Cert.KernelIdeal.Gen RNNSpec

theorem rows3_apply {α : Type} (v : S2048x128.Idx → α) (h : S2048x128.ShapeCasts S64x32x128)
    (b : Fin 64) (a : Fin 32) (j : Fin 128) :
    shapeCast S64x32x128 v h (ix3 b a j) = v (ix2 (brow b a) j) :=
  shapeCast_apply v h _ _ (by
    rw [Shape.rowMajor_val_two, Shape.rowMajor_val_three]
    rfl)

theorem biasRow128_apply (v : FVec Ideal S128 .f32) (h0 : S128.ShapeCasts S128) (h1 : S128.ShapeCasts S1x128)
    (h2 : S1x128.Broadcasts S2048x128) (r : Fin 2048) (c : Fin 128) :
    broadcastTo S2048x128 (shapeCast S1x128 (shapeCast S128 v h0) h1) h2 (ix2 r c) = v (ix1 c) := by
  rw [broadcastTo_1b_ab_apply, shapeCast_a_1a_apply, shapeCast_self]

theorem biasRow384_apply (v : FVec Ideal S384 .f32) (h0 : S384.ShapeCasts S384) (h1 : S384.ShapeCasts S1x384)
    (h2 : S1x384.Broadcasts S2048x384) (r : Fin 2048) (c : Fin 384) :
    broadcastTo S2048x384 (shapeCast S1x384 (shapeCast S384 v h0) h1) h2 (ix2 r c) = v (ix1 c) := by
  rw [broadcastTo_1b_ab_apply, shapeCast_a_1a_apply, shapeCast_self]

theorem bandLo_apply {α : Type} (v : S2048x384.Idx → α) (h : S2048x384.Slices ![0, 0] S2048x128) (r : Fin 2048) (j : Fin 128) :
    extractStridedSlice S2048x128 ![0, 0] v h (ix2 r j) = v (ix2 r (lo j)) :=
  slice2_axis1_apply 0 v h r j (lo j) (Nat.zero_add _).symm
theorem bandMid_apply {α : Type} (v : S2048x384.Idx → α) (h : S2048x384.Slices ![0, 128] S2048x128) (r : Fin 2048) (j : Fin 128) :
    extractStridedSlice S2048x128 ![0, 128] v h (ix2 r j) = v (ix2 r (mid j)) :=
  slice2_axis1_apply 128 v h r j (mid j) (Nat.add_comm _ _)
theorem bandHi_apply {α : Type} (v : S2048x384.Idx → α) (h : S2048x384.Slices ![0, 256] S2048x128) (r : Fin 2048) (j : Fin 128) :
    extractStridedSlice S2048x128 ![0, 256] v h (ix2 r j) = v (ix2 r (hi j)) :=
  slice2_axis1_apply 256 v h r j (hi j) (Nat.add_comm _ _)

theorem logistic_apply {s : Shape} {φ : FTy} (a : FVec Ideal s φ) (i : s.Idx) : logistic a i = Ideal.logistic (a i) := rfl
theorem tanh_apply {s : Shape} {φ : FTy} (a : FVec Ideal s φ) (i : s.Idx) : tanh a i = Ideal.tanh (a i) := rfl

def hidCand (v18 : FVec Ideal S2048x128 .bf16) (v40 : Vec Ideal S128x128 .f32) (v44 : Vec Ideal S128 .f32) :
    FVec Ideal S2048x128 .f32 :=
  addf
    (matmul dot_S2048x128_S128x128_S2048x128_1_0_0_1_n_n none v18
      (truncf .bf16 (shapeCast S128x128 v40 shapeCasts_S128x128_S128x128) bitsLt_bf16_f32)
      (constant S2048x128 .f32 0x00000000#32))
    (broadcastTo S2048x128 (shapeCast S1x128 (shapeCast S128 v44 shapeCasts_S128_S128) shapeCasts_S128_S1x128)
      broadcasts_S1x128_S2048x128)

def gruRows (v5 : FVec Ideal S2048x128 .f32) (v18 : FVec Ideal S2048x128 .bf16) (v29 v30 v39 : FVec Ideal S2048x128 .f32)
    (v40 : Vec Ideal S128x128 .f32) (v44 : Vec Ideal S128 .f32) : FVec Ideal S2048x128 .f32 :=
  addf
    (mulf (subf (broadcast S2048x128 (Scalar.ofBits .f32 0x3F800000#32)) (logistic v30))
      (tanh (addf v39 (mulf (logistic v29) (hidCand v18 v40 v44)))))
    (mulf (logistic v30) v5)

def proj384 (v58 : FVec Ideal S2048x128 .f32) (v61 : Vec Ideal S128x384 .f32) (v63 : Vec Ideal S384 .f32) :
    FVec Ideal S2048x384 .f32 :=
  maximumf
    (addf
      (matmul dot_S2048x128_S128x384_S2048x384_1_0_0_1_n_n none
        (truncf .bf16 (shapeCast S2048x128 (shapeCast S64x32x128 v58 shapeCasts_S2048x128_S64x32x128)
          shapeCasts_S64x32x128_S2048x128) bitsLt_bf16_f32)
        (truncf .bf16 (shapeCast S128x384 v61 shapeCasts_S128x384_S128x384) bitsLt_bf16_f32)
        (constant S2048x384 .f32 0x00000000#32))
      (broadcastTo S2048x384 (shapeCast S1x384 (shapeCast S384 v63 shapeCasts_S384_S384) shapeCasts_S384_S1x384)
        broadcasts_S1x384_S2048x384))
    (broadcast S2048x384 (Scalar.ofBits .f32 0x00000000#32))

theorem pay10_eq (v5 : FVec Ideal S2048x128 .f32) (v18 : FVec Ideal S2048x128 .bf16) (v29 v30 v39 : FVec Ideal S2048x128 .f32)
    (v40 : Vec Ideal S128x128 .f32) (v44 : Vec Ideal S128 .f32) (v61 : Vec Ideal S128x384 .f32) (v63 : Vec Ideal S384 .f32) :
    k0_pay10 (F := Ideal) v5 v18 v29 v30 v39 v40 v44 v61 v63 = proj384 (gruRows v5 v18 v29 v30 v39 v40 v44) v61 v63 := rfl

section stages
variable (P : Weights)
variable (X : Fin 64 → Fin 32 → Fin 96 → EReal) (Hd : Fin 64 → Fin 32 → Fin 128 → EReal)

theorem hidCand_apply (v18 : FVec Ideal S2048x128 .bf16) (v40 : Vec Ideal S128x128 .f32) (v44 : Vec Ideal S128 .f32)
    (h18 : ∀ b a j, v18 (ix2 (brow b a) j) = Hd b a j)
    (h40 : ∀ (k j : Fin 128), v40 (ix2 k j) = P.Whh (hi j) k) (h44 : ∀ j : Fin 128, v44 (ix1 j) = P.bhh (hi j))
    (b : Fin 64) (a : Fin 32) (j : Fin 128) :
    hidCand v18 v40 v44 (ix2 (brow b a) j) = dense P.Whh P.bhh (Hd b a) (hi j) := by
  unfold hidCand dense
  rw [addf_apply, mmA_apply, biasRow128_apply, h44]
  refine congrArg (· + P.bhh (hi j)) (Finset.sum_congr rfl fun k _ => ?_)
  rw [truncf_apply, shapeCast_self, h18, h40]

theorem gruRows_apply (v5 : FVec Ideal S2048x128 .f32) (v18 : FVec Ideal S2048x128 .bf16) (v29 v30 v39 : FVec Ideal S2048x128 .f32)
    (v40 : Vec Ideal S128x128 .f32) (v44 : Vec Ideal S128 .f32)
    (h5 : ∀ b a j, v5 (ix2 (brow b a) j) = Hd b a j)
    (h18 : ∀ b a j, v18 (ix2 (brow b a) j) = Hd b a j)
    (h29 : ∀ b a j, v29 (ix2 (brow b a) j)
        = dense P.Wih P.bih (fc1 P.Wfc1 P.bfc1 (X b a)) (lo j) + dense P.Whh P.bhh (Hd b a) (lo j))
    (h30 : ∀ b a j, v30 (ix2 (brow b a) j)
        = dense P.Wih P.bih (fc1 P.Wfc1 P.bfc1 (X b a)) (mid j) + dense P.Whh P.bhh (Hd b a) (mid j))
    (h39 : ∀ b a j, v39 (ix2 (brow b a) j) = dense P.Wih P.bih (fc1 P.Wfc1 P.bfc1 (X b a)) (hi j))
    (h40 : ∀ (k j : Fin 128), v40 (ix2 k j) = P.Whh (hi j) k) (h44 : ∀ j : Fin 128, v44 (ix1 j) = P.bhh (hi j))
    (b : Fin 64) (a : Fin 32) (j : Fin 128) :
    gruRows v5 v18 v29 v30 v39 v40 v44 (ix2 (brow b a) j) = H0 P (X b) (Hd b) a j := by
  unfold gruRows
  simp only [addf_apply, mulf_apply, subf_apply, broadcast_apply, tanh_apply, logistic_apply]
  rw [hidCand_apply P Hd v18 v40 v44 h18 h40 h44, h5, h29, h30, h39]
  rfl

theorem proj384_apply (v58 : FVec Ideal S2048x128 .f32) (v61 : Vec Ideal S128x384 .f32) (v63 : Vec Ideal S384 .f32)
    (b : Fin 64) (H : Fin 32 → Fin 128 → EReal) (h58 : ∀ a j, v58 (ix2 (brow b a) j) = H a j)
    (W : Fin 128 → Fin 128 → EReal) (bias : Fin 128 → EReal) (band : Fin 128 → Fin 384)
    (hW : ∀ (k j : Fin 128), v61 (ix2 k (band j)) = W j k) (hb : ∀ j : Fin 128, v63 (ix1 (band j)) = bias j)
    (a : Fin 32) (j : Fin 128) :
    proj384 v58 v61 v63 (ix2 (brow b a) (band j)) = proj W bias H a j := by
  unfold proj384 proj relu dense
  have hz : (Scalar.ofBits (F := Ideal) .f32 0x00000000#32) = (0 : EReal) := Ideal.ofBits_zero_f32
  rw [maximumf_apply, addf_apply, mmB_apply, biasRow384_apply, broadcast_apply, hb, hz]
  refine congrArg (fun s => max (s + bias j) 0) (Finset.sum_congr rfl fun k _ => ?_)
  rw [truncf_apply, truncf_apply, shapeCast_shapeCast, shapeCast_self, h58, hW]

end stages

variable (P : Weights)
variable (X : Fin 64 → Fin 32 → Fin 96 → EReal) (Hd : Fin 64 → Fin 32 → Fin 128 → EReal) (M : Fin 64 → Fin 32 → Fin 32 → EReal)

section
variable (v5 : FVec Ideal S2048x128 .f32) (v18 : FVec Ideal S2048x128 .bf16) (v29 v30 v39 : FVec Ideal S2048x128 .f32)
  (v40 : Vec Ideal S128x128 .f32) (v44 : Vec Ideal S128 .f32) (v60 : Vec Ideal S64x32x32 .f32)
  (v61 : Vec Ideal S128x384 .f32) (v63 : Vec Ideal S384 .f32)
  (h5 : ∀ b a j, v5 (ix2 (brow b a) j) = Hd b a j)
  (h18 : ∀ b a j, v18 (ix2 (brow b a) j) = Hd b a j)
  (h29 : ∀ b a j, v29 (ix2 (brow b a) j)
      = dense P.Wih P.bih (fc1 P.Wfc1 P.bfc1 (X b a)) (lo j) + dense P.Whh P.bhh (Hd b a) (lo j))
  (h30 : ∀ b a j, v30 (ix2 (brow b a) j)
      = dense P.Wih P.bih (fc1 P.Wfc1 P.bfc1 (X b a)) (mid j) + dense P.Whh P.bhh (Hd b a) (mid j))
  (h39 : ∀ b a j, v39 (ix2 (brow b a) j) = dense P.Wih P.bih (fc1 P.Wfc1 P.bfc1 (X b a)) (hi j))
  (h40 : ∀ (k j : Fin 128), v40 (ix2 k j) = P.Whh (hi j) k) (h44 : ∀ j : Fin 128, v44 (ix1 j) = P.bhh (hi j))
  (h60 : ∀ b i j, v60 (ix3 b i j) = M b i j)
  (h61v : ∀ (k j : Fin 128), v61 (ix2 k (lo j)) = P.Wv1 j k)
  (h61q : ∀ (k j : Fin 128), v61 (ix2 k (mid j)) = P.Wq1 j k)
  (h61k : ∀ (k j : Fin 128), v61 (ix2 k (hi j)) = P.Wk1 j k)
  (h63v : ∀ j : Fin 128, v63 (ix1 (lo j)) = P.bv1 j)
  (h63q : ∀ j : Fin 128, v63 (ix1 (mid j)) = P.bq1 j)
  (h63k : ∀ j : Fin 128, v63 (ix1 (hi j)) = P.bk1 j)
include h5 h18 h29 h30 h39 h40 h44 h61v h63v

theorem pay11_apply (b : Fin 64) (a : Fin 32) (j : Fin 128) :
    k0_pay11 (F := Ideal) v5 v18 v29 v30 v39 v40 v44 v61 v63 (ix3 b a j)
      = proj P.Wv1 P.bv1 (H0 P (X b) (Hd b)) a j := by
  unfold k0_pay11
  refine (rows3_apply _ _ b a j).trans ?_
  refine (bandLo_apply _ _ _ j).trans ?_
  rw [pay10_eq]
  exact proj384_apply _ v61 v63 b (H0 P (X b) (Hd b))
    (gruRows_apply P X Hd v5 v18 v29 v30 v39 v40 v44 h5 h18 h29 h30 h39 h40 h44 b) P.Wv1 P.bv1 lo h61v h63v a j

include h60 h61q h61k h63q h63k

theorem pay12_apply (b : Fin 64) (i j : Fin 32) :
    k0_pay12 (F := Ideal) v5 v18 v29 v30 v39 v40 v44 v60 v61 v63 (ix3 b i j)
      = score (proj P.Wq1 P.bq1 (H0 P (X b) (Hd b))) (proj P.Wk1 P.bk1 (H0 P (X b) (Hd b))) i j * M b i j := by
  have hG := gruRows_apply P X Hd v5 v18 v29 v30 v39 v40 v44 h5 h18 h29 h30 h39 h40 h44 b
  unfold k0_pay12
  refine (mulf_apply _ _ _).trans ?_
  rw [h60]
  refine congrArg (· * M b i j) ?_
  refine (mmC_apply _ _ b i j).trans ?_
  unfold score
  refine Finset.sum_congr rfl fun h _ => ?_
  rw [truncf_apply, truncf_apply, rows3_apply, rows3_apply, bandMid_apply, bandHi_apply, pay10_eq,
    proj384_apply _ v61 v63 b (H0 P (X b) (Hd b)) hG P.Wq1 P.bq1 mid h61q h63q,
    proj384_apply _ v61 v63 b (H0 P (X b) (Hd b)) hG P.Wk1 P.bk1 hi h61k h63k]
end

theorem pay13_apply (b : Fin 64) (i j : Fin 32) : k0_pay13 (F := Ideal) (ix3 b i j) = one32 := by
  rfl

end Cert.KernelIdeal.HValue

end
-- ==== Proof.KVal3.lean ====
import proofs.«403671_j61134564491522_3_alg».proof.Proof.Gen.KernelIdeal.Skeleton
import proofs.«403671_j61134564491522_3_alg».proof.Proof.Spec
import Idealize.ShloMosaic.Lib.ValueIdx
import Idealize.ShloMosaic.Lib.ValueLayout
import Idealize.ShloMosaic.Lib.Pipeline.Value
import Idealize.ShloMosaic.PureOps.Ideal.Laws
import proofs.«403671_j61134564491522_3_alg».proof.Proof.KIface
import proofs.«403671_j61134564491522_3_alg».proof.Proof.KMat

noncomputable section

namespace Cert.KernelIdeal.HValue

open Idealize.ShloMosaic Idealize.ShloMosaic.ValueIdx Cert.KernelIdeal Cert.KernelIdeal.Gen RNNSpec

namespace K3

theorem ofBits_neg_inf : Ideal.ofBits .f32 0xFF800000#32 = ⊥ := by
  simp [Ideal.ofBits, Ideal.ieee]

theorem rowmax_apply (src : FVec Ideal S64x32x32 .f32) (b : Fin 64) (i : Fin 32) :
    multiReduction (F := Ideal) .maximumf [2] S64x32 src 0xFF800000#32 reduces_S64x32x32_S64x32 (.inl rfl) rfl (ix2 b i)
      = rowmax (fun j => src (ix3 b i j)) := by
  refine (Ideal.multiReduction_maximumf_single src 0xFF800000#32 reduces_S64x32x32_S64x32 (.inl rfl) rfl (ix2 b i)).trans ?_
  unfold rowmax
  rw [Ideal.ofBits_def, ofBits_neg_inf]
  have hf : (src ∘ reduces_S64x32x32_S64x32.lift (ix2 b i)) = fun j => src (ix3 b i j) :=
    funext fun j => congrArg src (lift_ix b i j)
  rw [hf]
  rfl

theorem keepdims_apply (v : FVec Ideal S64x32 .f32) (b : Fin 64) (i j : Fin 32) :
    broadcastTo S64x32x32 (shapeCast S64x32x1 v shapeCasts_S64x32_S64x32x1) broadcasts_S64x32x1_S64x32x32 (ix3 b i j)
      = v (ix2 b i) := by
  refine (broadcastTo_apply _ broadcasts_S64x32x1_S64x32x32 (ix3 b i j) (ix3 b i (0 : Fin 1)) (fun a => ?_)).trans ?_
  · match a with
    | ⟨0, _⟩ => rfl
    | ⟨1, _⟩ => rfl
    | ⟨2, _⟩ => rfl
  · refine shapeCast_apply v shapeCasts_S64x32_S64x32x1 _ (ix2 b i) ?_
    rw [Shape.rowMajor_val_two, Shape.rowMajor_val_three]
    show b.val * 32 + i.val = (b.val * 32 + i.val) * 1 + 0
    omega

theorem unrows_apply (v : FVec Ideal S2048x128 .f32) (b : Fin 64) (a : Fin 32) (k : Fin 128) :
    shapeCast S64x32x128 v shapeCasts_S2048x128_S64x32x128 (ix3 b a k) = v (ix2 (brow b a) k) := by
  refine shapeCast_apply v shapeCasts_S2048x128_S64x32x128 _ (ix2 (brow b a) k) ?_
  rw [Shape.rowMajor_val_two, Shape.rowMajor_val_three]
  show (b.val * 32 + a.val) * 128 + k.val = (b.val * 32 + a.val) * 128 + k.val
  rfl

theorem biasrow_apply (v : FVec Ideal S384 .f32) (r : Fin 2048) (c : Fin 384) :
    broadcastTo S2048x384 (shapeCast S1x384 v shapeCasts_S384_S1x384) broadcasts_S1x384_S2048x384 (ix2 r c) = v (ix1 c) :=
  (broadcastTo_1b_ab_apply _ broadcasts_S1x384_S2048x384 r c).trans
    (shapeCast_a_1a_apply v shapeCasts_S384_S1x384 (0 : Fin 1) c)

theorem bandlo_apply (X : FVec Ideal S2048x384 .f32) (r : Fin 2048) (j : Fin 128) :
    extractStridedSlice S2048x128 ![0, 0] X slices_S2048x384_o0_0_S2048x128 (ix2 r j) = X (ix2 r (lo j)) :=
  slice2_axis1_apply 0 X slices_S2048x384_o0_0_S2048x128 r j (lo j) (Nat.zero_add _).symm
theorem bandmid_apply (X : FVec Ideal S2048x384 .f32) (r : Fin 2048) (j : Fin 128) :
    extractStridedSlice S2048x128 ![0, 128] X slices_S2048x384_o0_128_S2048x128 (ix2 r j) = X (ix2 r (mid j)) :=
  slice2_axis1_apply 128 X slices_S2048x384_o0_128_S2048x128 r j (mid j) (Nat.add_comm _ _)
theorem bandhi_apply (X : FVec Ideal S2048x384 .f32) (r : Fin 2048) (j : Fin 128) :
    extractStridedSlice S2048x128 ![0, 256] X slices_S2048x384_o0_256_S2048x128 (ix2 r j) = X (ix2 r (hi j)) :=
  slice2_axis1_apply 256 X slices_S2048x384_o0_256_S2048x128 r j (hi j) (Nat.add_comm _ _)

def msk (s o m : FVec Ideal S64x32x32 .f32) : FVec Ideal S64x32x32 .f32 :=
  subf s (mulf (broadcast S64x32x32 (Scalar.ofBits (F := Ideal) .f32 0x59FFCB9E#32)) (subf o m))

def rmx (s : FVec Ideal S64x32x32 .f32) : FVec Ideal S64x32x32 .f32 :=
  broadcastTo S64x32x32 (shapeCast S64x32x1 (multiReduction (F := Ideal) .maximumf [2] S64x32 s 0xFF800000#32 reduces_S64x32x32_S64x32 (.inl rfl) rfl) shapeCasts_S64x32_S64x32x1) broadcasts_S64x32x1_S64x32x32

def rsm (e : FVec Ideal S64x32x32 .f32) : FVec Ideal S64x32x32 .f32 :=
  broadcastTo S64x32x32 (shapeCast S64x32x1 (multiReduction (F := Ideal) .add [2] S64x32 e 0x00000000#32 reduces_S64x32x32_S64x32 (.inl rfl) rfl) shapeCasts_S64x32_S64x32x1) broadcasts_S64x32x1_S64x32x32

def sft (s : FVec Ideal S64x32x32 .f32) : FVec Ideal S64x32x32 .f32 :=
  divf (exp (subf s (rmx s))) (rsm (exp (subf s (rmx s))))

def mixd (w : FVec Ideal S64x32x32 .f32) (v : FVec Ideal S64x32x128 .f32) : FVec Ideal S64x32x128 .f32 :=
  matmul dot_S64x32x32_S64x32x128_S64x32x128_2_1_1_2_0_0 none (truncf .bf16 w bitsLt_bf16_f32) (truncf .bf16 v bitsLt_bf16_f32)
    (constant (F := Ideal) S64x32x128 .f32 0x00000000#32)

def fused (h : FVec Ideal S64x32x128 .f32) (w : FVec Ideal S128x384 .f32) (bias : FVec Ideal S384 .f32) : FVec Ideal S2048x384 .f32 :=
  maximumf
    (addf
      (matmul dot_S2048x128_S128x384_S2048x384_1_0_0_1_n_n none
        (truncf .bf16 (shapeCast S2048x128 h shapeCasts_S64x32x128_S2048x128) bitsLt_bf16_f32)
        (truncf .bf16 (shapeCast S128x384 w shapeCasts_S128x384_S128x384) bitsLt_bf16_f32)
        (constant (F := Ideal) S2048x384 .f32 0x00000000#32))
      (broadcastTo S2048x384 (shapeCast S1x384 (shapeCast S384 bias shapeCasts_S384_S384) shapeCasts_S384_S1x384) broadcasts_S1x384_S2048x384))
    (broadcast S2048x384 (Scalar.ofBits (F := Ideal) .f32 0x00000000#32))

def qk (p : FVec Ideal S2048x384 .f32) (m : FVec Ideal S64x32x32 .f32) : FVec Ideal S64x32x32 .f32 :=
  subf
    (mulf
      (matmul dot_S64x32x128_S64x32x128_S64x32x32_2_2_1_1_0_0 none
        (truncf .bf16 (shapeCast S64x32x128 (extractStridedSlice S2048x128 ![0, 128] p slices_S2048x384_o0_128_S2048x128) shapeCasts_S2048x128_S64x32x128) bitsLt_bf16_f32)
        (truncf .bf16 (shapeCast S64x32x128 (extractStridedSlice S2048x128 ![0, 256] p slices_S2048x384_o0_256_S2048x128) shapeCasts_S2048x128_S64x32x128) bitsLt_bf16_f32)
        (constant (F := Ideal) S64x32x32 .f32 0x00000000#32))
      m)
    (mulf (broadcast S64x32x32 (Scalar.ofBits (F := Ideal) .f32 0x59FFCB9E#32))
      (subf (broadcast S64x32x32 (Scalar.ofBits (F := Ideal) .f32 0x3F800000#32)) m))

section stages
variable (v60 : Vec Ideal S64x32x32 .f32) (v75 : FVec Ideal S64x32x128 .f32) (v83 v84 : FVec Ideal S64x32x32 .f32)
  (v101 : Vec Ideal S128x384 .f32) (v103 : Vec Ideal S384 .f32)

theorem pay14_eq : k0_pay14 (F := Ideal) v60 v75 v83 v84 v101 v103 = fused (mixd (sft (msk v83 v84 v60)) v75) v101 v103 := rfl
theorem pay16_eq : k0_pay16 (F := Ideal) v60 v75 v83 v84 v101 v103 = qk (k0_pay14 (F := Ideal) v60 v75 v83 v84 v101 v103) v60 := rfl
theorem pay17_eq : k0_pay17 (F := Ideal) v60 v75 v83 v84 v101 v103 = rmx (k0_pay16 (F := Ideal) v60 v75 v83 v84 v101 v103) := rfl
end stages

theorem msk_apply (s o m : FVec Ideal S64x32x32 .f32) (b : Fin 64) (i j : Fin 32) :
    msk s o m (ix3 b i j) = s (ix3 b i j) - big32 * (o (ix3 b i j) - m (ix3 b i j)) := rfl

theorem rmx_apply (s : FVec Ideal S64x32x32 .f32) (b : Fin 64) (i j : Fin 32) :
    rmx s (ix3 b i j) = rowmax (fun j' => s (ix3 b i j')) :=
  (keepdims_apply _ b i j).trans (rowmax_apply s b i)

theorem rsm_apply (e : FVec Ideal S64x32x32 .f32) (b : Fin 64) (i j : Fin 32) :
    rsm e (ix3 b i j) = ∑ j' : Fin 32, e (ix3 b i j') :=
  (keepdims_apply _ b i j).trans (rowsum_apply e b i)

theorem sft_apply (s : FVec Ideal S64x32x32 .f32) (b : Fin 64) (i j : Fin 32) :
    sft s (ix3 b i j) = soft (fun j' => s (ix3 b i j')) j := by
  unfold sft soft
  show Ideal.div (Ideal.exp (s (ix3 b i j) - rmx s (ix3 b i j))) (rsm (exp (subf s (rmx s))) (ix3 b i j)) = _
  rw [rsm_apply, rmx_apply]
  refine congrArg _ (Finset.sum_congr rfl fun j' _ => ?_)
  show Ideal.exp (s (ix3 b i j') - rmx s (ix3 b i j')) = _
  rw [rmx_apply]

theorem mixd_apply (w : FVec Ideal S64x32x32 .f32) (v : FVec Ideal S64x32x128 .f32) (b : Fin 64) (a : Fin 32) (k : Fin 128) :
    mixd w v (ix3 b a k) = ∑ j : Fin 32, w (ix3 b a j) * v (ix3 b j k) :=
  mix_apply _ _ b a k

theorem fused_apply (h : FVec Ideal S64x32x128 .f32) (w : FVec Ideal S128x384 .f32) (bias : FVec Ideal S384 .f32)
    (b : Fin 64) (a : Fin 32) (c : Fin 384) :
    fused h w bias (ix2 (brow b a) c) = max ((∑ k : Fin 128, h (ix3 b a k) * w (ix2 k c)) + bias (ix1 c)) 0 := by
  unfold fused
  show max (matmul dot_S2048x128_S128x384_S2048x384_1_0_0_1_n_n none _ _ _ (ix2 (brow b a) c) + broadcastTo S2048x384 _ _ (ix2 (brow b a) c)) (Ideal.ofBits .f32 0x00000000#32) = _
  rw [mmB_apply, biasrow_apply, Ideal.ofBits_zero_f32, shapeCast_self bias, shapeCast_self w]
  refine congrArg (fun t => max (t + bias (ix1 c)) 0) (Finset.sum_congr rfl fun k _ => ?_)
  rw [truncf_apply, truncf_apply, rows_apply]

theorem qk_apply (p : FVec Ideal S2048x384 .f32) (m : FVec Ideal S64x32x32 .f32) (b : Fin 64) (i j : Fin 32) :
    qk p m (ix3 b i j)
      = (∑ h : Fin 128, p (ix2 (brow b i) (mid h)) * p (ix2 (brow b j) (hi h))) * m (ix3 b i j)
          - big32 * (one32 - m (ix3 b i j)) := by
  unfold qk
  rw [subf_apply, mulf_apply, mmC_apply]
  refine congrArg (fun t => t * m (ix3 b i j) - big32 * (one32 - m (ix3 b i j))) (Finset.sum_congr rfl fun h _ => ?_)
  rw [truncf_apply, truncf_apply, unrows_apply, unrows_apply, bandmid_apply, bandhi_apply]

section net
variable (P : Weights)
variable (X : Fin 64 → Fin 32 → Fin 96 → EReal) (Hd : Fin 64 → Fin 32 → Fin 128 → EReal) (M : Fin 64 → Fin 32 → Fin 32 → EReal)
variable (v60 : Vec Ideal S64x32x32 .f32) (v75 : FVec Ideal S64x32x128 .f32) (v83 v84 : FVec Ideal S64x32x32 .f32)
  (v101 : Vec Ideal S128x384 .f32) (v103 : Vec Ideal S384 .f32)
  (h60 : ∀ b i j, v60 (ix3 b i j) = M b i j)
  (h75 : ∀ b a j, v75 (ix3 b a j) = proj P.Wv1 P.bv1 (H0 P (X b) (Hd b)) a j)
  (h83 : ∀ b i j, v83 (ix3 b i j)
      = score (proj P.Wq1 P.bq1 (H0 P (X b) (Hd b))) (proj P.Wk1 P.bk1 (H0 P (X b) (Hd b))) i j * M b i j)
  (h84 : ∀ b i j, v84 (ix3 b i j) = one32)
include h60 h83 h84

theorem msk_net (b : Fin 64) (i j : Fin 32) :
    msk v83 v84 v60 (ix3 b i j) = logits P.Wk1 P.bk1 P.Wq1 P.bq1 (M b) (H0 P (X b) (Hd b)) i j := by
  rw [msk_apply, h83, h84, h60]
  rfl

include h75

theorem mixd_net (b : Fin 64) (a : Fin 32) (k : Fin 128) :
    mixd (sft (msk v83 v84 v60)) v75 (ix3 b a k) = H1 P (X b) (Hd b) (M b) a k := by
  rw [mixd_apply]
  unfold H1 att
  refine Finset.sum_congr rfl fun j _ => ?_
  rw [sft_apply, h75]
  have hrow : (fun j' => msk v83 v84 v60 (ix3 b a j')) = logits P.Wk1 P.bk1 P.Wq1 P.bq1 (M b) (H0 P (X b) (Hd b)) a :=
    funext fun j' => msk_net P X Hd M v60 v83 v84 h60 h83 h84 b a j'
  rw [hrow]

theorem pay14_net (b : Fin 64) (a : Fin 32) (c : Fin 384) :
    k0_pay14 (F := Ideal) v60 v75 v83 v84 v101 v103 (ix2 (brow b a) c)
      = max ((∑ k : Fin 128, H1 P (X b) (Hd b) (M b) a k * v101 (ix2 k c)) + v103 (ix1 c)) 0 := by
  rw [pay14_eq, fused_apply]
  refine congrArg (fun t => max (t + v103 (ix1 c)) 0) (Finset.sum_congr rfl fun k _ => ?_)
  rw [mixd_net P X Hd M v60 v75 v83 v84 h60 h75 h83 h84 b a k]

theorem band_net (col : Fin 128 → Fin 384) (W : Fin 128 → Fin 128 → EReal) (bb : Fin 128 → EReal)
    (hW : ∀ (k j : Fin 128), v101 (ix2 k (col j)) = W j k) (hb : ∀ j : Fin 128, v103 (ix1 (col j)) = bb j)
    (b : Fin 64) (a : Fin 32) (j : Fin 128) :
    k0_pay14 (F := Ideal) v60 v75 v83 v84 v101 v103 (ix2 (brow b a) (col j))
      = proj W bb (H1 P (X b) (Hd b) (M b)) a j := by
  rw [pay14_net P X Hd M v60 v75 v83 v84 v101 v103 h60 h75 h83 h84 b a (col j), hb]
  unfold proj relu dense
  refine congrArg (fun t => max (t + bb j) 0) (Finset.sum_congr rfl fun k _ => ?_)
  rw [hW]
end net

end K3

variable (P : Weights)
variable (X : Fin 64 → Fin 32 → Fin 96 → EReal) (Hd : Fin 64 → Fin 32 → Fin 128 → EReal) (M : Fin 64 → Fin 32 → Fin 32 → EReal)

section
variable (v60 : Vec Ideal S64x32x32 .f32) (v75 : FVec Ideal S64x32x128 .f32) (v83 v84 : FVec Ideal S64x32x32 .f32)
  (v101 : Vec Ideal S128x384 .f32) (v103 : Vec Ideal S384 .f32)
  (h60 : ∀ b i j, v60 (ix3 b i j) = M b i j)
  (h75 : ∀ b a j, v75 (ix3 b a j) = proj P.Wv1 P.bv1 (H0 P (X b) (Hd b)) a j)
  (h83 : ∀ b i j, v83 (ix3 b i j)
      = score (proj P.Wq1 P.bq1 (H0 P (X b) (Hd b))) (proj P.Wk1 P.bk1 (H0 P (X b) (Hd b))) i j * M b i j)
  (h84 : ∀ b i j, v84 (ix3 b i j) = one32)
  (h101v : ∀ (k j : Fin 128), v101 (ix2 k (lo j)) = P.Wv2 j k)
  (h101q : ∀ (k j : Fin 128), v101 (ix2 k (mid j)) = P.Wq2 j k)
  (h101k : ∀ (k j : Fin 128), v101 (ix2 k (hi j)) = P.Wk2 j k)
  (h103v : ∀ j : Fin 128, v103 (ix1 (lo j)) = P.bv2 j)
  (h103q : ∀ j : Fin 128, v103 (ix1 (mid j)) = P.bq2 j)
  (h103k : ∀ j : Fin 128, v103 (ix1 (hi j)) = P.bk2 j)
include h60 h75 h83 h84 h101v h103v

theorem pay15_apply (b : Fin 64) (a : Fin 32) (j : Fin 128) :
    k0_pay15 (F := Ideal) v60 v75 v83 v84 v101 v103 (ix3 b a j)
      = proj P.Wv2 P.bv2 (H1 P (X b) (Hd b) (M b)) a j := by
  unfold k0_pay15
  show shapeCast S64x32x128 (extractStridedSlice S2048x128 ![0, 0] (k0_pay14 (F := Ideal) v60 v75 v83 v84 v101 v103)
    slices_S2048x384_o0_0_S2048x128) shapeCasts_S2048x128_S64x32x128 (ix3 b a j) = _
  rw [K3.unrows_apply, K3.bandlo_apply]
  exact K3.band_net P X Hd M v60 v75 v83 v84 v101 v103 h60 h75 h83 h84 lo P.Wv2 P.bv2 h101v h103v b a j

include h101q h101k h103q h103k

theorem pay16_apply (b : Fin 64) (i j : Fin 32) :
    k0_pay16 (F := Ideal) v60 v75 v83 v84 v101 v103 (ix3 b i j)
      = logits P.Wk2 P.bk2 P.Wq2 P.bq2 (M b) (H1 P (X b) (Hd b) (M b)) i j := by
  rw [K3.pay16_eq, K3.qk_apply, h60]
  unfold logits masked score
  refine congrArg (fun t => t * M b i j - big32 * (one32 - M b i j)) (Finset.sum_congr rfl fun h _ => ?_)
  rw [K3.band_net P X Hd M v60 v75 v83 v84 v101 v103 h60 h75 h83 h84 mid P.Wq2 P.bq2 h101q h103q b i h,
    K3.band_net P X Hd M v60 v75 v83 v84 v101 v103 h60 h75 h83 h84 hi P.Wk2 P.bk2 h101k h103k b j h]

theorem pay17_apply (b : Fin 64) (i j : Fin 32) :
    k0_pay17 (F := Ideal) v60 v75 v83 v84 v101 v103 (ix3 b i j)
      = rowmax (logits P.Wk2 P.bk2 P.Wq2 P.bq2 (M b) (H1 P (X b) (Hd b) (M b)) i) := by
  rw [K3.pay17_eq, K3.rmx_apply]
  refine congrArg rowmax (funext fun j' => ?_)
  exact pay16_apply P X Hd M v60 v75 v83 v84 v101 v103 h60 h75 h83 h84 h101v h101q h101k h103v h103q h103k b i j'
end

end Cert.KernelIdeal.HValue

end
-- ==== Proof.KVal4.lean ====
import proofs.«403671_j61134564491522_3_alg».proof.Proof.Gen.KernelIdeal.Skeleton
import proofs.«403671_j61134564491522_3_alg».proof.Proof.Spec
import Idealize.ShloMosaic.Lib.ValueIdx
import Idealize.ShloMosaic.Lib.ValueLayout
import Idealize.ShloMosaic.Lib.Pipeline.Value
import Idealize.ShloMosaic.PureOps.Ideal.Laws
import proofs.«403671_j61134564491522_3_alg».proof.Proof.KIface
import proofs.«403671_j61134564491522_3_alg».proof.Proof.KMat

noncomputable section

namespace Cert.KernelIdeal.HValue

open Idealize.ShloMosaic Idealize.ShloMosaic.ValueIdx Cert.KernelIdeal Cert.KernelIdeal.Gen RNNSpec

theorem keepdims_apply {α : Type} (x : S64x32.Idx → α) (b : Fin 64) (i : Fin 32) (u : Fin 1) :
    shapeCast S64x32x1 x shapeCasts_S64x32_S64x32x1 (ix3 b i u) = x (ix2 b i) :=
  shapeCast_apply x shapeCasts_S64x32_S64x32x1 _ _ (by
    have hu : u.val = 0 := by omega
    rw [Shape.rowMajor_val_three, Shape.rowMajor_val_two]
    show b.val * 32 + i.val = (b.val * 32 + i.val) * 1 + u.val
    rw [hu, Nat.mul_one, Nat.add_zero])

theorem bcastcol_apply {α : Type} (x : S64x32x1.Idx → α) (b : Fin 64) (i : Fin 32) (j : Fin 32) :
    broadcastTo S64x32x32 x broadcasts_S64x32x1_S64x32x32 (ix3 b i j) = x (ix3 b i (0 : Fin 1)) := by
  refine broadcastTo_apply x broadcasts_S64x32x1_S64x32x32 (ix3 b i j) (ix3 b i (0 : Fin 1)) fun ax => ?_
  match ax with
  | ⟨0, _⟩ => rfl
  | ⟨1, _⟩ => rfl
  | ⟨2, _⟩ => rfl

theorem lhs_fc2_0 (i : S2048x16.Idx) (q : dot_S2048x128_S128x16_S2048x16_1_0_0_1_n_n.contr.Idx) :
    (dot_S2048x128_S128x16_S2048x16_1_0_0_1_n_n.lhsIdx i q 0).val = (i 0).val := by
  unfold DotDims.lhsIdx
  rw [dif_neg (show ¬(0 : Fin S2048x128.rank) ∈ dot_S2048x128_S128x16_S2048x16_1_0_0_1_n_n.lhsBatch by decide), dif_pos (show (0 : Fin S2048x128.rank) ∈ dot_S2048x128_S128x16_S2048x16_1_0_0_1_n_n.lhsNonContracting by decide)]
  rfl
theorem lhs_fc2_1 (i : S2048x16.Idx) (q : dot_S2048x128_S128x16_S2048x16_1_0_0_1_n_n.contr.Idx) :
    (dot_S2048x128_S128x16_S2048x16_1_0_0_1_n_n.lhsIdx i q 1).val = (q ⟨0, by decide⟩).val :=
  dot_S2048x128_S128x16_S2048x16_1_0_0_1_n_n.lhsIdx_val_of_single rfl i q
theorem rhs_fc2_0 (i : S2048x16.Idx) (q : dot_S2048x128_S128x16_S2048x16_1_0_0_1_n_n.contr.Idx) :
    (dot_S2048x128_S128x16_S2048x16_1_0_0_1_n_n.rhsIdx i q 0).val = (q ⟨0, by decide⟩).val :=
  dot_S2048x128_S128x16_S2048x16_1_0_0_1_n_n.rhsIdx_val_of_single rfl i q
theorem rhs_fc2_1 (i : S2048x16.Idx) (q : dot_S2048x128_S128x16_S2048x16_1_0_0_1_n_n.contr.Idx) :
    (dot_S2048x128_S128x16_S2048x16_1_0_0_1_n_n.rhsIdx i q 1).val = (i 1).val := by
  unfold DotDims.rhsIdx
  rw [dif_neg (show ¬(1 : Fin S128x16.rank) ∈ dot_S2048x128_S128x16_S2048x16_1_0_0_1_n_n.rhsBatch by decide), dif_pos (show (1 : Fin S128x16.rank) ∈ dot_S2048x128_S128x16_S2048x16_1_0_0_1_n_n.rhsNonContracting by decide)]
  rfl

theorem fc2_apply (x : FVec Ideal S2048x128 .bf16) (w : FVec Ideal S128x16 .bf16) (r : Fin 2048) (j : Fin 16) :
    matmul dot_S2048x128_S128x16_S2048x16_1_0_0_1_n_n none x w (constant (F := Ideal) S2048x16 .f32 0x00000000#32) (ix2 r j)
      = ∑ k : Fin 128, x (ix2 r k) * w (ix2 k j) := by
  refine (Ideal.matmul_constant_zero_apply dot_S2048x128_S128x16_S2048x16_1_0_0_1_n_n none x w (ix2 r j)).trans ?_
  rw [← Equiv.sum_comp (contrEquiv1 dot_S2048x128_S128x16_S2048x16_1_0_0_1_n_n 128 rfl rfl).symm]
  refine Finset.sum_congr rfl fun k _ => ?_
  have hk := contrEquiv1_symm_val dot_S2048x128_S128x16_S2048x16_1_0_0_1_n_n 128 rfl rfl k
  have el : dot_S2048x128_S128x16_S2048x16_1_0_0_1_n_n.lhsIdx (ix2 r j) ((contrEquiv1 dot_S2048x128_S128x16_S2048x16_1_0_0_1_n_n 128 rfl rfl).symm k) = ix2 r k := funext fun a => Fin.ext (by
    match a with
    | ⟨0, _⟩ => exact lhs_fc2_0 _ _
    | ⟨1, _⟩ => exact (lhs_fc2_1 _ _).trans hk)
  have er : dot_S2048x128_S128x16_S2048x16_1_0_0_1_n_n.rhsIdx (ix2 r j) ((contrEquiv1 dot_S2048x128_S128x16_S2048x16_1_0_0_1_n_n 128 rfl rfl).symm k) = ix2 k j := funext fun a => Fin.ext (by
    match a with
    | ⟨0, _⟩ => exact (rhs_fc2_0 _ _).trans hk
    | ⟨1, _⟩ => exact rhs_fc2_1 _ _)
  rw [el, er]

theorem unrows_apply {α : Type} (y : S2048x16.Idx → α) (b : Fin 64) (a : Fin 32) (j : Fin 16) :
    shapeCast S64x32x16 y shapeCasts_S2048x16_S64x32x16 (ix3 b a j) = y (ix2 (brow b a) j) :=
  shapeCast_apply y shapeCasts_S2048x16_S64x32x16 _ _ (by
    rw [Shape.rowMajor_val_three, Shape.rowMajor_val_two]
    rfl)

variable (P : Weights)
variable (X : Fin 64 → Fin 32 → Fin 96 → EReal) (Hd : Fin 64 → Fin 32 → Fin 128 → EReal) (M : Fin 64 → Fin 32 → Fin 32 → EReal)

section
variable (v115 : FVec Ideal S64x32x128 .f32) (v128 v131 : FVec Ideal S64x32x32 .f32)
  (v144 : Vec Ideal S128x16 .f32) (v148 : Vec Ideal S16 .f32)
  (h115 : ∀ b a j, v115 (ix3 b a j) = proj P.Wv2 P.bv2 (H1 P (X b) (Hd b) (M b)) a j)
  (h128 : ∀ b i j, v128 (ix3 b i j) = logits P.Wk2 P.bk2 P.Wq2 P.bq2 (M b) (H1 P (X b) (Hd b) (M b)) i j)
  (h131 : ∀ b i j, v131 (ix3 b i j) = rowmax (logits P.Wk2 P.bk2 P.Wq2 P.bq2 (M b) (H1 P (X b) (Hd b) (M b)) i))
  (h144 : ∀ (k : Fin 128) (j : Fin 16), v144 (ix2 k j) = P.Wfc2 j k) (h148 : ∀ j : Fin 16, v148 (ix1 j) = P.bfc2 j)
include h115 h128 h131

theorem pay1_apply (b : Fin 64) (i : Fin 32) (h : Fin 128) :
    k0_pay1 (F := Ideal) v115 v128 v131 (ix3 b i h) = H2 P (X b) (Hd b) (M b) i h := by
  unfold k0_pay1
  refine (mix_apply _ _ b i h).trans ?_
  unfold H2 att soft
  refine Finset.sum_congr rfl fun k _ => ?_

  have hw : ∀ k' : Fin 32, Ideal.exp (v128 (ix3 b i k') - v131 (ix3 b i k'))
      = Ideal.exp (logits P.Wk2 P.bk2 P.Wq2 P.bq2 (M b) (H1 P (X b) (Hd b) (M b)) i k'
          - rowmax (logits P.Wk2 P.bk2 P.Wq2 P.bq2 (M b) (H1 P (X b) (Hd b) (M b)) i)) := fun k' => by
    rw [h128, h131]
  refine congrArg₂ (· * ·) ?_ (h115 b k h)
  show Ideal.div (Ideal.exp (v128 (ix3 b i k) - v131 (ix3 b i k))) _ = _
  refine congrArg₂ Ideal.div (hw k) ?_
  refine (bcastcol_apply _ b i k).trans ?_
  refine (keepdims_apply _ b i 0).trans ?_
  refine (rowsum_apply _ b i).trans ?_
  exact Finset.sum_congr rfl fun k' _ => hw k'

include h144 h148

theorem pay2_apply (b : Fin 64) (a : Fin 32) (j : Fin 16) :
    k0_pay2 (F := Ideal) v115 v128 v131 v144 v148 (ix3 b a j) = Q P (X b) (Hd b) (M b) a j := by
  unfold k0_pay2
  refine (unrows_apply _ b a j).trans ?_
  unfold Q dense
  refine congrArg₂ (· + ·) ?_ ?_
  · refine (fc2_apply _ _ (brow b a) j).trans ?_
    refine Finset.sum_congr rfl fun k _ => ?_
    refine congrArg₂ (· * ·) ?_ ?_
    · show shapeCast S2048x128 (k0_pay1 (F := Ideal) v115 v128 v131) shapeCasts_S64x32x128_S2048x128 (ix2 (brow b a) k) = _
      refine (rows_apply _ b a k).trans ?_
      exact pay1_apply P X Hd M v115 v128 v131 h115 h128 h131 b a k
    · show shapeCast S128x16 v144 shapeCasts_S128x16_S128x16 (ix2 k j) = _
      rw [shapeCast_self]
      exact h144 k j
  · refine (broadcastTo_1b_ab_apply _ broadcasts_S1x16_S2048x16 (brow b a) j).trans ?_
    refine (shapeCast_a_1a_apply _ shapeCasts_S16_S1x16 0 j).trans ?_
    exact h148 j
end

end Cert.KernelIdeal.HValue

end
-- ==== Proof.KTop.lean ====
import proofs.«403671_j61134564491522_3_alg».proof.Proof.KIBody
import proofs.«403671_j61134564491522_3_alg».proof.Proof.KVal1
import proofs.«403671_j61134564491522_3_alg».proof.Proof.KVal2
import proofs.«403671_j61134564491522_3_alg».proof.Proof.KVal3
import proofs.«403671_j61134564491522_3_alg».proof.Proof.KVal4

noncomputable section

namespace Cert.KernelIdeal.HValue

open Idealize.ShloMosaic Idealize.ShloMosaic.ValueIdx Cert.KernelIdeal Cert.KernelIdeal.Gen Cert.KernelIdeal.HFrame RNNSpec

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The seventeen input blocks hold one batch of inputs `X`, `Hd`, `M` and the weights `P`, in the layout the body reads. -/
structure Reads (P : Weights) (X : Fin 64 → Fin 32 → Fin 96 → EReal) (Hd : Fin 64 → Fin 32 → Fin 128 → EReal) (M : Fin 64 → Fin 32 → Fin 32 → EReal)
    (x0 : Vec Ideal S64x32x96 .f32) (x1 : Vec Ideal S64x32x128 .f32) (x2 : Vec Ideal S64x32x32 .f32) (x3 : Vec Ideal S96x128 .f32) (x4 : Vec Ideal S128 .f32)
    (x5 : Vec Ideal S256x256 .f32) (x6 : Vec Ideal S256 .f32) (x7 : Vec Ideal S128x128 .f32) (x8 : Vec Ideal S128 .f32) (x9 : Vec Ideal S128x128 .f32) (x10 : Vec Ideal S128 .f32)
    (x11 : Vec Ideal S128x384 .f32) (x12 : Vec Ideal S384 .f32) (x13 : Vec Ideal S128x384 .f32) (x14 : Vec Ideal S384 .f32) (x15 : Vec Ideal S128x16 .f32) (x16 : Vec Ideal S16 .f32) : Prop where
  hx0 : ∀ b a k, x0 (ix3 b a k) = X b a k
  hx1 : ∀ b a j, x1 (ix3 b a j) = Hd b a j
  hx2 : ∀ b i j, x2 (ix3 b i j) = M b i j
  hx3 : ∀ (k : Fin 96) (j : Fin 128), x3 (ix2 k j) = P.Wfc1 j k
  hx4 : ∀ j : Fin 128, x4 (ix1 j) = P.bfc1 j
  hx5x : ∀ (k : Fin 128) (c : Fin 256), x5 (ix2 (lo256 k) c) = P.Wih (c384 c) k
  hx5h : ∀ (k : Fin 128) (c : Fin 256), x5 (ix2 (hi256 k) c) = P.Whh (c384 c) k
  hx6 : ∀ c : Fin 256, x6 (ix1 c) = P.bih (c384 c) + P.bhh (c384 c)
  hx7 : ∀ (k j : Fin 128), x7 (ix2 k j) = P.Wih (hi j) k
  hx8 : ∀ j : Fin 128, x8 (ix1 j) = P.bih (hi j)
  hx9 : ∀ (k j : Fin 128), x9 (ix2 k j) = P.Whh (hi j) k
  hx10 : ∀ j : Fin 128, x10 (ix1 j) = P.bhh (hi j)
  hx11v : ∀ (k j : Fin 128), x11 (ix2 k (lo j)) = P.Wv1 j k
  hx11q : ∀ (k j : Fin 128), x11 (ix2 k (mid j)) = P.Wq1 j k
  hx11k : ∀ (k j : Fin 128), x11 (ix2 k (hi j)) = P.Wk1 j k
  hx12v : ∀ j : Fin 128, x12 (ix1 (lo j)) = P.bv1 j
  hx12q : ∀ j : Fin 128, x12 (ix1 (mid j)) = P.bq1 j
  hx12k : ∀ j : Fin 128, x12 (ix1 (hi j)) = P.bk1 j
  hx13v : ∀ (k j : Fin 128), x13 (ix2 k (lo j)) = P.Wv2 j k
  hx13q : ∀ (k j : Fin 128), x13 (ix2 k (mid j)) = P.Wq2 j k
  hx13k : ∀ (k j : Fin 128), x13 (ix2 k (hi j)) = P.Wk2 j k
  hx14v : ∀ j : Fin 128, x14 (ix1 (lo j)) = P.bv2 j
  hx14q : ∀ j : Fin 128, x14 (ix1 (mid j)) = P.bq2 j
  hx14k : ∀ j : Fin 128, x14 (ix1 (hi j)) = P.bk2 j
  hx15 : ∀ (k : Fin 128) (j : Fin 16), x15 (ix2 k j) = P.Wfc2 j k
  hx16 : ∀ j : Fin 16, x16 (ix1 j) = P.bfc2 j

section
variable {P : Weights} {X : Fin 64 → Fin 32 → Fin 96 → EReal} {Hd : Fin 64 → Fin 32 → Fin 128 → EReal} {M : Fin 64 → Fin 32 → Fin 32 → EReal}
variable {x0 : Vec Ideal S64x32x96 .f32} {x1 : Vec Ideal S64x32x128 .f32} {x2 : Vec Ideal S64x32x32 .f32} {x3 : Vec Ideal S96x128 .f32} {x4 : Vec Ideal S128 .f32}
  {x5 : Vec Ideal S256x256 .f32} {x6 : Vec Ideal S256 .f32} {x7 : Vec Ideal S128x128 .f32} {x8 : Vec Ideal S128 .f32} {x9 : Vec Ideal S128x128 .f32} {x10 : Vec Ideal S128 .f32}
  {x11 : Vec Ideal S128x384 .f32} {x12 : Vec Ideal S384 .f32} {x13 : Vec Ideal S128x384 .f32} {x14 : Vec Ideal S384 .f32} {x15 : Vec Ideal S128x16 .f32} {x16 : Vec Ideal S16 .f32}
variable (h : Reads P X Hd M x0 x1 x2 x3 x4 x5 x6 x7 x8 x9 x10 x11 x12 x13 x14 x15 x16)

theorem ld0 : View.ld x0 rX = x0 := View.ld_unit_zero (S := S64x32x96) hz3 _ x0
theorem ld1 : View.ld x1 rH = x1 := View.ld_unit_zero (S := S64x32x128) hz3 _ x1
theorem ld2 : View.ld x2 rM = x2 := View.ld_unit_zero (S := S64x32x32) hz3 _ x2
theorem ld3 : View.ld x3 r96x128 = x3 := View.ld_unit_zero (S := S96x128) hz2 _ x3
theorem ld4 : View.ld x4 r128 = x4 := View.ld_unit_zero (S := S128) hz1 _ x4
theorem ld5 : View.ld x5 r256x256 = x5 := View.ld_unit_zero (S := S256x256) hz2 _ x5
theorem ld6 : View.ld x6 r256 = x6 := View.ld_unit_zero (S := S256) hz1 _ x6
theorem ld7 (x : Vec Ideal S128x128 .f32) : View.ld x r128x128 = x := View.ld_unit_zero (S := S128x128) hz2 _ x
theorem ld8 (x : Vec Ideal S128 .f32) : View.ld x r128 = x := View.ld_unit_zero (S := S128) hz1 _ x
theorem ld11 (x : Vec Ideal S128x384 .f32) : View.ld x r128x384 = x := View.ld_unit_zero (S := S128x384) hz2 _ x
theorem ld12 (x : Vec Ideal S384 .f32) : View.ld x r384 = x := View.ld_unit_zero (S := S384) hz1 _ x
theorem ld15 : View.ld x15 r128x16 = x15 := View.ld_unit_zero (S := S128x16) hz2 _ x15
theorem ld16 : View.ld x16 r16 = x16 := View.ld_unit_zero (S := S16) hz1 _ x16

theorem e84 (b : Fin 64) (i j : Fin 32) : (p2v84 : FVec Ideal S64x32x32 .f32) (ix3 b i j) = one32 := pay13_apply b i j

include h

theorem e5 (b : Fin 64) (a : Fin 32) (j : Fin 128) : p1v5 x1 (ix2 (brow b a) j) = Hd b a j := by
  unfold p1v5; rw [ld1, pay3_apply]; exact h.hx1 b a j
theorem e18 (b : Fin 64) (a : Fin 32) (j : Fin 128) : p1v18 x1 (ix2 (brow b a) j) = Hd b a j := by
  unfold p1v18; rw [ld1, pay5_apply]; exact h.hx1 b a j

theorem e29 (b : Fin 64) (a : Fin 32) (j : Fin 128) : p1v29 x0 x1 x3 x4 x5 x6 (ix2 (brow b a) j)
    = dense P.Wih P.bih (fc1 P.Wfc1 P.bfc1 (X b a)) (lo j) + dense P.Whh P.bhh (Hd b a) (lo j) := by
  unfold p1v29
  rw [ld0, ld1, ld3, ld4, ld5, ld6, pay7_apply P x0 x1 x3 x4 x5 x6 h.hx3 h.hx4 h.hx5x h.hx5h h.hx6 b a j,
    show (fun k => x0 (ix3 b a k)) = X b a from funext (h.hx0 b a), show (fun k => x1 (ix3 b a k)) = Hd b a from funext (h.hx1 b a)]
theorem e30 (b : Fin 64) (a : Fin 32) (j : Fin 128) : p1v30 x0 x1 x3 x4 x5 x6 (ix2 (brow b a) j)
    = dense P.Wih P.bih (fc1 P.Wfc1 P.bfc1 (X b a)) (mid j) + dense P.Whh P.bhh (Hd b a) (mid j) := by
  unfold p1v30
  rw [ld0, ld1, ld3, ld4, ld5, ld6, pay8_apply P x0 x1 x3 x4 x5 x6 h.hx3 h.hx4 h.hx5x h.hx5h h.hx6 b a j,
    show (fun k => x0 (ix3 b a k)) = X b a from funext (h.hx0 b a), show (fun k => x1 (ix3 b a k)) = Hd b a from funext (h.hx1 b a)]
theorem e39 (b : Fin 64) (a : Fin 32) (j : Fin 128) : p1v39 x0 x3 x4 x7 x8 (ix2 (brow b a) j)
    = dense P.Wih P.bih (fc1 P.Wfc1 P.bfc1 (X b a)) (hi j) := by
  unfold p1v39
  rw [ld0, ld3, ld4, ld7, ld8, pay9_apply P x0 x3 x4 x7 x8 h.hx3 h.hx4 h.hx7 h.hx8 b a j,
    show (fun k => x0 (ix3 b a k)) = X b a from funext (h.hx0 b a)]

theorem e75 (b : Fin 64) (a : Fin 32) (j : Fin 128) : p2v75 x0 x1 x3 x4 x5 x6 x7 x8 x9 x10 x11 x12 (ix3 b a j)
    = proj P.Wv1 P.bv1 (H0 P (X b) (Hd b)) a j := by
  unfold p2v75
  rw [ld7, ld8, ld11, ld12]
  exact pay11_apply P X Hd _ _ _ _ _ x9 x10 x11 x12 (e5 h) (e18 h) (e29 h) (e30 h) (e39 h) h.hx9 h.hx10 h.hx11v h.hx12v b a j
theorem e83 (b : Fin 64) (i j : Fin 32) : p2v83 x0 x1 x2 x3 x4 x5 x6 x7 x8 x9 x10 x11 x12 (ix3 b i j)
    = score (proj P.Wq1 P.bq1 (H0 P (X b) (Hd b))) (proj P.Wk1 P.bk1 (H0 P (X b) (Hd b))) i j * M b i j := by
  unfold p2v83
  rw [ld7, ld8, ld2, ld11, ld12]
  exact pay12_apply P X Hd M _ _ _ _ _ x9 x10 x2 x11 x12 (e5 h) (e18 h) (e29 h) (e30 h) (e39 h) h.hx9 h.hx10 h.hx2 h.hx11v h.hx11q h.hx11k h.hx12v h.hx12q h.hx12k b i j

theorem e115 (b : Fin 64) (a : Fin 32) (j : Fin 128) : p3v115 x0 x1 x2 x3 x4 x5 x6 x7 x8 x9 x10 x11 x12 x13 x14 (ix3 b a j)
    = proj P.Wv2 P.bv2 (H1 P (X b) (Hd b) (M b)) a j := by
  unfold p3v115
  rw [ld2, ld11, ld12]
  exact pay15_apply P X Hd M x2 _ _ _ x13 x14 h.hx2 (e75 h) (e83 h) e84 h.hx13v h.hx14v b a j
theorem e128 (b : Fin 64) (i j : Fin 32) : p3v128 x0 x1 x2 x3 x4 x5 x6 x7 x8 x9 x10 x11 x12 x13 x14 (ix3 b i j)
    = logits P.Wk2 P.bk2 P.Wq2 P.bq2 (M b) (H1 P (X b) (Hd b) (M b)) i j := by
  unfold p3v128
  rw [ld2, ld11, ld12]
  exact pay16_apply P X Hd M x2 _ _ _ x13 x14 h.hx2 (e75 h) (e83 h) e84 h.hx13v h.hx13q h.hx13k h.hx14v h.hx14q h.hx14k b i j
theorem e131 (b : Fin 64) (i j : Fin 32) : p3v131 x0 x1 x2 x3 x4 x5 x6 x7 x8 x9 x10 x11 x12 x13 x14 (ix3 b i j)
    = rowmax (logits P.Wk2 P.bk2 P.Wq2 P.bq2 (M b) (H1 P (X b) (Hd b) (M b)) i) := by
  unfold p3v131
  rw [ld2, ld11, ld12]
  exact pay17_apply P X Hd M x2 _ _ _ x13 x14 h.hx2 (e75 h) (e83 h) e84 h.hx13v h.hx13q h.hx13k h.hx14v h.hx14q h.hx14k b i j

theorem out18_apply (b : Fin 64) (a : Fin 32) (j : Fin 128) :
    out0_18 x0 x1 x2 x3 x4 x5 x6 x7 x8 x9 x10 x11 x12 x13 x14 (ix3 b a j) = H2 P (X b) (Hd b) (M b) a j := by
  unfold out0_18
  rw [View.canon_unit_zero hz3]
  exact pay1_apply P X Hd M _ _ _ (e115 h) (e128 h) (e131 h)
    b a j

theorem out17_apply (b : Fin 64) (a : Fin 32) (j : Fin 16) :
    out0_17 x0 x1 x2 x3 x4 x5 x6 x7 x8 x9 x10 x11 x12 x13 x14 x15 x16 (ix3 b a j) = Q P (X b) (Hd b) (M b) a j := by
  unfold out0_17
  rw [View.canon_unit_zero hz3, ld15, ld16]
  exact pay2_apply P X Hd M _ _ _ x15 x16 (e115 h) (e128 h) (e131 h)
    h.hx15 h.hx16 b a j

end

end Cert.KernelIdeal.HValue

end
-- ==== Proof.Whole.lean ====
import proofs.«403671_j61134564491522_3_alg».proof.Proof.Spec
import Idealize.ShloMosaic.Lib.ValueIdx

noncomputable section

namespace RNNSpec

open Idealize.ShloMosaic Idealize.ShloMosaic.ValueIdx

/-- Agent `a` of batch element `b` is row `b·32 + a` of the 131072. -/
def row (b : Fin 4096) (a : Fin 32) : Fin 131072 := ⟨b.val * 32 + a.val, by omega⟩

def Xof (a0 : FVec Ideal (⟨2, ![131072, 96]⟩ : Shape) .f32) (b : Fin 4096) (a : Fin 32) (k : Fin 96) : EReal := a0 (ix2 (row b a) k)
def Hof (a1 : FVec Ideal (⟨2, ![131072, 128]⟩ : Shape) .f32) (b : Fin 4096) (a : Fin 32) (k : Fin 128) : EReal := a1 (ix2 (row b a) k)
def Mof (a2 : FVec Ideal (⟨3, ![4096, 32, 32]⟩ : Shape) .f32) (b : Fin 4096) (i j : Fin 32) : EReal := a2 (ix3 b i j)

def weightsOf (a3 : FVec Ideal (⟨2, ![128, 96]⟩ : Shape) .f32) (a4 : FVec Ideal (⟨1, ![128]⟩ : Shape) .f32) (a5 : FVec Ideal (⟨2, ![384, 128]⟩ : Shape) .f32) (a6 : FVec Ideal (⟨1, ![384]⟩ : Shape) .f32) (a7 : FVec Ideal (⟨2, ![384, 128]⟩ : Shape) .f32) (a8 : FVec Ideal (⟨1, ![384]⟩ : Shape) .f32) (a9 : FVec Ideal (⟨2, ![16, 128]⟩ : Shape) .f32) (a10 : FVec Ideal (⟨1, ![16]⟩ : Shape) .f32) (a11 : FVec Ideal (⟨2, ![128, 128]⟩ : Shape) .f32) (a12 : FVec Ideal (⟨1, ![128]⟩ : Shape) .f32) (a13 : FVec Ideal (⟨2, ![128, 128]⟩ : Shape) .f32) (a14 : FVec Ideal (⟨1, ![128]⟩ : Shape) .f32) (a15 : FVec Ideal (⟨2, ![128, 128]⟩ : Shape) .f32) (a16 : FVec Ideal (⟨1, ![128]⟩ : Shape) .f32) (a17 : FVec Ideal (⟨2, ![128, 128]⟩ : Shape) .f32) (a18 : FVec Ideal (⟨1, ![128]⟩ : Shape) .f32) (a19 : FVec Ideal (⟨2, ![128, 128]⟩ : Shape) .f32) (a20 : FVec Ideal (⟨1, ![128]⟩ : Shape) .f32) (a21 : FVec Ideal (⟨2, ![128, 128]⟩ : Shape) .f32) (a22 : FVec Ideal (⟨1, ![128]⟩ : Shape) .f32) : Weights where
  Wfc1 j k := a3 (ix2 j k)
  bfc1 j := a4 (ix1 j)
  Wih j k := a5 (ix2 j k)
  bih j := a6 (ix1 j)
  Whh j k := a7 (ix2 j k)
  bhh j := a8 (ix1 j)
  Wfc2 j k := a9 (ix2 j k)
  bfc2 j := a10 (ix1 j)
  Wv1 j k := a11 (ix2 j k)
  bv1 j := a12 (ix1 j)
  Wk1 j k := a13 (ix2 j k)
  bk1 j := a14 (ix1 j)
  Wq1 j k := a15 (ix2 j k)
  bq1 j := a16 (ix1 j)
  Wv2 j k := a17 (ix2 j k)
  bv2 j := a18 (ix1 j)
  Wk2 j k := a19 (ix2 j k)
  bk2 j := a20 (ix1 j)
  Wq2 j k := a21 (ix2 j k)
  bq2 j := a22 (ix1 j)

def batchOf (r : Fin 131072) : Fin 4096 := ⟨r.val / 32, by omega⟩
def agentOf (r : Fin 131072) : Fin 32 := ⟨r.val % 32, Nat.mod_lt _ (by norm_num)⟩

/-- The two results as whole arrays: row `r` is agent `r % 32` of batch element `r / 32`. -/
def Gh (a0 : FVec Ideal (⟨2, ![131072, 96]⟩ : Shape) .f32) (a1 : FVec Ideal (⟨2, ![131072, 128]⟩ : Shape) .f32) (a2 : FVec Ideal (⟨3, ![4096, 32, 32]⟩ : Shape) .f32) (a3 : FVec Ideal (⟨2, ![128, 96]⟩ : Shape) .f32) (a4 : FVec Ideal (⟨1, ![128]⟩ : Shape) .f32) (a5 : FVec Ideal (⟨2, ![384, 128]⟩ : Shape) .f32) (a6 : FVec Ideal (⟨1, ![384]⟩ : Shape) .f32) (a7 : FVec Ideal (⟨2, ![384, 128]⟩ : Shape) .f32) (a8 : FVec Ideal (⟨1, ![384]⟩ : Shape) .f32) (a9 : FVec Ideal (⟨2, ![16, 128]⟩ : Shape) .f32) (a10 : FVec Ideal (⟨1, ![16]⟩ : Shape) .f32) (a11 : FVec Ideal (⟨2, ![128, 128]⟩ : Shape) .f32) (a12 : FVec Ideal (⟨1, ![128]⟩ : Shape) .f32) (a13 : FVec Ideal (⟨2, ![128, 128]⟩ : Shape) .f32) (a14 : FVec Ideal (⟨1, ![128]⟩ : Shape) .f32) (a15 : FVec Ideal (⟨2, ![128, 128]⟩ : Shape) .f32) (a16 : FVec Ideal (⟨1, ![128]⟩ : Shape) .f32) (a17 : FVec Ideal (⟨2, ![128, 128]⟩ : Shape) .f32) (a18 : FVec Ideal (⟨1, ![128]⟩ : Shape) .f32) (a19 : FVec Ideal (⟨2, ![128, 128]⟩ : Shape) .f32) (a20 : FVec Ideal (⟨1, ![128]⟩ : Shape) .f32) (a21 : FVec Ideal (⟨2, ![128, 128]⟩ : Shape) .f32) (a22 : FVec Ideal (⟨1, ![128]⟩ : Shape) .f32) :
    FVec Ideal (⟨2, ![131072, 128]⟩ : Shape) .f32 := fun i =>
  H2 (weightsOf a3 a4 a5 a6 a7 a8 a9 a10 a11 a12 a13 a14 a15 a16 a17 a18 a19 a20 a21 a22) (Xof a0 (batchOf (i 0))) (Hof a1 (batchOf (i 0))) (Mof a2 (batchOf (i 0))) (agentOf (i 0)) (i 1)

def Gq (a0 : FVec Ideal (⟨2, ![131072, 96]⟩ : Shape) .f32) (a1 : FVec Ideal (⟨2, ![131072, 128]⟩ : Shape) .f32) (a2 : FVec Ideal (⟨3, ![4096, 32, 32]⟩ : Shape) .f32) (a3 : FVec Ideal (⟨2, ![128, 96]⟩ : Shape) .f32) (a4 : FVec Ideal (⟨1, ![128]⟩ : Shape) .f32) (a5 : FVec Ideal (⟨2, ![384, 128]⟩ : Shape) .f32) (a6 : FVec Ideal (⟨1, ![384]⟩ : Shape) .f32) (a7 : FVec Ideal (⟨2, ![384, 128]⟩ : Shape) .f32) (a8 : FVec Ideal (⟨1, ![384]⟩ : Shape) .f32) (a9 : FVec Ideal (⟨2, ![16, 128]⟩ : Shape) .f32) (a10 : FVec Ideal (⟨1, ![16]⟩ : Shape) .f32) (a11 : FVec Ideal (⟨2, ![128, 128]⟩ : Shape) .f32) (a12 : FVec Ideal (⟨1, ![128]⟩ : Shape) .f32) (a13 : FVec Ideal (⟨2, ![128, 128]⟩ : Shape) .f32) (a14 : FVec Ideal (⟨1, ![128]⟩ : Shape) .f32) (a15 : FVec Ideal (⟨2, ![128, 128]⟩ : Shape) .f32) (a16 : FVec Ideal (⟨1, ![128]⟩ : Shape) .f32) (a17 : FVec Ideal (⟨2, ![128, 128]⟩ : Shape) .f32) (a18 : FVec Ideal (⟨1, ![128]⟩ : Shape) .f32) (a19 : FVec Ideal (⟨2, ![128, 128]⟩ : Shape) .f32) (a20 : FVec Ideal (⟨1, ![128]⟩ : Shape) .f32) (a21 : FVec Ideal (⟨2, ![128, 128]⟩ : Shape) .f32) (a22 : FVec Ideal (⟨1, ![128]⟩ : Shape) .f32) :
    FVec Ideal (⟨2, ![131072, 16]⟩ : Shape) .f32 := fun i =>
  Q (weightsOf a3 a4 a5 a6 a7 a8 a9 a10 a11 a12 a13 a14 a15 a16 a17 a18 a19 a20 a21 a22) (Xof a0 (batchOf (i 0))) (Hof a1 (batchOf (i 0))) (Mof a2 (batchOf (i 0))) (agentOf (i 0)) (i 1)

theorem batchOf_row (b : Fin 4096) (a : Fin 32) : batchOf (row b a) = b := by
  apply Fin.ext; simp only [batchOf, row]; omega
theorem agentOf_row (b : Fin 4096) (a : Fin 32) : agentOf (row b a) = a := by
  apply Fin.ext; simp only [agentOf, row]; omega

end RNNSpec

end
-- ==== Proof.LibHostPeel.lean ====
import Idealize.ShloMosaic.Lib.StableHlo.Run
import Idealize.ShloMosaic.Lib.Pipeline.Frame

noncomputable section

namespace Idealize.ShloMosaic.HostPeel

open Idealize.ShloMosaic Idealize.SL.Sem

variable {τ : Topo} {sig : RefSig} {Val : EltTy → Type}

/-- A three-operand operation's result with each operand's contents at its own reference, so each can be rewritten in turn. -/
theorem nary3_result {x a b y : Ref sig .tc}
    (f : ((k : Fin 3) → ((![x, a, b] : Fin 3 → Ref sig .tc) k).ty.Contents Val) → y.ty.Contents Val) (hxs hy)
    (F : Valuation τ sig Val) :
    (StableHlo.nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

/-- If nothing after position `k` writes `b`, the whole fold at `b` is operation `k`'s result over the fold before it. -/
theorem after_peel (ops : List (HloOp τ sig Val)) (V : Valuation τ sig Val) (k : Nat) (op : HloOp τ sig Val)
    (rest : List (HloOp τ sig Val)) (b : DevRef τ sig) (hd : ops.drop k = op :: rest)
    (hrest : ∀ o ∈ rest, b ∉ o.writes) :
    StableHlo.after ops V b = op.result (StableHlo.after (ops.take k) V) b := by
  conv_lhs => rw [← List.take_append_drop k ops, StableHlo.after_append, hd, StableHlo.after_cons]
  exact StableHlo.after_of_forall_not_mem rest _ hrest

/-- The same cut inside an initial segment, for a buffer written at `j < k`. -/
theorem after_take_peel (ops : List (HloOp τ sig Val)) (V : Valuation τ sig Val) (j k : Nat) (op : HloOp τ sig Val)
    (rest : List (HloOp τ sig Val)) (b : DevRef τ sig) (hjk : j < k) (hd : ops.drop j = op :: rest)
    (hrest : ∀ o ∈ rest, b ∉ o.writes) :
    StableHlo.after (ops.take k) V b = op.result (StableHlo.after (ops.take j) V) b := by
  have h1 : (ops.take k).drop j = op :: rest.take (k - j - 1) := by
    have hkj : k - j = (k - j - 1) + 1 := by omega
    rw [List.drop_take, hd]
    conv_lhs => rw [hkj, List.take_succ_cons]
  have h2 : (ops.take k).take j = ops.take j := by rw [List.take_take, Nat.min_eq_left (Nat.le_of_lt hjk)]
  rw [after_peel (ops.take k) V j op (rest.take (k - j - 1)) b h1 (fun o ho => hrest o (List.mem_of_mem_take ho)), h2]

/-- A buffer no operation writes is unchanged by any part of the line. -/
theorem after_kept_of_subset {l ops : List (HloOp τ sig Val)} (hl : l ⊆ ops) (V : Valuation τ sig Val)
    (b : DevRef τ sig) (h : ∀ o ∈ ops, b ∉ o.writes) : StableHlo.after l V b = V b :=
  StableHlo.after_of_forall_not_mem l V fun o ho => h o (hl ho)

end Idealize.ShloMosaic.HostPeel

end
-- ==== Proof.KHostVals.lean ====
import proofs.«403671_j61134564491522_3_alg».proof.Proof.KIHost
import proofs.«403671_j61134564491522_3_alg».proof.Proof.Whole
import proofs.«403671_j61134564491522_3_alg».proof.Proof.KIface
import proofs.«403671_j61134564491522_3_alg».proof.Proof.LibHostPeel
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.HValue

open Idealize.ShloMosaic Idealize.ShloMosaic.TcCoe Idealize.ShloMosaic.ValueIdx Idealize.SL.Sem
open Cert.KernelIdeal Cert.KernelIdeal.Gen Cert.KernelIdeal.HFrame RNNSpec
open Idealize.ShloMosaic.HostPeel

variable (m : (ℓ : Loc nD τ sig) → Buf (Elt Ideal) ℓ) (c : Dev nD)

def Pm : Weights := weightsOf (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))

theorem kept0 (b : Ref sig .tc) (hb : ∀ y ∈ written0, b ≠ y) :
    ∀ o ∈ (hostOps0 : List (HloOp τ sig (Elt Ideal))), Proc.devRef .tc b ∉ o.writes :=
  List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (hb _ (by simp only [written0, List.mem_cons, true_or, or_true])))

local macro "not_written" : tactic =>
  `(tactic| (refine List.forall_iff_forall_mem.mp ?_
             simp only [List.take_succ_cons, List.take_zero, List.Forall, StableHlo.unary_writes, StableHlo.binary_writes,
               StableHlo.nary_writes, StableHlo.reshape_writes, Finset.mem_singleton]
             repeat' apply And.intro
             all_goals first | trivial | exact StableHlo.devRef_ne_of_ne (by decide)))

theorem take_kept (k : Nat) (b : Ref sig .tc) (hb : ∀ y ∈ written0, b ≠ y := by decide) :
    StableHlo.after ((hostOps0 : List (HloOp τ sig (Elt Ideal))).take k) (fun b => m (c, b)) (Proc.devRef .tc b)
      = m ((c.tc : Thread nD τ).loc b) :=
  after_kept_of_subset (List.take_subset _ _) _ _ (kept0 b hb)

/-- The two cuts of the fold at this program's host lines, over its launch contents. -/
theorem peel (k : Nat) (y : Ref sig .tc) {op : HloOp τ sig (Elt Ideal)} {rest} (hd : hostOps0.drop k = op :: rest)
    (hr : ∀ o ∈ rest, Proc.devRef .tc y ∉ o.writes) :
    V m c y = op.result (StableHlo.after (hostOps0.take k) (fun b => m (c, b))) (Proc.devRef .tc y) :=
  show StableHlo.after hostOps0 (fun b => m (c, b)) (Proc.devRef .tc y) = _ from after_peel hostOps0 _ k op rest _ hd hr
theorem tpeel (j k : Nat) (y : Ref sig .tc) {op : HloOp τ sig (Elt Ideal)} {rest} (hd : hostOps0.drop j = op :: rest)
    (hr : ∀ o ∈ rest, Proc.devRef .tc y ∉ o.writes) (hjk : j < k := by decide) :
    StableHlo.after (hostOps0.take k) (fun b => m (c, b)) (Proc.devRef .tc y)
      = op.result (StableHlo.after (hostOps0.take j) (fun b => m (c, b))) (Proc.devRef .tc y) :=
  after_take_peel hostOps0 _ j k op rest _ hjk hd hr

theorem e_v0 : (V m c main_v0 : S4096x32x96.Idx → EReal) = shapeCast S4096x32x96 (m ((c.tc : Thread nD τ).loc main_arg0)) shapeCasts_S131072x96_S4096x32x96 := by
  rw [peel m c 0 main_v0 rfl (by not_written), StableHlo.reshape_result, take_kept m c _ main_arg0]
  rfl
theorem e_v1 : (V m c main_v1 : S4096x32x128.Idx → EReal) = shapeCast S4096x32x128 (m ((c.tc : Thread nD τ).loc main_arg1)) shapeCasts_S131072x128_S4096x32x128 := by
  rw [peel m c 1 main_v1 rfl (by not_written), StableHlo.reshape_result, take_kept m c _ main_arg1]
  rfl
theorem e_v2 : (V m c main_v2 : S96x128.Idx → EReal) = transpose S96x128 [1, 0] (m ((c.tc : Thread nD τ).loc main_arg3)) transposes_S128x96_S96x128_1_0 := by
  rw [peel m c 2 main_v2 rfl (by not_written), StableHlo.unary_result, take_kept m c _ main_arg3]
theorem e_v3 : (V m c main_v3 : S128x16.Idx → EReal) = transpose S128x16 [1, 0] (m ((c.tc : Thread nD τ).loc main_arg9)) transposes_S16x128_S128x16_1_0 := by
  rw [peel m c 3 main_v3 rfl (by not_written), StableHlo.unary_result, take_kept m c _ main_arg9]
theorem e_v8 : (V m c main_v8 : S256x256.Idx → EReal) =
    concatenate S256x256 0 [⟨S128x256, transpose S128x256 [1, 0] (extractStridedSlice S256x128 ![0, 0] (m ((c.tc : Thread nD τ).loc main_arg5)) slices_S384x128_S256x128_0_0) transposes_S256x128_S128x256_1_0⟩,
      ⟨S128x256, transpose S128x256 [1, 0] (extractStridedSlice S256x128 ![0, 0] (m ((c.tc : Thread nD τ).loc main_arg7)) slices_S384x128_S256x128_0_0) transposes_S256x128_S128x256_1_0⟩]
      concatenates_S128x256_S128x256_S256x256_d0 := by
  rw [peel m c 8 main_v8 rfl (by not_written), StableHlo.binary_result,
    tpeel m c 5 8 main_v5 rfl (by not_written), StableHlo.unary_result, tpeel m c 4 5 main_v4 rfl (by not_written), StableHlo.unary_result,
    tpeel m c 7 8 main_v7 rfl (by not_written), StableHlo.unary_result, tpeel m c 6 7 main_v6 rfl (by not_written), StableHlo.unary_result,
    take_kept m c _ main_arg5, take_kept m c _ main_arg7]
theorem e_v11 : (V m c main_v11 : S256.Idx → EReal) =
    addf (F := Ideal) (s := S256) (φ := .f32) (extractStridedSlice S256 ![0] (m ((c.tc : Thread nD τ).loc main_arg6)) slices_S384_S256_0)
      (extractStridedSlice S256 ![0] (m ((c.tc : Thread nD τ).loc main_arg8)) slices_S384_S256_0) := by
  rw [peel m c 11 main_v11 rfl (by not_written), StableHlo.binary_result,
    tpeel m c 9 11 main_v9 rfl (by not_written), StableHlo.unary_result, tpeel m c 10 11 main_v10 rfl (by not_written), StableHlo.unary_result,
    take_kept m c _ main_arg6, take_kept m c _ main_arg8]
theorem e_v13 : (V m c main_v13 : S128x128.Idx → EReal) =
    transpose S128x128 [1, 0] (extractStridedSlice S128x128 ![256, 0] (m ((c.tc : Thread nD τ).loc main_arg5)) slices_S384x128_S128x128_256_0) transposes_S128x128_S128x128_1_0 := by
  rw [peel m c 13 main_v13 rfl (by not_written), StableHlo.unary_result, tpeel m c 12 13 main_v12 rfl (by not_written), StableHlo.unary_result, take_kept m c _ main_arg5]
theorem e_v14 : (V m c main_v14 : S128.Idx → EReal) = extractStridedSlice S128 ![256] (m ((c.tc : Thread nD τ).loc main_arg6)) slices_S384_S128_256 := by
  rw [peel m c 14 main_v14 rfl (by not_written), StableHlo.unary_result, take_kept m c _ main_arg6]
theorem e_v16 : (V m c main_v16 : S128x128.Idx → EReal) =
    transpose S128x128 [1, 0] (extractStridedSlice S128x128 ![256, 0] (m ((c.tc : Thread nD τ).loc main_arg7)) slices_S384x128_S128x128_256_0) transposes_S128x128_S128x128_1_0 := by
  rw [peel m c 16 main_v16 rfl (by not_written), StableHlo.unary_result, tpeel m c 15 16 main_v15 rfl (by not_written), StableHlo.unary_result, take_kept m c _ main_arg7]
theorem e_v17 : (V m c main_v17 : S128.Idx → EReal) = extractStridedSlice S128 ![256] (m ((c.tc : Thread nD τ).loc main_arg8)) slices_S384_S128_256 := by
  rw [peel m c 17 main_v17 rfl (by not_written), StableHlo.unary_result, take_kept m c _ main_arg8]
theorem e_v21 : (V m c main_v21 : S128x384.Idx → EReal) =
    concatenate S128x384 1 [⟨S128x128, transpose S128x128 [1, 0] (m ((c.tc : Thread nD τ).loc main_arg11)) transposes_S128x128_S128x128_1_0⟩, ⟨S128x128, transpose S128x128 [1, 0] (m ((c.tc : Thread nD τ).loc main_arg15)) transposes_S128x128_S128x128_1_0⟩, ⟨S128x128, transpose S128x128 [1, 0] (m ((c.tc : Thread nD τ).loc main_arg13)) transposes_S128x128_S128x128_1_0⟩]
      concatenates_S128x128_S128x128_S128x128_S128x384_d1 := by
  rw [peel m c 21 main_v21 rfl (by not_written), nary3_result,
    tpeel m c 18 21 main_v18 rfl (by not_written), StableHlo.unary_result, tpeel m c 19 21 main_v19 rfl (by not_written), StableHlo.unary_result, tpeel m c 20 21 main_v20 rfl (by not_written), StableHlo.unary_result,
    take_kept m c _ main_arg11, take_kept m c _ main_arg15, take_kept m c _ main_arg13]
  rfl
theorem e_v22 : (V m c main_v22 : S384.Idx → EReal) =
    concatenate S384 0 [⟨S128, (m ((c.tc : Thread nD τ).loc main_arg12))⟩, ⟨S128, (m ((c.tc : Thread nD τ).loc main_arg16))⟩, ⟨S128, (m ((c.tc : Thread nD τ).loc main_arg14))⟩] concatenates_S128_S128_S128_S384_d0 := by
  rw [peel m c 22 main_v22 rfl (by not_written), nary3_result, take_kept m c _ main_arg12, take_kept m c _ main_arg16, take_kept m c _ main_arg14]
  rfl
theorem e_v26 : (V m c main_v26 : S128x384.Idx → EReal) =
    concatenate S128x384 1 [⟨S128x128, transpose S128x128 [1, 0] (m ((c.tc : Thread nD τ).loc main_arg17)) transposes_S128x128_S128x128_1_0⟩, ⟨S128x128, transpose S128x128 [1, 0] (m ((c.tc : Thread nD τ).loc main_arg21)) transposes_S128x128_S128x128_1_0⟩, ⟨S128x128, transpose S128x128 [1, 0] (m ((c.tc : Thread nD τ).loc main_arg19)) transposes_S128x128_S128x128_1_0⟩]
      concatenates_S128x128_S128x128_S128x128_S128x384_d1 := by
  rw [peel m c 26 main_v26 rfl (by not_written), nary3_result,
    tpeel m c 23 26 main_v23 rfl (by not_written), StableHlo.unary_result, tpeel m c 24 26 main_v24 rfl (by not_written), StableHlo.unary_result, tpeel m c 25 26 main_v25 rfl (by not_written), StableHlo.unary_result,
    take_kept m c _ main_arg17, take_kept m c _ main_arg21, take_kept m c _ main_arg19]
  rfl
theorem e_v27 : (V m c main_v27 : S384.Idx → EReal) =
    concatenate S384 0 [⟨S128, (m ((c.tc : Thread nD τ).loc main_arg18))⟩, ⟨S128, (m ((c.tc : Thread nD τ).loc main_arg22))⟩, ⟨S128, (m ((c.tc : Thread nD τ).loc main_arg20))⟩] concatenates_S128_S128_S128_S384_d0 := by
  rw [peel m c 27 main_v27 rfl (by not_written), nary3_result, take_kept m c _ main_arg18, take_kept m c _ main_arg22, take_kept m c _ main_arg20]
  rfl

theorem V_v0 (b : Fin 4096) (a : Fin 32) (k : Fin 96) :
    V m c main_v0 (ix3 b a k) = m ((c.tc : Thread nD τ).loc main_arg0) (ix2 (row b a) k) := by
  rw [e_v0]
  exact shapeCast_apply _ shapeCasts_S131072x96_S4096x32x96 (ix3 b a k) (ix2 (row b a) k)
    (by rewrite [Shape.rowMajor_val_two, Shape.rowMajor_val_three]; rfl)
theorem V_v1 (b : Fin 4096) (a : Fin 32) (k : Fin 128) :
    V m c main_v1 (ix3 b a k) = m ((c.tc : Thread nD τ).loc main_arg1) (ix2 (row b a) k) := by
  rw [e_v1]
  exact shapeCast_apply _ shapeCasts_S131072x128_S4096x32x128 (ix3 b a k) (ix2 (row b a) k)
    (by rewrite [Shape.rowMajor_val_two, Shape.rowMajor_val_three]; rfl)

theorem V_v2 (k : Fin 96) (j : Fin 128) : V m c main_v2 (ix2 k j) = (Pm m c).Wfc1 j k := by
  rw [e_v2]
  exact transpose_apply [1, 0] _ transposes_S128x96_S96x128_1_0 (ix2 k j) (ix2 j k) (fun b => match b with | ⟨0, _⟩ => rfl | ⟨1, _⟩ => rfl)
theorem V_v3 (k : Fin 128) (j : Fin 16) : V m c main_v3 (ix2 k j) = (Pm m c).Wfc2 j k := by
  rw [e_v3]
  exact transpose_apply [1, 0] _ transposes_S16x128_S128x16_1_0 (ix2 k j) (ix2 j k) (fun b => match b with | ⟨0, _⟩ => rfl | ⟨1, _⟩ => rfl)

theorem V_v8x (k : Fin 128) (cc : Fin 256) : V m c main_v8 (ix2 (lo256 k) cc) = (Pm m c).Wih (c384 cc) k := by
  rw [e_v8]
  refine (concatenate_pair_apply_left 0 _ _ concatenates_S128x256_S128x256_S256x256_d0 (ix2 (lo256 k) cc) rfl (ix2 k cc)
    (fun b => match b with | ⟨0, _⟩ => rfl | ⟨1, _⟩ => rfl)).trans ?_
  refine (transpose_apply [1, 0] _ transposes_S256x128_S128x256_1_0 (ix2 k cc) (ix2 cc k) (fun b => match b with | ⟨0, _⟩ => rfl | ⟨1, _⟩ => rfl)).trans ?_
  exact extractStridedSlice_apply ![0, 0] _ slices_S384x128_S256x128_0_0 (ix2 cc k) (ix2 (c384 cc) k)
    (fun a => match a with | ⟨0, _⟩ => (Nat.zero_add _).symm | ⟨1, _⟩ => (Nat.zero_add _).symm)
theorem V_v8h (k : Fin 128) (cc : Fin 256) : V m c main_v8 (ix2 (hi256 k) cc) = (Pm m c).Whh (c384 cc) k := by
  rw [e_v8]
  refine (concatenate_pair_apply_right 0 _ _ concatenates_S128x256_S128x256_S256x256_d0 (ix2 (hi256 k) cc) rfl rfl (ix2 k cc)
    (fun b => match b with | ⟨0, _⟩ => fun hne => absurd (Fin.ext rfl) hne | ⟨1, _⟩ => fun _ => rfl) rfl).trans ?_
  refine (transpose_apply [1, 0] _ transposes_S256x128_S128x256_1_0 (ix2 k cc) (ix2 cc k) (fun b => match b with | ⟨0, _⟩ => rfl | ⟨1, _⟩ => rfl)).trans ?_
  exact extractStridedSlice_apply ![0, 0] _ slices_S384x128_S256x128_0_0 (ix2 cc k) (ix2 (c384 cc) k)
    (fun a => match a with | ⟨0, _⟩ => (Nat.zero_add _).symm | ⟨1, _⟩ => (Nat.zero_add _).symm)
theorem V_v11 (cc : Fin 256) : V m c main_v11 (ix1 cc) = (Pm m c).bih (c384 cc) + (Pm m c).bhh (c384 cc) := by
  rw [e_v11]
  exact (addf_apply _ _ _).trans (congrArg₂ (· + ·)
    (extractStridedSlice_apply ![0] _ slices_S384_S256_0 (ix1 cc) (ix1 (c384 cc)) (fun a => match a with | ⟨0, _⟩ => (Nat.zero_add _).symm))
    (extractStridedSlice_apply ![0] _ slices_S384_S256_0 (ix1 cc) (ix1 (c384 cc)) (fun a => match a with | ⟨0, _⟩ => (Nat.zero_add _).symm)))

theorem V_v13 (k j : Fin 128) : V m c main_v13 (ix2 k j) = (Pm m c).Wih (hi j) k := by
  rw [e_v13]
  refine (transpose_apply [1, 0] _ transposes_S128x128_S128x128_1_0 (ix2 k j) (ix2 j k) (fun b => match b with | ⟨0, _⟩ => rfl | ⟨1, _⟩ => rfl)).trans ?_
  exact extractStridedSlice_apply ![256, 0] _ slices_S384x128_S128x128_256_0 (ix2 j k) (ix2 (hi j) k)
    (fun a => match a with | ⟨0, _⟩ => by show j.val + 256 = 256 + j.val; exact Nat.add_comm _ _ | ⟨1, _⟩ => (Nat.zero_add _).symm)
theorem V_v14 (j : Fin 128) : V m c main_v14 (ix1 j) = (Pm m c).bih (hi j) := by
  rw [e_v14]
  exact extractStridedSlice_apply ![256] _ slices_S384_S128_256 (ix1 j) (ix1 (hi j)) (fun a => match a with | ⟨0, _⟩ => by show j.val + 256 = 256 + j.val; exact Nat.add_comm _ _)
theorem V_v16 (k j : Fin 128) : V m c main_v16 (ix2 k j) = (Pm m c).Whh (hi j) k := by
  rw [e_v16]
  refine (transpose_apply [1, 0] _ transposes_S128x128_S128x128_1_0 (ix2 k j) (ix2 j k) (fun b => match b with | ⟨0, _⟩ => rfl | ⟨1, _⟩ => rfl)).trans ?_
  exact extractStridedSlice_apply ![256, 0] _ slices_S384x128_S128x128_256_0 (ix2 j k) (ix2 (hi j) k)
    (fun a => match a with | ⟨0, _⟩ => by show j.val + 256 = 256 + j.val; exact Nat.add_comm _ _ | ⟨1, _⟩ => (Nat.zero_add _).symm)
theorem V_v17 (j : Fin 128) : V m c main_v17 (ix1 j) = (Pm m c).bhh (hi j) := by
  rw [e_v17]
  exact extractStridedSlice_apply ![256] _ slices_S384_S128_256 (ix1 j) (ix1 (hi j)) (fun a => match a with | ⟨0, _⟩ => by show j.val + 256 = 256 + j.val; exact Nat.add_comm _ _)

theorem V_v21v (k j : Fin 128) : V m c main_v21 (ix2 k (lo j)) = (Pm m c).Wv1 j k := by
  rw [e_v21]
  refine (concatenate_apply_piece 1 _ _ (ix2 k (lo j)) 0 (by show 0 < 3; omega) S128x128 _ rfl rfl 0 rfl
    (ix2 k j) (fun b => match b with | ⟨0, _⟩ => fun _ => rfl | ⟨1, _⟩ => fun hne => absurd (Fin.ext rfl) hne)
    (by show 0 + j.val = j.val; exact Nat.zero_add _)).trans ?_
  exact transpose_apply [1, 0] _ transposes_S128x128_S128x128_1_0 (ix2 k j) (ix2 j k) (fun b => match b with | ⟨0, _⟩ => rfl | ⟨1, _⟩ => rfl)
theorem V_v21q (k j : Fin 128) : V m c main_v21 (ix2 k (mid j)) = (Pm m c).Wq1 j k := by
  rw [e_v21]
  refine (concatenate_apply_piece 1 _ _ (ix2 k (mid j)) 1 (by show 1 < 3; omega) S128x128 _ rfl rfl 128 rfl
    (ix2 k j) (fun b => match b with | ⟨0, _⟩ => fun _ => rfl | ⟨1, _⟩ => fun hne => absurd (Fin.ext rfl) hne)
    (by show 128 + j.val = j.val + 128; exact Nat.add_comm _ _)).trans ?_
  exact transpose_apply [1, 0] _ transposes_S128x128_S128x128_1_0 (ix2 k j) (ix2 j k) (fun b => match b with | ⟨0, _⟩ => rfl | ⟨1, _⟩ => rfl)
theorem V_v21k (k j : Fin 128) : V m c main_v21 (ix2 k (hi j)) = (Pm m c).Wk1 j k := by
  rw [e_v21]
  refine (concatenate_apply_piece 1 _ _ (ix2 k (hi j)) 2 (by show 2 < 3; omega) S128x128 _ rfl rfl 256 rfl
    (ix2 k j) (fun b => match b with | ⟨0, _⟩ => fun _ => rfl | ⟨1, _⟩ => fun hne => absurd (Fin.ext rfl) hne)
    (by show 256 + j.val = j.val + 256; exact Nat.add_comm _ _)).trans ?_
  exact transpose_apply [1, 0] _ transposes_S128x128_S128x128_1_0 (ix2 k j) (ix2 j k) (fun b => match b with | ⟨0, _⟩ => rfl | ⟨1, _⟩ => rfl)
theorem V_v22v (j : Fin 128) : V m c main_v22 (ix1 (lo j)) = (Pm m c).bv1 j := by
  rw [e_v22]
  exact concatenate_apply_piece 0 _ _ (ix1 (lo j)) 0 (by show 0 < 3; omega) S128 _ rfl rfl 0 rfl
    (ix1 j) (fun b => match b with | ⟨0, _⟩ => fun hne => absurd (Fin.ext rfl) hne)
    (by show 0 + j.val = j.val; exact Nat.zero_add _)
theorem V_v22q (j : Fin 128) : V m c main_v22 (ix1 (mid j)) = (Pm m c).bq1 j := by
  rw [e_v22]
  exact concatenate_apply_piece 0 _ _ (ix1 (mid j)) 1 (by show 1 < 3; omega) S128 _ rfl rfl 128 rfl
    (ix1 j) (fun b => match b with | ⟨0, _⟩ => fun hne => absurd (Fin.ext rfl) hne)
    (by show 128 + j.val = j.val + 128; exact Nat.add_comm _ _)
theorem V_v22k (j : Fin 128) : V m c main_v22 (ix1 (hi j)) = (Pm m c).bk1 j := by
  rw [e_v22]
  exact concatenate_apply_piece 0 _ _ (ix1 (hi j)) 2 (by show 2 < 3; omega) S128 _ rfl rfl 256 rfl
    (ix1 j) (fun b => match b with | ⟨0, _⟩ => fun hne => absurd (Fin.ext rfl) hne)
    (by show 256 + j.val = j.val + 256; exact Nat.add_comm _ _)

theorem V_v26v (k j : Fin 128) : V m c main_v26 (ix2 k (lo j)) = (Pm m c).Wv2 j k := by
  rw [e_v26]
  refine (concatenate_apply_piece 1 _ _ (ix2 k (lo j)) 0 (by show 0 < 3; omega) S128x128 _ rfl rfl 0 rfl
    (ix2 k j) (fun b => match b with | ⟨0, _⟩ => fun _ => rfl | ⟨1, _⟩ => fun hne => absurd (Fin.ext rfl) hne)
    (by show 0 + j.val = j.val; exact Nat.zero_add _)).trans ?_
  exact transpose_apply [1, 0] _ transposes_S128x128_S128x128_1_0 (ix2 k j) (ix2 j k) (fun b => match b with | ⟨0, _⟩ => rfl | ⟨1, _⟩ => rfl)
theorem V_v26q (k j : Fin 128) : V m c main_v26 (ix2 k (mid j)) = (Pm m c).Wq2 j k := by
  rw [e_v26]
  refine (concatenate_apply_piece 1 _ _ (ix2 k (mid j)) 1 (by show 1 < 3; omega) S128x128 _ rfl rfl 128 rfl
    (ix2 k j) (fun b => match b with | ⟨0, _⟩ => fun _ => rfl | ⟨1, _⟩ => fun hne => absurd (Fin.ext rfl) hne)
    (by show 128 + j.val = j.val + 128; exact Nat.add_comm _ _)).trans ?_
  exact transpose_apply [1, 0] _ transposes_S128x128_S128x128_1_0 (ix2 k j) (ix2 j k) (fun b => match b with | ⟨0, _⟩ => rfl | ⟨1, _⟩ => rfl)
theorem V_v26k (k j : Fin 128) : V m c main_v26 (ix2 k (hi j)) = (Pm m c).Wk2 j k := by
  rw [e_v26]
  refine (concatenate_apply_piece 1 _ _ (ix2 k (hi j)) 2 (by show 2 < 3; omega) S128x128 _ rfl rfl 256 rfl
    (ix2 k j) (fun b => match b with | ⟨0, _⟩ => fun _ => rfl | ⟨1, _⟩ => fun hne => absurd (Fin.ext rfl) hne)
    (by show 256 + j.val = j.val + 256; exact Nat.add_comm _ _)).trans ?_
  exact transpose_apply [1, 0] _ transposes_S128x128_S128x128_1_0 (ix2 k j) (ix2 j k) (fun b => match b with | ⟨0, _⟩ => rfl | ⟨1, _⟩ => rfl)
theorem V_v27v (j : Fin 128) : V m c main_v27 (ix1 (lo j)) = (Pm m c).bv2 j := by
  rw [e_v27]
  exact concatenate_apply_piece 0 _ _ (ix1 (lo j)) 0 (by show 0 < 3; omega) S128 _ rfl rfl 0 rfl
    (ix1 j) (fun b => match b with | ⟨0, _⟩ => fun hne => absurd (Fin.ext rfl) hne)
    (by show 0 + j.val = j.val; exact Nat.zero_add _)
theorem V_v27q (j : Fin 128) : V m c main_v27 (ix1 (mid j)) = (Pm m c).bq2 j := by
  rw [e_v27]
  exact concatenate_apply_piece 0 _ _ (ix1 (mid j)) 1 (by show 1 < 3; omega) S128 _ rfl rfl 128 rfl
    (ix1 j) (fun b => match b with | ⟨0, _⟩ => fun hne => absurd (Fin.ext rfl) hne)
    (by show 128 + j.val = j.val + 128; exact Nat.add_comm _ _)
theorem V_v27k (j : Fin 128) : V m c main_v27 (ix1 (hi j)) = (Pm m c).bk2 j := by
  rw [e_v27]
  exact concatenate_apply_piece 0 _ _ (ix1 (hi j)) 2 (by show 2 < 3; omega) S128 _ rfl rfl 256 rfl
    (ix1 j) (fun b => match b with | ⟨0, _⟩ => fun hne => absurd (Fin.ext rfl) hne)
    (by show 256 + j.val = j.val + 256; exact Nat.add_comm _ _)

theorem V_a2 : V m c main_arg2 = m ((c.tc : Thread nD τ).loc main_arg2) := V_kept m c main_arg2 (by decide)
theorem V_a4 (j : Fin 128) : V m c main_arg4 (ix1 j) = (Pm m c).bfc1 j := by
  rw [V_kept m c main_arg4 (by decide)]; rfl
theorem V_a10 (j : Fin 16) : V m c main_arg10 (ix1 j) = (Pm m c).bfc2 j := by
  rw [V_kept m c main_arg10 (by decide)]; rfl

end Cert.KernelIdeal.HValue

end
-- ==== Proof.KFinal.lean ====
import proofs.«403671_j61134564491522_3_alg».proof.Proof.KIFrame
import proofs.«403671_j61134564491522_3_alg».proof.Proof.KTop
import proofs.«403671_j61134564491522_3_alg».proof.Proof.KHostVals

set_option maxRecDepth 16384

noncomputable section

namespace Cert.KernelIdeal.HValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.HFrame RNNSpec

variable (m : (ℓ : Loc nD τ sig) → Buf (Elt Ideal) ℓ) (ρ : Dev nD → PrngReg)

/-- `Gq` and `Gh` of the 23 arguments as launched on device `c`. -/
abbrev GqAt (c : Dev nD) := Gq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))
abbrev GhAt (c : Dev nD) := Gh (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))

theorem idx_batched : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_17.index t (0 : Fin 3) = t.val ∧ win0_17.index t (1 : Fin 3) = 0 ∧ win0_17.index t (2 : Fin 3) = 0
    ∧ win0_18.index t (0 : Fin 3) = t.val ∧ win0_18.index t (1 : Fin 3) = 0 ∧ win0_18.index t (2 : Fin 3) = 0 :=
  (by decide +kernel : ∀ t : Fin grid0.N, _)

theorem idx_w3 : ∀ t : Fin cfg0.N, ∀ a, win0_3.index t a = 0 := (by decide +kernel : ∀ t : Fin grid0.N, _)
theorem idx_w4 : ∀ t : Fin cfg0.N, ∀ a, win0_4.index t a = 0 := (by decide +kernel : ∀ t : Fin grid0.N, _)
theorem idx_w5 : ∀ t : Fin cfg0.N, ∀ a, win0_5.index t a = 0 := (by decide +kernel : ∀ t : Fin grid0.N, _)
theorem idx_w6 : ∀ t : Fin cfg0.N, ∀ a, win0_6.index t a = 0 := (by decide +kernel : ∀ t : Fin grid0.N, _)
theorem idx_w7 : ∀ t : Fin cfg0.N, ∀ a, win0_7.index t a = 0 := (by decide +kernel : ∀ t : Fin grid0.N, _)
theorem idx_w8 : ∀ t : Fin cfg0.N, ∀ a, win0_8.index t a = 0 := (by decide +kernel : ∀ t : Fin grid0.N, _)
theorem idx_w9 : ∀ t : Fin cfg0.N, ∀ a, win0_9.index t a = 0 := (by decide +kernel : ∀ t : Fin grid0.N, _)
theorem idx_w10 : ∀ t : Fin cfg0.N, ∀ a, win0_10.index t a = 0 := (by decide +kernel : ∀ t : Fin grid0.N, _)
theorem idx_w11 : ∀ t : Fin cfg0.N, ∀ a, win0_11.index t a = 0 := (by decide +kernel : ∀ t : Fin grid0.N, _)
theorem idx_w12 : ∀ t : Fin cfg0.N, ∀ a, win0_12.index t a = 0 := (by decide +kernel : ∀ t : Fin grid0.N, _)
theorem idx_w13 : ∀ t : Fin cfg0.N, ∀ a, win0_13.index t a = 0 := (by decide +kernel : ∀ t : Fin grid0.N, _)
theorem idx_w14 : ∀ t : Fin cfg0.N, ∀ a, win0_14.index t a = 0 := (by decide +kernel : ∀ t : Fin grid0.N, _)
theorem idx_w15 : ∀ t : Fin cfg0.N, ∀ a, win0_15.index t a = 0 := (by decide +kernel : ∀ t : Fin grid0.N, _)
theorem idx_w16 : ∀ t : Fin cfg0.N, ∀ a, win0_16.index t a = 0 := (by decide +kernel : ∀ t : Fin grid0.N, _)

def gb (t : Fin cfg0.N) (b : Fin 64) : Fin 4096 := ⟨t.val * 64 + b.val, by have := t.isLt; have : cfg0.N = 64 := N_0; omega⟩

section blocks
variable (c : Dev nD) (t : Fin cfg0.N)

theorem blk0_apply (b : Fin 64) (a : Fin 32) (k : Fin 96) : iblk m c 0 t (ix3 b a k) = V m c main_v0 (ix3 (gb t b) a k) := by
  obtain ⟨e0, e1, e2, -⟩ := idx_batched t
  unfold iblk
  rw [View.read_apply]
  show V m c main_v0 (((cfg0.win 0).blk t).view.emb (ix3 b a k)) = _
  refine congrArg (V m c main_v0) ?_
  funext d; apply Fin.ext
  match d with
  | ⟨0, _⟩ => show win0_0.index t (0 : Fin 3) * 64 + 1 * b.val = t.val * 64 + b.val; rw [e0]; omega
  | ⟨1, _⟩ => show win0_0.index t (1 : Fin 3) * 32 + 1 * a.val = a.val; rw [e1]; omega
  | ⟨2, _⟩ => show win0_0.index t (2 : Fin 3) * 96 + 1 * k.val = k.val; rw [e2]; omega

theorem blk1_apply (b : Fin 64) (a : Fin 32) (k : Fin 128) : iblk m c 1 t (ix3 b a k) = V m c main_v1 (ix3 (gb t b) a k) := by
  obtain ⟨-, -, -, e0, e1, e2, -⟩ := idx_batched t
  unfold iblk
  rw [View.read_apply]
  show V m c main_v1 (((cfg0.win 1).blk t).view.emb (ix3 b a k)) = _
  refine congrArg (V m c main_v1) ?_
  funext d; apply Fin.ext
  match d with
  | ⟨0, _⟩ => show win0_1.index t (0 : Fin 3) * 64 + 1 * b.val = t.val * 64 + b.val; rw [e0]; omega
  | ⟨1, _⟩ => show win0_1.index t (1 : Fin 3) * 32 + 1 * a.val = a.val; rw [e1]; omega
  | ⟨2, _⟩ => show win0_1.index t (2 : Fin 3) * 128 + 1 * k.val = k.val; rw [e2]; omega

theorem blk2_apply (b : Fin 64) (i j : Fin 32) : iblk m c 2 t (ix3 b i j) = V m c main_arg2 (ix3 (gb t b) i j) := by
  obtain ⟨-, -, -, -, -, -, e0, e1, e2, -⟩ := idx_batched t
  unfold iblk
  rw [View.read_apply]
  show V m c main_arg2 (((cfg0.win 2).blk t).view.emb (ix3 b i j)) = _
  refine congrArg (V m c main_arg2) ?_
  funext d; apply Fin.ext
  match d with
  | ⟨0, _⟩ => show win0_2.index t (0 : Fin 3) * 64 + 1 * b.val = t.val * 64 + b.val; rw [e0]; omega
  | ⟨1, _⟩ => show win0_2.index t (1 : Fin 3) * 32 + 1 * i.val = i.val; rw [e1]; omega
  | ⟨2, _⟩ => show win0_2.index t (2 : Fin 3) * 32 + 1 * j.val = j.val; rw [e2]; omega

theorem blk3_apply (k : Fin 96) (j : Fin 128) : iblk m c 3 t (ix2 k j) = V m c main_v2 (ix2 k j) := by
  unfold iblk; rw [View.read_apply]
  exact congrArg (V m c main_v2) (funext fun a => Fin.ext (Window.rect_emb_val_of_index_zero (cfg0.win 3) t a (idx_w3 t a) (ix2 k j)))

theorem blk4_apply (j : Fin 128) : iblk m c 4 t (ix1 j) = V m c main_arg4 (ix1 j) := by
  unfold iblk; rw [View.read_apply]
  exact congrArg (V m c main_arg4) (funext fun a => Fin.ext (Window.rect_emb_val_of_index_zero (cfg0.win 4) t a (idx_w4 t a) (ix1 j)))

theorem blk5_apply (r cc : Fin 256) : iblk m c 5 t (ix2 r cc) = V m c main_v8 (ix2 r cc) := by
  unfold iblk; rw [View.read_apply]
  exact congrArg (V m c main_v8) (funext fun a => Fin.ext (Window.rect_emb_val_of_index_zero (cfg0.win 5) t a (idx_w5 t a) (ix2 r cc)))

theorem blk6_apply (cc : Fin 256) : iblk m c 6 t (ix1 cc) = V m c main_v11 (ix1 cc) := by
  unfold iblk; rw [View.read_apply]
  exact congrArg (V m c main_v11) (funext fun a => Fin.ext (Window.rect_emb_val_of_index_zero (cfg0.win 6) t a (idx_w6 t a) (ix1 cc)))

theorem blk7_apply (k j : Fin 128) : iblk m c 7 t (ix2 k j) = V m c main_v13 (ix2 k j) := by
  unfold iblk; rw [View.read_apply]
  exact congrArg (V m c main_v13) (funext fun a => Fin.ext (Window.rect_emb_val_of_index_zero (cfg0.win 7) t a (idx_w7 t a) (ix2 k j)))

theorem blk8_apply (j : Fin 128) : iblk m c 8 t (ix1 j) = V m c main_v14 (ix1 j) := by
  unfold iblk; rw [View.read_apply]
  exact congrArg (V m c main_v14) (funext fun a => Fin.ext (Window.rect_emb_val_of_index_zero (cfg0.win 8) t a (idx_w8 t a) (ix1 j)))

theorem blk9_apply (k j : Fin 128) : iblk m c 9 t (ix2 k j) = V m c main_v16 (ix2 k j) := by
  unfold iblk; rw [View.read_apply]
  exact congrArg (V m c main_v16) (funext fun a => Fin.ext (Window.rect_emb_val_of_index_zero (cfg0.win 9) t a (idx_w9 t a) (ix2 k j)))

theorem blk10_apply (j : Fin 128) : iblk m c 10 t (ix1 j) = V m c main_v17 (ix1 j) := by
  unfold iblk; rw [View.read_apply]
  exact congrArg (V m c main_v17) (funext fun a => Fin.ext (Window.rect_emb_val_of_index_zero (cfg0.win 10) t a (idx_w10 t a) (ix1 j)))

theorem blk11_apply (k : Fin 128) (cc : Fin 384) : iblk m c 11 t (ix2 k cc) = V m c main_v21 (ix2 k cc) := by
  unfold iblk; rw [View.read_apply]
  exact congrArg (V m c main_v21) (funext fun a => Fin.ext (Window.rect_emb_val_of_index_zero (cfg0.win 11) t a (idx_w11 t a) (ix2 k cc)))

theorem blk12_apply (cc : Fin 384) : iblk m c 12 t (ix1 cc) = V m c main_v22 (ix1 cc) := by
  unfold iblk; rw [View.read_apply]
  exact congrArg (V m c main_v22) (funext fun a => Fin.ext (Window.rect_emb_val_of_index_zero (cfg0.win 12) t a (idx_w12 t a) (ix1 cc)))

theorem blk13_apply (k : Fin 128) (cc : Fin 384) : iblk m c 13 t (ix2 k cc) = V m c main_v26 (ix2 k cc) := by
  unfold iblk; rw [View.read_apply]
  exact congrArg (V m c main_v26) (funext fun a => Fin.ext (Window.rect_emb_val_of_index_zero (cfg0.win 13) t a (idx_w13 t a) (ix2 k cc)))

theorem blk14_apply (cc : Fin 384) : iblk m c 14 t (ix1 cc) = V m c main_v27 (ix1 cc) := by
  unfold iblk; rw [View.read_apply]
  exact congrArg (V m c main_v27) (funext fun a => Fin.ext (Window.rect_emb_val_of_index_zero (cfg0.win 14) t a (idx_w14 t a) (ix1 cc)))

theorem blk15_apply (k : Fin 128) (j : Fin 16) : iblk m c 15 t (ix2 k j) = V m c main_v3 (ix2 k j) := by
  unfold iblk; rw [View.read_apply]
  exact congrArg (V m c main_v3) (funext fun a => Fin.ext (Window.rect_emb_val_of_index_zero (cfg0.win 15) t a (idx_w15 t a) (ix2 k j)))

theorem blk16_apply (j : Fin 16) : iblk m c 16 t (ix1 j) = V m c main_arg10 (ix1 j) := by
  unfold iblk; rw [View.read_apply]
  exact congrArg (V m c main_arg10) (funext fun a => Fin.ext (Window.rect_emb_val_of_index_zero (cfg0.win 16) t a (idx_w16 t a) (ix1 j)))

end blocks

section arrays
variable (c : Dev nD)

def G17 : Vec Ideal S4096x32x16 .f32 := fun i =>
  Q (Pm m c) (Xof (m ((c.tc : Thread nD τ).loc main_arg0)) (i 0)) (Hof (m ((c.tc : Thread nD τ).loc main_arg1)) (i 0))
    (Mof (m ((c.tc : Thread nD τ).loc main_arg2)) (i 0)) (i 1) (i 2)

def G18 : Vec Ideal S4096x32x128 .f32 := fun i =>
  H2 (Pm m c) (Xof (m ((c.tc : Thread nD τ).loc main_arg0)) (i 0)) (Hof (m ((c.tc : Thread nD τ).loc main_arg1)) (i 0))
    (Mof (m ((c.tc : Thread nD τ).loc main_arg2)) (i 0)) (i 1) (i 2)

theorem G17_apply (b : Fin 4096) (a : Fin 32) (j : Fin 16) : G17 m c (ix3 b a j)
    = Q (Pm m c) (Xof (m ((c.tc : Thread nD τ).loc main_arg0)) b) (Hof (m ((c.tc : Thread nD τ).loc main_arg1)) b)
        (Mof (m ((c.tc : Thread nD τ).loc main_arg2)) b) a j := rfl
theorem G18_apply (b : Fin 4096) (a : Fin 32) (j : Fin 128) : G18 m c (ix3 b a j)
    = H2 (Pm m c) (Xof (m ((c.tc : Thread nD τ).loc main_arg0)) b) (Hof (m ((c.tc : Thread nD τ).loc main_arg1)) b)
        (Mof (m ((c.tc : Thread nD τ).loc main_arg2)) b) a j := rfl

variable (t : Fin cfg0.N)

/-- Point `t`'s blocks are batch elements `t·64 + b` of the arguments, and the weights, each where its array has it. -/
theorem reads_at : Reads (Pm m c) (fun b => Xof (m ((c.tc : Thread nD τ).loc main_arg0)) (gb t b)) (fun b => Hof (m ((c.tc : Thread nD τ).loc main_arg1)) (gb t b)) (fun b => Mof (m ((c.tc : Thread nD τ).loc main_arg2)) (gb t b))
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) :=
  ⟨fun b a k => (blk0_apply m c t b a k).trans (V_v0 m c (gb t b) a k),
    fun b a k => (blk1_apply m c t b a k).trans (V_v1 m c (gb t b) a k),
    fun b i j => (blk2_apply m c t b i j).trans (congrFun (V_a2 m c) (ix3 (gb t b) i j)),
    fun k j => (blk3_apply m c t k j).trans (V_v2 m c k j),
    fun j => (blk4_apply m c t j).trans (V_a4 m c j),
    fun k cc => (blk5_apply m c t (lo256 k) cc).trans (V_v8x m c k cc),
    fun k cc => (blk5_apply m c t (hi256 k) cc).trans (V_v8h m c k cc),
    fun cc => (blk6_apply m c t cc).trans (V_v11 m c cc),
    fun k j => (blk7_apply m c t k j).trans (V_v13 m c k j),
    fun j => (blk8_apply m c t j).trans (V_v14 m c j),
    fun k j => (blk9_apply m c t k j).trans (V_v16 m c k j),
    fun j => (blk10_apply m c t j).trans (V_v17 m c j),
    fun k j => (blk11_apply m c t k (lo j)).trans (V_v21v m c k j),
    fun k j => (blk11_apply m c t k (mid j)).trans (V_v21q m c k j),
    fun k j => (blk11_apply m c t k (hi j)).trans (V_v21k m c k j),
    fun j => (blk12_apply m c t (lo j)).trans (V_v22v m c j),
    fun j => (blk12_apply m c t (mid j)).trans (V_v22q m c j),
    fun j => (blk12_apply m c t (hi j)).trans (V_v22k m c j),
    fun k j => (blk13_apply m c t k (lo j)).trans (V_v26v m c k j),
    fun k j => (blk13_apply m c t k (mid j)).trans (V_v26q m c k j),
    fun k j => (blk13_apply m c t k (hi j)).trans (V_v26k m c k j),
    fun j => (blk14_apply m c t (lo j)).trans (V_v27v m c j),
    fun j => (blk14_apply m c t (mid j)).trans (V_v27q m c j),
    fun j => (blk14_apply m c t (hi j)).trans (V_v27k m c j),
    fun k j => (blk15_apply m c t k j).trans (V_v3 m c k j),
    fun j => (blk16_apply m c t j).trans (V_a10 m c j)⟩

theorem out17_at (b : Fin 64) (a : Fin 32) (j : Fin 16) :
    o17 m c t (ix3 b a j) = G17 m c (ix3 (gb t b) a j) :=
  out17_apply (reads_at m c t) b a j

theorem out18_at (b : Fin 64) (a : Fin 32) (j : Fin 128) :
    o18 m c t (ix3 b a j) = G18 m c (ix3 (gb t b) a j) :=
  out18_apply (reads_at m c t) b a j

end arrays

section writeback
variable (c : Dev nD) (t : Fin cfg0.N)

theorem emb17 (b : Fin 64) (a : Fin 32) (j : Fin 16) : ((cfg0.win 17).blk t).view.emb (ix3 b a j) = ix3 (gb t b) a j := by
  obtain ⟨-, -, -, -, -, -, -, -, -, e0, e1, e2, -⟩ := idx_batched t
  funext d; apply Fin.ext
  match d with
  | ⟨0, _⟩ => show win0_17.index t (0 : Fin 3) * 64 + 1 * b.val = t.val * 64 + b.val; rw [e0]; omega
  | ⟨1, _⟩ => show win0_17.index t (1 : Fin 3) * 32 + 1 * a.val = a.val; rw [e1]; omega
  | ⟨2, _⟩ => show win0_17.index t (2 : Fin 3) * 16 + 1 * j.val = j.val; rw [e2]; omega
theorem emb18 (b : Fin 64) (a : Fin 32) (j : Fin 128) : ((cfg0.win 18).blk t).view.emb (ix3 b a j) = ix3 (gb t b) a j := by
  obtain ⟨-, -, -, -, -, -, -, -, -, -, -, -, e0, e1, e2⟩ := idx_batched t
  funext d; apply Fin.ext
  match d with
  | ⟨0, _⟩ => show win0_18.index t (0 : Fin 3) * 64 + 1 * b.val = t.val * 64 + b.val; rw [e0]; omega
  | ⟨1, _⟩ => show win0_18.index t (1 : Fin 3) * 32 + 1 * a.val = a.val; rw [e1]; omega
  | ⟨2, _⟩ => show win0_18.index t (2 : Fin 3) * 128 + 1 * j.val = j.val; rw [e2]; omega

theorem flushed17_eq : (dats m 0 c).flushed 17 t = ((cfg0.win 17).blk t).view.read (Elt Ideal) (G17 m c) := by
  show (cfg0.win 17).cut (grid0.coords t) ((dats m 0 c).after 17 t) = _
  rw [after0_17]
  funext y
  obtain ⟨b, a, j, rfl⟩ : ∃ (b : Fin 64) (a : Fin 32) (j : Fin 16), y = ix3 b a j := ⟨y 0, y 1, y 2, eq_ix3 y⟩
  rw [View.read_apply]
  show o17 m c t (ix3 b a j)
    = G17 m c (((cfg0.win 17).blk t).view.emb (ix3 b a j))
  rw [emb17 t b a j]
  exact out17_at m c t b a j

theorem flushed18_eq : (dats m 0 c).flushed 18 t = ((cfg0.win 18).blk t).view.read (Elt Ideal) (G18 m c) := by
  show (cfg0.win 18).cut (grid0.coords t) ((dats m 0 c).after 18 t) = _
  rw [after0_18]
  funext y
  obtain ⟨b, a, j, rfl⟩ : ∃ (b : Fin 64) (a : Fin 32) (j : Fin 128), y = ix3 b a j := ⟨y 0, y 1, y 2, eq_ix3 y⟩
  rw [View.read_apply]
  show o18 m c t (ix3 b a j)
    = G18 m c (((cfg0.win 18).blk t).view.emb (ix3 b a j))
  rw [emb18 t b a j]
  exact out18_at m c t b a j

end writeback

theorem mem_blk17 (t : Fin cfg0.N) (i : S4096x32x16.Idx) :
    i ∈ ((cfg0.win 17).blk t).view.set ↔ ∀ a : Fin 3, win0_17.index t a * S64x32x16.size a ≤ (i a).val ∧ (i a).val < win0_17.index t a * S64x32x16.size a + S64x32x16.size a := by
  show i ∈ ((View.whole main_v28_0).slice (win0_17.rect t)).set ↔ _
  rw [View.set_slice_whole, Rect.mem_set_unit]
  exact Iff.rfl
theorem mem_blk18 (t : Fin cfg0.N) (i : S4096x32x128.Idx) :
    i ∈ ((cfg0.win 18).blk t).view.set ↔ ∀ a : Fin 3, win0_18.index t a * S64x32x128.size a ≤ (i a).val ∧ (i a).val < win0_18.index t a * S64x32x128.size a + S64x32x128.size a := by
  show i ∈ ((View.whole main_v28_1).slice (win0_18.rect t)).set ↔ _
  rw [View.set_slice_whole, Rect.mem_set_unit]
  exact Iff.rfl

theorem cover17 (i : S4096x32x16.Idx) : ∃ t : Fin cfg0.N, (cfg0.win 17).flush t = true ∧ i ∈ ((cfg0.win 17).blk t).view.set := by
  have h0 : (i 0).val < 4096 := (i 0).isLt
  have h1 : (i 1).val < 32 := (i 1).isLt
  have h2 : (i 2).val < 16 := (i 2).isLt
  have hN : cfg0.N = 64 := N_0
  obtain ⟨t, ht⟩ : ∃ t : Fin cfg0.N, t.val = (i 0).val / 64 := ⟨⟨(i 0).val / 64, by omega⟩, rfl⟩
  obtain ⟨-, -, -, -, -, -, -, -, -, e0, e1, e2, -⟩ := idx_batched t
  refine ⟨t, flush0_17 t, ?_⟩
  rw [mem_blk17]
  intro a
  match a with
  | ⟨0, _⟩ => show win0_17.index t (0 : Fin 3) * 64 ≤ (i 0).val ∧ (i 0).val < win0_17.index t (0 : Fin 3) * 64 + 64; rw [e0, ht]; omega
  | ⟨1, _⟩ => show win0_17.index t (1 : Fin 3) * 32 ≤ (i 1).val ∧ (i 1).val < win0_17.index t (1 : Fin 3) * 32 + 32; rw [e1]; omega
  | ⟨2, _⟩ => show win0_17.index t (2 : Fin 3) * 16 ≤ (i 2).val ∧ (i 2).val < win0_17.index t (2 : Fin 3) * 16 + 16; rw [e2]; omega
theorem cover18 (i : S4096x32x128.Idx) : ∃ t : Fin cfg0.N, (cfg0.win 18).flush t = true ∧ i ∈ ((cfg0.win 18).blk t).view.set := by
  have h0 : (i 0).val < 4096 := (i 0).isLt
  have h1 : (i 1).val < 32 := (i 1).isLt
  have h2 : (i 2).val < 128 := (i 2).isLt
  have hN : cfg0.N = 64 := N_0
  obtain ⟨t, ht⟩ : ∃ t : Fin cfg0.N, t.val = (i 0).val / 64 := ⟨⟨(i 0).val / 64, by omega⟩, rfl⟩
  obtain ⟨-, -, -, -, -, -, -, -, -, -, -, -, e0, e1, e2⟩ := idx_batched t
  refine ⟨t, flush0_18 t, ?_⟩
  rw [mem_blk18]
  intro a
  match a with
  | ⟨0, _⟩ => show win0_18.index t (0 : Fin 3) * 64 ≤ (i 0).val ∧ (i 0).val < win0_18.index t (0 : Fin 3) * 64 + 64; rw [e0, ht]; omega
  | ⟨1, _⟩ => show win0_18.index t (1 : Fin 3) * 32 ≤ (i 1).val ∧ (i 1).val < win0_18.index t (1 : Fin 3) * 32 + 32; rw [e1]; omega
  | ⟨2, _⟩ => show win0_18.index t (2 : Fin 3) * 128 ≤ (i 2).val ∧ (i 2).val < win0_18.index t (2 : Fin 3) * 128 + 128; rw [e2]; omega

theorem final17 (c : Dev nD) : (dats m 0 c).arrAt 17 cfg0.N = G17 m c :=
  (dats m 0 c).arrAt_eq_of_cover 17 (G17 m c) (fun t _ => flushed17_eq m c t) cover17
theorem final18 (c : Dev nD) : (dats m 0 c).arrAt 18 cfg0.N = G18 m c :=
  (dats m 0 c).arrAt_eq_of_cover 18 (G18 m c) (fun t _ => flushed18_eq m c t) cover18

theorem relay16 (x : Vec Ideal S4096x32x16 .f32) (r : Fin 131072) (j : Fin 16) :
    shapeCast S131072x16 x shapeCasts_S4096x32x16_S131072x16 (ix2 r j) = x (ix3 (batchOf r) (agentOf r) j) := by
  refine shapeCast_apply x _ (ix2 r j) (ix3 (batchOf r) (agentOf r) j) ?_
  rw [Shape.rowMajor_val_three, Shape.rowMajor_val_two]
  show (r.val / 32 * 32 + r.val % 32) * 16 + j.val = r.val * 16 + j.val
  omega
theorem relay128 (x : Vec Ideal S4096x32x128 .f32) (r : Fin 131072) (j : Fin 128) :
    shapeCast S131072x128 x shapeCasts_S4096x32x128_S131072x128 (ix2 r j) = x (ix3 (batchOf r) (agentOf r) j) := by
  refine shapeCast_apply x _ (ix2 r j) (ix3 (batchOf r) (agentOf r) j) ?_
  rw [Shape.rowMajor_val_three, Shape.rowMajor_val_two]
  show (r.val / 32 * 32 + r.val % 32) * 128 + j.val = r.val * 128 + j.val
  omega

theorem tail29 (c : Dev nD) : Pipeline.afterTail₀ cfgs (dats m) 0 (V0 m) [hostOps1] c main_v29
    = GqAt m c := by
  have e : Pipeline.withArrays (cfgs 0).spec c (V0 m c) (fun w => (dats m 0 c).arrAt w (cfgs 0).N) (Proc.devRef .tc main_v28_0) = G17 m c :=
    (Pipeline.withArrays_arr spec0 launch0.win.arr_inj c _ _ 17).trans (final17 m c)
  unfold Pipeline.afterTail₀
  show StableHlo.after hostOps1 _ (Proc.devRef .tc main_v29) = _
  after_results
  funext i
  obtain ⟨r, j, rfl⟩ : ∃ (r : Fin 131072) (j : Fin 16), i = ix2 r j := ⟨i 0, i 1, eq_ix2 i⟩
  refine (congrArg (fun x : Vec Ideal S4096x32x16 .f32 => shapeCast S131072x16 x shapeCasts_S4096x32x16_S131072x16 (ix2 r j)) e).trans ?_
  exact relay16 (G17 m c) r j

theorem tail30 (c : Dev nD) : Pipeline.afterTail₀ cfgs (dats m) 0 (V0 m) [hostOps1] c main_v30
    = GhAt m c := by
  have e : Pipeline.withArrays (cfgs 0).spec c (V0 m c) (fun w => (dats m 0 c).arrAt w (cfgs 0).N) (Proc.devRef .tc main_v28_1) = G18 m c :=
    (Pipeline.withArrays_arr spec0 launch0.win.arr_inj c _ _ 18).trans (final18 m c)
  unfold Pipeline.afterTail₀
  show StableHlo.after hostOps1 _ (Proc.devRef .tc main_v30) = _
  after_results
  funext i
  obtain ⟨r, j, rfl⟩ : ∃ (r : Fin 131072) (j : Fin 128), i = ix2 r j := ⟨i 0, i 1, eq_ix2 i⟩
  refine (congrArg (fun x : Vec Ideal S4096x32x128 .f32 => shapeCast S131072x128 x shapeCasts_S4096x32x128_S131072x128 (ix2 r j)) e).trans ?_
  exact relay128 (G18 m c) r j

/-- The run ends with the two results at `Gq`, `Gh` of the arguments, which are as launched. -/
theorem kernel_run : θ_run (defs (F := Ideal)) (onTc (τ := τ) (main (F := Ideal))) ⟨m, fun _ => 0, ρ⟩ (fun r => ∀ c : Dev nD,
      r.2.mem ((c.tc : Thread nD τ).loc main_v29) = GqAt m c
      ∧ r.2.mem ((c.tc : Thread nD τ).loc main_v30) = GhAt m c
      ∧ ∀ b ∈ mainArgs, r.2.mem ((c.tc : Thread nD τ).loc b) = m ((c.tc : Thread nD τ).loc b)) :=
  (θ_run defs _ _).mono (fun r hr c =>
    ⟨((hr c).2 main_v29 (Pipeline.mem_restRefs_of main_v29 (by decide) (by decide))).trans (tail29 m c),
      ((hr c).2 main_v30 (Pipeline.mem_restRefs_of main_v30 (by decide) (by decide))).trans (tail30 m c),
      args_kept m (dats m) (A_eq m) hr c⟩)
    (run_main m ρ)

end Cert.KernelIdeal.HValue

end
-- ==== Proof.LibHostStages.lean ====
import Idealize.ShloMosaic.Lib.StableHlo.Run
import proofs.«403671_j61134564491522_3_alg».proof.Proof.LibHostPeel

noncomputable section

namespace Idealize.ShloMosaic.HostPeel

open Idealize.ShloMosaic Idealize.SL.Sem

variable {τ : Topo} {sig : RefSig} {Val : EltTy → Type}

/-- Each operation has one buffer of its own to write: operation `k` writes `W[k]` and nothing else. -/
def Assigns (ops : List (HloOp τ sig Val)) (W : List (Ref sig .tc)) : Prop :=
  List.Forall₂ (fun o y => o.writes = {Proc.devRef (τ := τ) .tc y}) ops W

/-- After any `n ≥ k` of the first operations, buffer `y` holds `v`. -/
def Settled (ops : List (HloOp τ sig Val)) (V : Valuation τ sig Val) (k : Nat) (y : Ref sig .tc)
    (v : y.ty.Contents Val) : Prop :=
  ∀ n, k ≤ n → StableHlo.after (ops.take n) V (Proc.devRef .tc y) = v

variable {ops : List (HloOp τ sig Val)} {W : List (Ref sig .tc)} {V : Valuation τ sig Val}

namespace Assigns

theorem exists_of_mem (h : Assigns ops W) : ∀ o ∈ ops, ∃ y ∈ W, o.writes = {Proc.devRef (τ := τ) .tc y} := by
  induction h with
  | nil => intro o ho; cases ho
  | @cons a y l W' hay _ ih =>
    intro o ho
    rcases List.mem_cons.mp ho with rfl | ho
    · exact ⟨y, List.mem_cons_self, hay⟩
    · obtain ⟨y', hy', e⟩ := ih o ho
      exact ⟨y', List.mem_cons_of_mem _ hy', e⟩

theorem not_mem_writes (h : Assigns ops W) {r : Ref sig .tc} (hr : r ∉ W) :
    ∀ o ∈ ops, Proc.devRef (τ := τ) .tc r ∉ o.writes := by
  intro o ho hb
  obtain ⟨y, hy, e⟩ := h.exists_of_mem o ho
  rw [e, Finset.mem_singleton] at hb
  exact hr (Proc.devRef_injective _ hb ▸ hy)

/-- A buffer outside `W` is written by nobody, so it keeps its launch contents throughout. -/
theorem settled (h : Assigns ops W) {r : Ref sig .tc} (hr : r ∉ W) : Settled ops V 0 r (V (Proc.devRef .tc r)) :=
  fun _ _ => after_kept_of_subset (List.take_subset _ _) V _ (h.not_mem_writes hr)

/-- Results are never overwritten: `W` has no repeats, so an operation's buffer is not one a later operation writes. -/
theorem later_not_written (h : Assigns ops W) (hN : W.Nodup) :
    ∀ (k : Nat) (op : HloOp τ sig Val) (rest : List (HloOp τ sig Val)), ops.drop k = op :: rest →
      ∀ o ∈ rest, ∀ b ∈ op.writes, b ∉ o.writes := by
  induction h with
  | nil => intro k op rest hd; simp at hd
  | @cons a y l W' hay hl ih =>
    intro k op rest hd o ho b hb hbo
    have hN' := List.nodup_cons.mp hN
    cases k with
    | zero =>
      rw [List.drop_zero] at hd
      obtain ⟨rfl, rfl⟩ := List.cons.inj hd
      obtain ⟨y', hy', e⟩ := exists_of_mem hl o ho
      rw [hay, Finset.mem_singleton] at hb
      rw [e, Finset.mem_singleton] at hbo
      exact hN'.1 (Proc.devRef_injective _ (hb.symm.trans hbo) ▸ hy')
    | succ k =>
      rw [List.drop_succ_cons] at hd
      exact ih hN'.2 k op rest hd o ho b hb hbo

end Assigns

/-- The whole line is its own longest initial segment. -/
theorem Settled.at_end {k : Nat} {y : Ref sig .tc} {v : y.ty.Contents Val} (h : Settled ops V k y v)
    (hk : k ≤ ops.length) : StableHlo.after ops V (Proc.devRef .tc y) = v := by
  have e := h ops.length hk
  rwa [List.take_length] at e

/-- Why a result settles: nothing later writes it, so the fold can be cut right after operation `k`. -/
theorem settled_of_peel (hA : Assigns ops W) (hN : W.Nodup) (k : Nat) (op : HloOp τ sig Val)
    (hop : ops[k]? = some op) (y : Ref sig .tc) (hy : Proc.devRef (τ := τ) .tc y ∈ op.writes) :
    ∀ n, k + 1 ≤ n → StableHlo.after (ops.take n) V (Proc.devRef .tc y)
      = op.result (StableHlo.after (ops.take k) V) (Proc.devRef .tc y) := by
  intro n hn
  obtain ⟨hk, hget⟩ := List.getElem?_eq_some_iff.mp hop
  have hd : ops.drop k = op :: ops.drop (k + 1) := by rw [← hget]; exact List.drop_eq_getElem_cons hk
  exact after_take_peel ops V k n op _ _ hn hd fun o ho hb => hA.later_not_written hN k op _ hd o ho _ hy hb

section kinds
open StableHlo

variable (hA : Assigns ops W) (hN : W.Nodup) (k : Nat) {j : Nat}
include hA hN

theorem settled_nullary {y : Ref sig .tc} {v : y.ty.Contents Val} {hy}
    (hop : ops[k]? = some (nullary (τ := τ) y v hy)) : Settled ops V (k + 1) y v := by
  intro n hn
  rw [settled_of_peel hA hN k _ hop y (by rw [nullary_writes]; exact Finset.mem_singleton_self _) n hn, nullary_result]

theorem settled_unary {x y : Ref sig .tc} {f : x.ty.Contents Val → y.ty.Contents Val} {hx hy}
    (hop : ops[k]? = some (unary (τ := τ) x y f hx hy)) {vx : x.ty.Contents Val} (sx : Settled ops V j x vx)
    (hj : j ≤ k) : Settled ops V (k + 1) y (f vx) := by
  intro n hn
  rw [settled_of_peel hA hN k _ hop y (by rw [unary_writes]; exact Finset.mem_singleton_self _) n hn, unary_result,
    sx k hj]

theorem settled_binary {a b y : Ref sig .tc} {f : a.ty.Contents Val → b.ty.Contents Val → y.ty.Contents Val}
    {ha hb hy} (hop : ops[k]? = some (binary (τ := τ) a b y f ha hb hy)) {i : Nat} {va : a.ty.Contents Val}
    {vb : b.ty.Contents Val} (sa : Settled ops V i a va) (sb : Settled ops V j b vb) (hi : i ≤ k) (hj : j ≤ k) :
    Settled ops V (k + 1) y (f va vb) := by
  intro n hn
  rw [settled_of_peel hA hN k _ hop y (by rw [binary_writes]; exact Finset.mem_singleton_self _) n hn, binary_result,
    sa k hi, sb k hj]

theorem settled_reshape {x y : Ref sig .tc} {he hn' hx hy}
    (hop : ops[k]? = some (reshape (τ := τ) (Val := Val) x y he hn' hx hy)) {vx : x.ty.Contents Val}
    (sx : Settled ops V j x vx) (hj : j ≤ k) :
    Settled ops V (k + 1) y (fun i => he ▸ shapeCast y.ty.shape vx hn' i) := by
  intro n hn
  rw [settled_of_peel hA hN k _ hop y (by rw [reshape_writes]; exact Finset.mem_singleton_self _) n hn, reshape_result,
    sx k hj]

end kinds

end Idealize.ShloMosaic.HostPeel

end
-- ==== Proof.RefStep.lean ====
import proofs.«403671_j61134564491522_3_alg».proof.Proof.RefOps
import proofs.«403671_j61134564491522_3_alg».proof.Proof.ReadP
import proofs.«403671_j61134564491522_3_alg».proof.Proof.LibHostStages

noncomputable section

namespace Cert.ReferenceIdeal.RefStages

open Cert.ReferenceIdeal Cert.ReferenceIdeal.Gen Cert.ReferenceIdeal.RefOps Cert.ReferenceIdeal.ReadP
open Idealize.ShloMosaic Idealize.ShloMosaic.TcCoe Idealize.SL.Sem Idealize.ShloMosaic.StableHlo Idealize.ShloMosaic.HostPeel

variable {F : FTy → Type} [FloatOps F]

/-- Which buffer each operation writes. -/
noncomputable def written : List (Ref sig .tc) :=
  [main_v0, main_v1, main_v2, main_v3, main_v4, main_call0_cst, main_call0_v0, main_v5, main_v6, main_v7, main_v8, main_v9, main_v10, main_v11, main_v12, main_v13, main_v14, main_v15, main_v16, main_v17, main_v18, main_v19, main_v20, main_v21, main_v22, main_v23, main_v24, main_cst, main_v25, main_v26, main_cst_0, main_v27, main_v28, main_v29, main_v30, main_v31, main_cst_1, main_v32, main_v33, main_cst_2, main_v34, main_v35, main_v36, main_v37, main_v38, main_cst_3, main_v39, main_v40, main_v41, main_v42, main_v43, main_v44, main_v45, main_v46, main_v47, main_v48, main_call1_cst, main_call1_v0, main_v49, main_v50, main_v51, main_v52, main_v53, main_call2_cst, main_call2_v0, main_v54, main_v55, main_v56, main_v57, main_v58, main_call3_cst, main_call3_v0, main_v59, main_v60, main_v61, main_cst_4, main_v62, main_v63, main_cst_5, main_v64, main_v65, main_v66, main_cst_6, main_v67, main_cst_7, main_v68, main_v69, main_v70, main_v71, main_v72, main_v73, main_cst_8, main_v74, main_v75, main_v76, main_v77, main_v78, main_v79, main_v80, main_v81, main_v82, main_call4_cst, main_call4_v0, main_v83, main_v84, main_v85, main_v86, main_v87, main_call5_cst, main_call5_v0, main_v88, main_v89, main_v90, main_v91, main_v92, main_call6_cst, main_call6_v0, main_v93, main_v94, main_v95, main_cst_9, main_v96, main_v97, main_cst_10, main_v98, main_v99, main_v100, main_cst_11, main_v101, main_cst_12, main_v102, main_v103, main_v104, main_v105, main_v106, main_v107, main_cst_13, main_v108, main_v109, main_v110, main_v111, main_v112, main_v113, main_v114, main_v115, main_v116, main_v117, main_v118]

theorem written_nodup : written.Nodup := by decide

theorem assigns : Assigns (ops (F := F)) written := by
  unfold Assigns
  repeat' (first | exact List.Forall₂.nil | refine List.Forall₂.cons rfl ?_)

variable (m : (ℓ : Loc nD τ sig) → Buf (Elt F) ℓ) (c : Dev nD)

/-- From the first `k` operations on, buffer `y` of device `c` holds `v`. -/
abbrev St (k : Nat) (y : Ref sig .tc) (v : y.ty.Contents (Elt F)) : Prop :=
  Settled (ops (F := F)) (launchContents m c) k y v

/-- Arguments are never written. -/
theorem arg (b : Ref sig .tc) (hb : b ∉ written := by decide) : St m c 0 b (m ((c.tc : Thread nD τ).loc b)) :=
  (assigns (F := F)).settled hb

/-! The step lemmas at this program. The value is asked for as `v` with `f … = v` owed by unfolding `v`'s stage. -/

theorem nu (k : Nat) {y : Ref sig .tc} {v : y.ty.Contents (Elt F)} {hy}
    (hop : (ops (F := F))[k]? = some (nullary (τ := τ) y v hy)) : St m c (k + 1) y v :=
  settled_nullary assigns written_nodup k hop

theorem un (k : Nat) {x y : Ref sig .tc} {f : x.ty.Contents (Elt F) → y.ty.Contents (Elt F)} {hx hy}
    (hop : (ops (F := F))[k]? = some (unary (τ := τ) x y f hx hy)) {j : Nat} {vx : x.ty.Contents (Elt F)}
    (sx : St m c j x vx) {v : y.ty.Contents (Elt F)} (hv : f vx = v := by rfl) (hj : j ≤ k := by decide) :
    St m c (k + 1) y v := by
  subst hv; exact settled_unary assigns written_nodup k hop sx hj

theorem bi (k : Nat) {a b y : Ref sig .tc} {f : a.ty.Contents (Elt F) → b.ty.Contents (Elt F) → y.ty.Contents (Elt F)}
    {ha hb hy} (hop : (ops (F := F))[k]? = some (binary (τ := τ) a b y f ha hb hy)) {i j : Nat}
    {va : a.ty.Contents (Elt F)} {vb : b.ty.Contents (Elt F)} (sa : St m c i a va) (sb : St m c j b vb)
    {v : y.ty.Contents (Elt F)} (hv : f va vb = v := by rfl) (hi : i ≤ k := by decide) (hj : j ≤ k := by decide) :
    St m c (k + 1) y v := by
  subst hv; exact settled_binary assigns written_nodup k hop sa sb hi hj

theorem rs (k : Nat) {x y : Ref sig .tc} {he hn' hx hy}
    (hop : (ops (F := F))[k]? = some (reshape (τ := τ) (Val := Elt F) x y he hn' hx hy)) {j : Nat}
    {vx : x.ty.Contents (Elt F)} (sx : St m c j x vx) {v : y.ty.Contents (Elt F)}
    (hv : (fun i => he ▸ shapeCast y.ty.shape vx hn' i) = v := by rfl) (hj : j ≤ k := by decide) :
    St m c (k + 1) y v := by
  subst hv; exact settled_reshape assigns written_nodup k hop sx hj

/-! The 23 arguments as launched on device `c`. -/
abbrev a0 := m ((c.tc : Thread nD τ).loc main_arg0)
abbrev a1 := m ((c.tc : Thread nD τ).loc main_arg1)
abbrev a2 := m ((c.tc : Thread nD τ).loc main_arg2)
abbrev a3 := m ((c.tc : Thread nD τ).loc main_arg3)
abbrev a4 := m ((c.tc : Thread nD τ).loc main_arg4)
abbrev a5 := m ((c.tc : Thread nD τ).loc main_arg5)
abbrev a6 := m ((c.tc : Thread nD τ).loc main_arg6)
abbrev a7 := m ((c.tc : Thread nD τ).loc main_arg7)
abbrev a8 := m ((c.tc : Thread nD τ).loc main_arg8)
abbrev a9 := m ((c.tc : Thread nD τ).loc main_arg9)
abbrev a10 := m ((c.tc : Thread nD τ).loc main_arg10)
abbrev a11 := m ((c.tc : Thread nD τ).loc main_arg11)
abbrev a12 := m ((c.tc : Thread nD τ).loc main_arg12)
abbrev a13 := m ((c.tc : Thread nD τ).loc main_arg13)
abbrev a14 := m ((c.tc : Thread nD τ).loc main_arg14)
abbrev a15 := m ((c.tc : Thread nD τ).loc main_arg15)
abbrev a16 := m ((c.tc : Thread nD τ).loc main_arg16)
abbrev a17 := m ((c.tc : Thread nD τ).loc main_arg17)
abbrev a18 := m ((c.tc : Thread nD τ).loc main_arg18)
abbrev a19 := m ((c.tc : Thread nD τ).loc main_arg19)
abbrev a20 := m ((c.tc : Thread nD τ).loc main_arg20)
abbrev a21 := m ((c.tc : Thread nD τ).loc main_arg21)
abbrev a22 := m ((c.tc : Thread nD τ).loc main_arg22)

end Cert.ReferenceIdeal.RefStages

end
-- ==== Proof.RefStages.lean ====
import proofs.«403671_j61134564491522_3_alg».proof.Proof.RefStep

noncomputable section

namespace Cert.ReferenceIdeal.RefStages

open Cert.ReferenceIdeal Cert.ReferenceIdeal.Gen Cert.ReferenceIdeal.RefOps Cert.ReferenceIdeal.ReadP
open Idealize.ShloMosaic Idealize.ShloMosaic.TcCoe Idealize.SL.Sem Idealize.ShloMosaic.StableHlo Idealize.ShloMosaic.HostPeel

variable {F : FTy → Type} [FloatOps F] (m : (ℓ : Loc nD τ sig) → Buf (Elt F) ℓ) (c : Dev nD)

theorem st_main_v0 : St m c 1 main_v0 (val_main_v0 (F := F) (a3 m c)) := un m c 0 rfl (arg m c main_arg3)
theorem st_main_v1 : St m c 2 main_v1 (val_main_v1 (F := F) (a0 m c) (a3 m c)) := bi m c 1 rfl (arg m c main_arg0) (st_main_v0 m c)
theorem st_main_v2 : St m c 3 main_v2 (val_main_v2 (F := F) (a4 m c)) := un m c 2 rfl (arg m c main_arg4)
theorem st_main_v3 : St m c 4 main_v3 (val_main_v3 (F := F) (a4 m c)) := un m c 3 rfl (st_main_v2 m c)
theorem st_main_v4 : St m c 5 main_v4 (val_main_v4 (F := F) (a0 m c) (a3 m c) (a4 m c)) := bi m c 4 rfl (st_main_v1 m c) (st_main_v3 m c)
theorem st_main_call0_cst : St m c 6 main_call0_cst (val_main_call0_cst (F := F)) := nu m c 5 rfl
theorem st_main_call0_v0 : St m c 7 main_call0_v0 (val_main_call0_v0 (F := F)) := un m c 6 rfl (st_main_call0_cst m c)
theorem st_main_v5 : St m c 8 main_v5 (val_main_v5 (F := F) (a0 m c) (a3 m c) (a4 m c)) := bi m c 7 rfl (st_main_v4 m c) (st_main_call0_v0 m c)
theorem st_main_v6 : St m c 9 main_v6 (val_main_v6 (F := F) (a5 m c)) := un m c 8 rfl (arg m c main_arg5)
theorem st_main_v7 : St m c 10 main_v7 (val_main_v7 (F := F) (a0 m c) (a3 m c) (a4 m c) (a5 m c)) := bi m c 9 rfl (st_main_v5 m c) (st_main_v6 m c)
theorem st_main_v8 : St m c 11 main_v8 (val_main_v8 (F := F) (a6 m c)) := un m c 10 rfl (arg m c main_arg6)
theorem st_main_v9 : St m c 12 main_v9 (val_main_v9 (F := F) (a6 m c)) := un m c 11 rfl (st_main_v8 m c)
theorem st_main_v10 : St m c 13 main_v10 (val_main_v10 (F := F) (a0 m c) (a3 m c) (a4 m c) (a5 m c) (a6 m c)) := bi m c 12 rfl (st_main_v7 m c) (st_main_v9 m c)
theorem st_main_v11 : St m c 14 main_v11 (val_main_v11 (F := F) (a7 m c)) := un m c 13 rfl (arg m c main_arg7)
theorem st_main_v12 : St m c 15 main_v12 (val_main_v12 (F := F) (a1 m c) (a7 m c)) := bi m c 14 rfl (arg m c main_arg1) (st_main_v11 m c)
theorem st_main_v13 : St m c 16 main_v13 (val_main_v13 (F := F) (a8 m c)) := un m c 15 rfl (arg m c main_arg8)
theorem st_main_v14 : St m c 17 main_v14 (val_main_v14 (F := F) (a8 m c)) := un m c 16 rfl (st_main_v13 m c)
theorem st_main_v15 : St m c 18 main_v15 (val_main_v15 (F := F) (a1 m c) (a7 m c) (a8 m c)) := bi m c 17 rfl (st_main_v12 m c) (st_main_v14 m c)
theorem st_main_v16 : St m c 19 main_v16 (val_main_v16 (F := F) (a0 m c) (a3 m c) (a4 m c) (a5 m c) (a6 m c)) := un m c 18 rfl (st_main_v10 m c)
theorem st_main_v17 : St m c 20 main_v17 (val_main_v17 (F := F) (a0 m c) (a3 m c) (a4 m c) (a5 m c) (a6 m c)) := un m c 19 rfl (st_main_v10 m c)
theorem st_main_v18 : St m c 21 main_v18 (val_main_v18 (F := F) (a0 m c) (a3 m c) (a4 m c) (a5 m c) (a6 m c)) := un m c 20 rfl (st_main_v10 m c)
theorem st_main_v19 : St m c 22 main_v19 (val_main_v19 (F := F) (a1 m c) (a7 m c) (a8 m c)) := un m c 21 rfl (st_main_v15 m c)
theorem st_main_v20 : St m c 23 main_v20 (val_main_v20 (F := F) (a1 m c) (a7 m c) (a8 m c)) := un m c 22 rfl (st_main_v15 m c)
theorem st_main_v21 : St m c 24 main_v21 (val_main_v21 (F := F) (a1 m c) (a7 m c) (a8 m c)) := un m c 23 rfl (st_main_v15 m c)
theorem st_main_v22 : St m c 25 main_v22 (val_main_v22 (F := F) (a0 m c) (a1 m c) (a3 m c) (a4 m c) (a5 m c) (a6 m c) (a7 m c) (a8 m c)) := bi m c 24 rfl (st_main_v16 m c) (st_main_v19 m c)
theorem st_main_v23 : St m c 26 main_v23 (val_main_v23 (F := F) (a0 m c) (a1 m c) (a3 m c) (a4 m c) (a5 m c) (a6 m c) (a7 m c) (a8 m c)) := un m c 25 rfl (st_main_v22 m c)
theorem st_main_v24 : St m c 27 main_v24 (val_main_v24 (F := F) (a0 m c) (a1 m c) (a3 m c) (a4 m c) (a5 m c) (a6 m c) (a7 m c) (a8 m c)) := un m c 26 rfl (st_main_v23 m c)
theorem st_main_cst : St m c 28 main_cst (val_main_cst (F := F)) := nu m c 27 rfl
theorem st_main_v25 : St m c 29 main_v25 (val_main_v25 (F := F)) := un m c 28 rfl (st_main_cst m c)
theorem st_main_v26 : St m c 30 main_v26 (val_main_v26 (F := F) (a0 m c) (a1 m c) (a3 m c) (a4 m c) (a5 m c) (a6 m c) (a7 m c) (a8 m c)) := bi m c 29 rfl (st_main_v25 m c) (st_main_v24 m c)
theorem st_main_cst_0 : St m c 31 main_cst_0 (val_main_cst_0 (F := F)) := nu m c 30 rfl
theorem st_main_v27 : St m c 32 main_v27 (val_main_v27 (F := F)) := un m c 31 rfl (st_main_cst_0 m c)
theorem st_main_v28 : St m c 33 main_v28 (val_main_v28 (F := F) (a0 m c) (a1 m c) (a3 m c) (a4 m c) (a5 m c) (a6 m c) (a7 m c) (a8 m c)) := bi m c 32 rfl (st_main_v27 m c) (st_main_v26 m c)
theorem st_main_v29 : St m c 34 main_v29 (val_main_v29 (F := F) (a0 m c) (a1 m c) (a3 m c) (a4 m c) (a5 m c) (a6 m c) (a7 m c) (a8 m c)) := bi m c 33 rfl (st_main_v17 m c) (st_main_v20 m c)
theorem st_main_v30 : St m c 35 main_v30 (val_main_v30 (F := F) (a0 m c) (a1 m c) (a3 m c) (a4 m c) (a5 m c) (a6 m c) (a7 m c) (a8 m c)) := un m c 34 rfl (st_main_v29 m c)
theorem st_main_v31 : St m c 36 main_v31 (val_main_v31 (F := F) (a0 m c) (a1 m c) (a3 m c) (a4 m c) (a5 m c) (a6 m c) (a7 m c) (a8 m c)) := un m c 35 rfl (st_main_v30 m c)
theorem st_main_cst_1 : St m c 37 main_cst_1 (val_main_cst_1 (F := F)) := nu m c 36 rfl
theorem st_main_v32 : St m c 38 main_v32 (val_main_v32 (F := F)) := un m c 37 rfl (st_main_cst_1 m c)
theorem st_main_v33 : St m c 39 main_v33 (val_main_v33 (F := F) (a0 m c) (a1 m c) (a3 m c) (a4 m c) (a5 m c) (a6 m c) (a7 m c) (a8 m c)) := bi m c 38 rfl (st_main_v32 m c) (st_main_v31 m c)
theorem st_main_cst_2 : St m c 40 main_cst_2 (val_main_cst_2 (F := F)) := nu m c 39 rfl
theorem st_main_v34 : St m c 41 main_v34 (val_main_v34 (F := F)) := un m c 40 rfl (st_main_cst_2 m c)
theorem st_main_v35 : St m c 42 main_v35 (val_main_v35 (F := F) (a0 m c) (a1 m c) (a3 m c) (a4 m c) (a5 m c) (a6 m c) (a7 m c) (a8 m c)) := bi m c 41 rfl (st_main_v34 m c) (st_main_v33 m c)
theorem st_main_v36 : St m c 43 main_v36 (val_main_v36 (F := F) (a0 m c) (a1 m c) (a3 m c) (a4 m c) (a5 m c) (a6 m c) (a7 m c) (a8 m c)) := bi m c 42 rfl (st_main_v28 m c) (st_main_v21 m c)
theorem st_main_v37 : St m c 44 main_v37 (val_main_v37 (F := F) (a0 m c) (a1 m c) (a3 m c) (a4 m c) (a5 m c) (a6 m c) (a7 m c) (a8 m c)) := bi m c 43 rfl (st_main_v18 m c) (st_main_v36 m c)
theorem st_main_v38 : St m c 45 main_v38 (val_main_v38 (F := F) (a0 m c) (a1 m c) (a3 m c) (a4 m c) (a5 m c) (a6 m c) (a7 m c) (a8 m c)) := un m c 44 rfl (st_main_v37 m c)
theorem st_main_cst_3 : St m c 46 main_cst_3 (val_main_cst_3 (F := F)) := nu m c 45 rfl
theorem st_main_v39 : St m c 47 main_v39 (val_main_v39 (F := F)) := un m c 46 rfl (st_main_cst_3 m c)
theorem st_main_v40 : St m c 48 main_v40 (val_main_v40 (F := F) (a0 m c) (a1 m c) (a3 m c) (a4 m c) (a5 m c) (a6 m c) (a7 m c) (a8 m c)) := bi m c 47 rfl (st_main_v39 m c) (st_main_v35 m c)
theorem st_main_v41 : St m c 49 main_v41 (val_main_v41 (F := F) (a0 m c) (a1 m c) (a3 m c) (a4 m c) (a5 m c) (a6 m c) (a7 m c) (a8 m c)) := bi m c 48 rfl (st_main_v40 m c) (st_main_v38 m c)
theorem st_main_v42 : St m c 50 main_v42 (val_main_v42 (F := F) (a0 m c) (a1 m c) (a3 m c) (a4 m c) (a5 m c) (a6 m c) (a7 m c) (a8 m c)) := bi m c 49 rfl (st_main_v35 m c) (arg m c main_arg1)
theorem st_main_v43 : St m c 51 main_v43 (val_main_v43 (F := F) (a0 m c) (a1 m c) (a3 m c) (a4 m c) (a5 m c) (a6 m c) (a7 m c) (a8 m c)) := bi m c 50 rfl (st_main_v41 m c) (st_main_v42 m c)
theorem st_main_v44 : St m c 52 main_v44 (val_main_v44 (F := F) (a0 m c) (a1 m c) (a3 m c) (a4 m c) (a5 m c) (a6 m c) (a7 m c) (a8 m c)) := rs m c 51 rfl (st_main_v43 m c)
theorem st_main_v45 : St m c 53 main_v45 (val_main_v45 (F := F) (a0 m c) (a1 m c) (a3 m c) (a4 m c) (a5 m c) (a6 m c) (a7 m c) (a8 m c) (a11 m c)) := bi m c 52 rfl (st_main_v44 m c) (arg m c main_arg11)
theorem st_main_v46 : St m c 54 main_v46 (val_main_v46 (F := F) (a12 m c)) := un m c 53 rfl (arg m c main_arg12)
theorem st_main_v47 : St m c 55 main_v47 (val_main_v47 (F := F) (a12 m c)) := un m c 54 rfl (st_main_v46 m c)
theorem st_main_v48 : St m c 56 main_v48 (val_main_v48 (F := F) (a0 m c) (a1 m c) (a3 m c) (a4 m c) (a5 m c) (a6 m c) (a7 m c) (a8 m c) (a11 m c) (a12 m c)) := bi m c 55 rfl (st_main_v45 m c) (st_main_v47 m c)
theorem st_main_call1_cst : St m c 57 main_call1_cst (val_main_call1_cst (F := F)) := nu m c 56 rfl
theorem st_main_call1_v0 : St m c 58 main_call1_v0 (val_main_call1_v0 (F := F)) := un m c 57 rfl (st_main_call1_cst m c)
theorem st_main_v49 : St m c 59 main_v49 (val_main_v49 (F := F) (a0 m c) (a1 m c) (a3 m c) (a4 m c) (a5 m c) (a6 m c) (a7 m c) (a8 m c) (a11 m c) (a12 m c)) := bi m c 58 rfl (st_main_v48 m c) (st_main_call1_v0 m c)
theorem st_main_v50 : St m c 60 main_v50 (val_main_v50 (F := F) (a0 m c) (a1 m c) (a3 m c) (a4 m c) (a5 m c) (a6 m c) (a7 m c) (a8 m c) (a15 m c)) := bi m c 59 rfl (st_main_v44 m c) (arg m c main_arg15)
theorem st_main_v51 : St m c 61 main_v51 (val_main_v51 (F := F) (a16 m c)) := un m c 60 rfl (arg m c main_arg16)
theorem st_main_v52 : St m c 62 main_v52 (val_main_v52 (F := F) (a16 m c)) := un m c 61 rfl (st_main_v51 m c)
theorem st_main_v53 : St m c 63 main_v53 (val_main_v53 (F := F) (a0 m c) (a1 m c) (a3 m c) (a4 m c) (a5 m c) (a6 m c) (a7 m c) (a8 m c) (a15 m c) (a16 m c)) := bi m c 62 rfl (st_main_v50 m c) (st_main_v52 m c)
theorem st_main_call2_cst : St m c 64 main_call2_cst (val_main_call2_cst (F := F)) := nu m c 63 rfl
theorem st_main_call2_v0 : St m c 65 main_call2_v0 (val_main_call2_v0 (F := F)) := un m c 64 rfl (st_main_call2_cst m c)
theorem st_main_v54 : St m c 66 main_v54 (val_main_v54 (F := F) (a0 m c) (a1 m c) (a3 m c) (a4 m c) (a5 m c) (a6 m c) (a7 m c) (a8 m c) (a15 m c) (a16 m c)) := bi m c 65 rfl (st_main_v53 m c) (st_main_call2_v0 m c)
theorem st_main_v55 : St m c 67 main_v55 (val_main_v55 (F := F) (a0 m c) (a1 m c) (a3 m c) (a4 m c) (a5 m c) (a6 m c) (a7 m c) (a8 m c) (a13 m c)) := bi m c 66 rfl (st_main_v44 m c) (arg m c main_arg13)
theorem st_main_v56 : St m c 68 main_v56 (val_main_v56 (F := F) (a14 m c)) := un m c 67 rfl (arg m c main_arg14)
theorem st_main_v57 : St m c 69 main_v57 (val_main_v57 (F := F) (a14 m c)) := un m c 68 rfl (st_main_v56 m c)
theorem st_main_v58 : St m c 70 main_v58 (val_main_v58 (F := F) (a0 m c) (a1 m c) (a3 m c) (a4 m c) (a5 m c) (a6 m c) (a7 m c) (a8 m c) (a13 m c) (a14 m c)) := bi m c 69 rfl (st_main_v55 m c) (st_main_v57 m c)
theorem st_main_call3_cst : St m c 71 main_call3_cst (val_main_call3_cst (F := F)) := nu m c 70 rfl
theorem st_main_call3_v0 : St m c 72 main_call3_v0 (val_main_call3_v0 (F := F)) := un m c 71 rfl (st_main_call3_cst m c)
theorem st_main_v59 : St m c 73 main_v59 (val_main_v59 (F := F) (a0 m c) (a1 m c) (a3 m c) (a4 m c) (a5 m c) (a6 m c) (a7 m c) (a8 m c) (a13 m c) (a14 m c)) := bi m c 72 rfl (st_main_v58 m c) (st_main_call3_v0 m c)
theorem st_main_v60 : St m c 74 main_v60 (val_main_v60 (F := F) (a0 m c) (a1 m c) (a3 m c) (a4 m c) (a5 m c) (a6 m c) (a7 m c) (a8 m c) (a13 m c) (a14 m c) (a15 m c) (a16 m c)) := bi m c 73 rfl (st_main_v54 m c) (st_main_v59 m c)
theorem st_main_v61 : St m c 75 main_v61 (val_main_v61 (F := F) (a0 m c) (a1 m c) (a2 m c) (a3 m c) (a4 m c) (a5 m c) (a6 m c) (a7 m c) (a8 m c) (a13 m c) (a14 m c) (a15 m c) (a16 m c)) := bi m c 74 rfl (st_main_v60 m c) (arg m c main_arg2)
theorem st_main_cst_4 : St m c 76 main_cst_4 (val_main_cst_4 (F := F)) := nu m c 75 rfl
theorem st_main_v62 : St m c 77 main_v62 (val_main_v62 (F := F)) := un m c 76 rfl (st_main_cst_4 m c)
theorem st_main_v63 : St m c 78 main_v63 (val_main_v63 (F := F) (a2 m c)) := bi m c 77 rfl (st_main_v62 m c) (arg m c main_arg2)
theorem st_main_cst_5 : St m c 79 main_cst_5 (val_main_cst_5 (F := F)) := nu m c 78 rfl
theorem st_main_v64 : St m c 80 main_v64 (val_main_v64 (F := F)) := un m c 79 rfl (st_main_cst_5 m c)
theorem st_main_v65 : St m c 81 main_v65 (val_main_v65 (F := F) (a2 m c)) := bi m c 80 rfl (st_main_v64 m c) (st_main_v63 m c)
theorem st_main_v66 : St m c 82 main_v66 (val_main_v66 (F := F) (a0 m c) (a1 m c) (a2 m c) (a3 m c) (a4 m c) (a5 m c) (a6 m c) (a7 m c) (a8 m c) (a13 m c) (a14 m c) (a15 m c) (a16 m c)) := bi m c 81 rfl (st_main_v61 m c) (st_main_v65 m c)
theorem st_main_cst_6 : St m c 83 main_cst_6 (val_main_cst_6 (F := F)) := nu m c 82 rfl
theorem st_main_v67 : St m c 84 main_v67 (val_main_v67 (F := F) (a0 m c) (a1 m c) (a2 m c) (a3 m c) (a4 m c) (a5 m c) (a6 m c) (a7 m c) (a8 m c) (a13 m c) (a14 m c) (a15 m c) (a16 m c)) := bi m c 83 rfl (st_main_v66 m c) (st_main_cst_6 m c)
theorem st_main_cst_7 : St m c 85 main_cst_7 (val_main_cst_7 (F := F)) := nu m c 84 rfl
theorem st_main_v68 : St m c 86 main_v68 (val_main_v68 (F := F)) := un m c 85 rfl (st_main_cst_7 m c)
theorem st_main_v69 : St m c 87 main_v69 (val_main_v69 (F := F) (a0 m c) (a1 m c) (a2 m c) (a3 m c) (a4 m c) (a5 m c) (a6 m c) (a7 m c) (a8 m c) (a13 m c) (a14 m c) (a15 m c) (a16 m c)) := bi m c 86 rfl (st_main_v68 m c) (st_main_v67 m c)
theorem st_main_v70 : St m c 88 main_v70 (val_main_v70 (F := F) (a0 m c) (a1 m c) (a2 m c) (a3 m c) (a4 m c) (a5 m c) (a6 m c) (a7 m c) (a8 m c) (a13 m c) (a14 m c) (a15 m c) (a16 m c)) := un m c 87 rfl (st_main_v69 m c)
theorem st_main_v71 : St m c 89 main_v71 (val_main_v71 (F := F) (a0 m c) (a1 m c) (a2 m c) (a3 m c) (a4 m c) (a5 m c) (a6 m c) (a7 m c) (a8 m c) (a13 m c) (a14 m c) (a15 m c) (a16 m c)) := un m c 88 rfl (st_main_v70 m c)
theorem st_main_v72 : St m c 90 main_v72 (val_main_v72 (F := F) (a0 m c) (a1 m c) (a2 m c) (a3 m c) (a4 m c) (a5 m c) (a6 m c) (a7 m c) (a8 m c) (a13 m c) (a14 m c) (a15 m c) (a16 m c)) := bi m c 89 rfl (st_main_v66 m c) (st_main_v71 m c)
theorem st_main_v73 : St m c 91 main_v73 (val_main_v73 (F := F) (a0 m c) (a1 m c) (a2 m c) (a3 m c) (a4 m c) (a5 m c) (a6 m c) (a7 m c) (a8 m c) (a13 m c) (a14 m c) (a15 m c) (a16 m c)) := un m c 90 rfl (st_main_v72 m c)
theorem st_main_cst_8 : St m c 92 main_cst_8 (val_main_cst_8 (F := F)) := nu m c 91 rfl
theorem st_main_v74 : St m c 93 main_v74 (val_main_v74 (F := F) (a0 m c) (a1 m c) (a2 m c) (a3 m c) (a4 m c) (a5 m c) (a6 m c) (a7 m c) (a8 m c) (a13 m c) (a14 m c) (a15 m c) (a16 m c)) := bi m c 92 rfl (st_main_v73 m c) (st_main_cst_8 m c)
theorem st_main_v75 : St m c 94 main_v75 (val_main_v75 (F := F) (a0 m c) (a1 m c) (a2 m c) (a3 m c) (a4 m c) (a5 m c) (a6 m c) (a7 m c) (a8 m c) (a13 m c) (a14 m c) (a15 m c) (a16 m c)) := un m c 93 rfl (st_main_v74 m c)
theorem st_main_v76 : St m c 95 main_v76 (val_main_v76 (F := F) (a0 m c) (a1 m c) (a2 m c) (a3 m c) (a4 m c) (a5 m c) (a6 m c) (a7 m c) (a8 m c) (a13 m c) (a14 m c) (a15 m c) (a16 m c)) := un m c 94 rfl (st_main_v75 m c)
theorem st_main_v77 : St m c 96 main_v77 (val_main_v77 (F := F) (a0 m c) (a1 m c) (a2 m c) (a3 m c) (a4 m c) (a5 m c) (a6 m c) (a7 m c) (a8 m c) (a13 m c) (a14 m c) (a15 m c) (a16 m c)) := bi m c 95 rfl (st_main_v73 m c) (st_main_v76 m c)
theorem st_main_v78 : St m c 97 main_v78 (val_main_v78 (F := F) (a0 m c) (a1 m c) (a2 m c) (a3 m c) (a4 m c) (a5 m c) (a6 m c) (a7 m c) (a8 m c) (a11 m c) (a12 m c) (a13 m c) (a14 m c) (a15 m c) (a16 m c)) := bi m c 96 rfl (st_main_v77 m c) (st_main_v49 m c)
theorem st_main_v79 : St m c 98 main_v79 (val_main_v79 (F := F) (a0 m c) (a1 m c) (a2 m c) (a3 m c) (a4 m c) (a5 m c) (a6 m c) (a7 m c) (a8 m c) (a11 m c) (a12 m c) (a13 m c) (a14 m c) (a15 m c) (a16 m c) (a17 m c)) := bi m c 97 rfl (st_main_v78 m c) (arg m c main_arg17)
theorem st_main_v80 : St m c 99 main_v80 (val_main_v80 (F := F) (a18 m c)) := un m c 98 rfl (arg m c main_arg18)
theorem st_main_v81 : St m c 100 main_v81 (val_main_v81 (F := F) (a18 m c)) := un m c 99 rfl (st_main_v80 m c)
theorem st_main_v82 : St m c 101 main_v82 (val_main_v82 (F := F) (a0 m c) (a1 m c) (a2 m c) (a3 m c) (a4 m c) (a5 m c) (a6 m c) (a7 m c) (a8 m c) (a11 m c) (a12 m c) (a13 m c) (a14 m c) (a15 m c) (a16 m c) (a17 m c) (a18 m c)) := bi m c 100 rfl (st_main_v79 m c) (st_main_v81 m c)
theorem st_main_call4_cst : St m c 102 main_call4_cst (val_main_call4_cst (F := F)) := nu m c 101 rfl
theorem st_main_call4_v0 : St m c 103 main_call4_v0 (val_main_call4_v0 (F := F)) := un m c 102 rfl (st_main_call4_cst m c)
theorem st_main_v83 : St m c 104 main_v83 (val_main_v83 (F := F) (a0 m c) (a1 m c) (a2 m c) (a3 m c) (a4 m c) (a5 m c) (a6 m c) (a7 m c) (a8 m c) (a11 m c) (a12 m c) (a13 m c) (a14 m c) (a15 m c) (a16 m c) (a17 m c) (a18 m c)) := bi m c 103 rfl (st_main_v82 m c) (st_main_call4_v0 m c)
theorem st_main_v84 : St m c 105 main_v84 (val_main_v84 (F := F) (a0 m c) (a1 m c) (a2 m c) (a3 m c) (a4 m c) (a5 m c) (a6 m c) (a7 m c) (a8 m c) (a11 m c) (a12 m c) (a13 m c) (a14 m c) (a15 m c) (a16 m c) (a21 m c)) := bi m c 104 rfl (st_main_v78 m c) (arg m c main_arg21)
theorem st_main_v85 : St m c 106 main_v85 (val_main_v85 (F := F) (a22 m c)) := un m c 105 rfl (arg m c main_arg22)
theorem st_main_v86 : St m c 107 main_v86 (val_main_v86 (F := F) (a22 m c)) := un m c 106 rfl (st_main_v85 m c)
theorem st_main_v87 : St m c 108 main_v87 (val_main_v87 (F := F) (a0 m c) (a1 m c) (a2 m c) (a3 m c) (a4 m c) (a5 m c) (a6 m c) (a7 m c) (a8 m c) (a11 m c) (a12 m c) (a13 m c) (a14 m c) (a15 m c) (a16 m c) (a21 m c) (a22 m c)) := bi m c 107 rfl (st_main_v84 m c) (st_main_v86 m c)
theorem st_main_call5_cst : St m c 109 main_call5_cst (val_main_call5_cst (F := F)) := nu m c 108 rfl
theorem st_main_call5_v0 : St m c 110 main_call5_v0 (val_main_call5_v0 (F := F)) := un m c 109 rfl (st_main_call5_cst m c)
theorem st_main_v88 : St m c 111 main_v88 (val_main_v88 (F := F) (a0 m c) (a1 m c) (a2 m c) (a3 m c) (a4 m c) (a5 m c) (a6 m c) (a7 m c) (a8 m c) (a11 m c) (a12 m c) (a13 m c) (a14 m c) (a15 m c) (a16 m c) (a21 m c) (a22 m c)) := bi m c 110 rfl (st_main_v87 m c) (st_main_call5_v0 m c)
theorem st_main_v89 : St m c 112 main_v89 (val_main_v89 (F := F) (a0 m c) (a1 m c) (a2 m c) (a3 m c) (a4 m c) (a5 m c) (a6 m c) (a7 m c) (a8 m c) (a11 m c) (a12 m c) (a13 m c) (a14 m c) (a15 m c) (a16 m c) (a19 m c)) := bi m c 111 rfl (st_main_v78 m c) (arg m c main_arg19)
theorem st_main_v90 : St m c 113 main_v90 (val_main_v90 (F := F) (a20 m c)) := un m c 112 rfl (arg m c main_arg20)
theorem st_main_v91 : St m c 114 main_v91 (val_main_v91 (F := F) (a20 m c)) := un m c 113 rfl (st_main_v90 m c)
theorem st_main_v92 : St m c 115 main_v92 (val_main_v92 (F := F) (a0 m c) (a1 m c) (a2 m c) (a3 m c) (a4 m c) (a5 m c) (a6 m c) (a7 m c) (a8 m c) (a11 m c) (a12 m c) (a13 m c) (a14 m c) (a15 m c) (a16 m c) (a19 m c) (a20 m c)) := bi m c 114 rfl (st_main_v89 m c) (st_main_v91 m c)
theorem st_main_call6_cst : St m c 116 main_call6_cst (val_main_call6_cst (F := F)) := nu m c 115 rfl
theorem st_main_call6_v0 : St m c 117 main_call6_v0 (val_main_call6_v0 (F := F)) := un m c 116 rfl (st_main_call6_cst m c)
theorem st_main_v93 : St m c 118 main_v93 (val_main_v93 (F := F) (a0 m c) (a1 m c) (a2 m c) (a3 m c) (a4 m c) (a5 m c) (a6 m c) (a7 m c) (a8 m c) (a11 m c) (a12 m c) (a13 m c) (a14 m c) (a15 m c) (a16 m c) (a19 m c) (a20 m c)) := bi m c 117 rfl (st_main_v92 m c) (st_main_call6_v0 m c)
theorem st_main_v94 : St m c 119 main_v94 (val_main_v94 (F := F) (a0 m c) (a1 m c) (a2 m c) (a3 m c) (a4 m c) (a5 m c) (a6 m c) (a7 m c) (a8 m c) (a11 m c) (a12 m c) (a13 m c) (a14 m c) (a15 m c) (a16 m c) (a19 m c) (a20 m c) (a21 m c) (a22 m c)) := bi m c 118 rfl (st_main_v88 m c) (st_main_v93 m c)
theorem st_main_v95 : St m c 120 main_v95 (val_main_v95 (F := F) (a0 m c) (a1 m c) (a2 m c) (a3 m c) (a4 m c) (a5 m c) (a6 m c) (a7 m c) (a8 m c) (a11 m c) (a12 m c) (a13 m c) (a14 m c) (a15 m c) (a16 m c) (a19 m c) (a20 m c) (a21 m c) (a22 m c)) := bi m c 119 rfl (st_main_v94 m c) (arg m c main_arg2)
theorem st_main_cst_9 : St m c 121 main_cst_9 (val_main_cst_9 (F := F)) := nu m c 120 rfl
theorem st_main_v96 : St m c 122 main_v96 (val_main_v96 (F := F)) := un m c 121 rfl (st_main_cst_9 m c)
theorem st_main_v97 : St m c 123 main_v97 (val_main_v97 (F := F) (a2 m c)) := bi m c 122 rfl (st_main_v96 m c) (arg m c main_arg2)
theorem st_main_cst_10 : St m c 124 main_cst_10 (val_main_cst_10 (F := F)) := nu m c 123 rfl
theorem st_main_v98 : St m c 125 main_v98 (val_main_v98 (F := F)) := un m c 124 rfl (st_main_cst_10 m c)
theorem st_main_v99 : St m c 126 main_v99 (val_main_v99 (F := F) (a2 m c)) := bi m c 125 rfl (st_main_v98 m c) (st_main_v97 m c)
theorem st_main_v100 : St m c 127 main_v100 (val_main_v100 (F := F) (a0 m c) (a1 m c) (a2 m c) (a3 m c) (a4 m c) (a5 m c) (a6 m c) (a7 m c) (a8 m c) (a11 m c) (a12 m c) (a13 m c) (a14 m c) (a15 m c) (a16 m c) (a19 m c) (a20 m c) (a21 m c) (a22 m c)) := bi m c 126 rfl (st_main_v95 m c) (st_main_v99 m c)
theorem st_main_cst_11 : St m c 128 main_cst_11 (val_main_cst_11 (F := F)) := nu m c 127 rfl
theorem st_main_v101 : St m c 129 main_v101 (val_main_v101 (F := F) (a0 m c) (a1 m c) (a2 m c) (a3 m c) (a4 m c) (a5 m c) (a6 m c) (a7 m c) (a8 m c) (a11 m c) (a12 m c) (a13 m c) (a14 m c) (a15 m c) (a16 m c) (a19 m c) (a20 m c) (a21 m c) (a22 m c)) := bi m c 128 rfl (st_main_v100 m c) (st_main_cst_11 m c)
theorem st_main_cst_12 : St m c 130 main_cst_12 (val_main_cst_12 (F := F)) := nu m c 129 rfl
theorem st_main_v102 : St m c 131 main_v102 (val_main_v102 (F := F)) := un m c 130 rfl (st_main_cst_12 m c)
theorem st_main_v103 : St m c 132 main_v103 (val_main_v103 (F := F) (a0 m c) (a1 m c) (a2 m c) (a3 m c) (a4 m c) (a5 m c) (a6 m c) (a7 m c) (a8 m c) (a11 m c) (a12 m c) (a13 m c) (a14 m c) (a15 m c) (a16 m c) (a19 m c) (a20 m c) (a21 m c) (a22 m c)) := bi m c 131 rfl (st_main_v102 m c) (st_main_v101 m c)
theorem st_main_v104 : St m c 133 main_v104 (val_main_v104 (F := F) (a0 m c) (a1 m c) (a2 m c) (a3 m c) (a4 m c) (a5 m c) (a6 m c) (a7 m c) (a8 m c) (a11 m c) (a12 m c) (a13 m c) (a14 m c) (a15 m c) (a16 m c) (a19 m c) (a20 m c) (a21 m c) (a22 m c)) := un m c 132 rfl (st_main_v103 m c)
theorem st_main_v105 : St m c 134 main_v105 (val_main_v105 (F := F) (a0 m c) (a1 m c) (a2 m c) (a3 m c) (a4 m c) (a5 m c) (a6 m c) (a7 m c) (a8 m c) (a11 m c) (a12 m c) (a13 m c) (a14 m c) (a15 m c) (a16 m c) (a19 m c) (a20 m c) (a21 m c) (a22 m c)) := un m c 133 rfl (st_main_v104 m c)
theorem st_main_v106 : St m c 135 main_v106 (val_main_v106 (F := F) (a0 m c) (a1 m c) (a2 m c) (a3 m c) (a4 m c) (a5 m c) (a6 m c) (a7 m c) (a8 m c) (a11 m c) (a12 m c) (a13 m c) (a14 m c) (a15 m c) (a16 m c) (a19 m c) (a20 m c) (a21 m c) (a22 m c)) := bi m c 134 rfl (st_main_v100 m c) (st_main_v105 m c)
theorem st_main_v107 : St m c 136 main_v107 (val_main_v107 (F := F) (a0 m c) (a1 m c) (a2 m c) (a3 m c) (a4 m c) (a5 m c) (a6 m c) (a7 m c) (a8 m c) (a11 m c) (a12 m c) (a13 m c) (a14 m c) (a15 m c) (a16 m c) (a19 m c) (a20 m c) (a21 m c) (a22 m c)) := un m c 135 rfl (st_main_v106 m c)
theorem st_main_cst_13 : St m c 137 main_cst_13 (val_main_cst_13 (F := F)) := nu m c 136 rfl
theorem st_main_v108 : St m c 138 main_v108 (val_main_v108 (F := F) (a0 m c) (a1 m c) (a2 m c) (a3 m c) (a4 m c) (a5 m c) (a6 m c) (a7 m c) (a8 m c) (a11 m c) (a12 m c) (a13 m c) (a14 m c) (a15 m c) (a16 m c) (a19 m c) (a20 m c) (a21 m c) (a22 m c)) := bi m c 137 rfl (st_main_v107 m c) (st_main_cst_13 m c)
theorem st_main_v109 : St m c 139 main_v109 (val_main_v109 (F := F) (a0 m c) (a1 m c) (a2 m c) (a3 m c) (a4 m c) (a5 m c) (a6 m c) (a7 m c) (a8 m c) (a11 m c) (a12 m c) (a13 m c) (a14 m c) (a15 m c) (a16 m c) (a19 m c) (a20 m c) (a21 m c) (a22 m c)) := un m c 138 rfl (st_main_v108 m c)
theorem st_main_v110 : St m c 140 main_v110 (val_main_v110 (F := F) (a0 m c) (a1 m c) (a2 m c) (a3 m c) (a4 m c) (a5 m c) (a6 m c) (a7 m c) (a8 m c) (a11 m c) (a12 m c) (a13 m c) (a14 m c) (a15 m c) (a16 m c) (a19 m c) (a20 m c) (a21 m c) (a22 m c)) := un m c 139 rfl (st_main_v109 m c)
theorem st_main_v111 : St m c 141 main_v111 (val_main_v111 (F := F) (a0 m c) (a1 m c) (a2 m c) (a3 m c) (a4 m c) (a5 m c) (a6 m c) (a7 m c) (a8 m c) (a11 m c) (a12 m c) (a13 m c) (a14 m c) (a15 m c) (a16 m c) (a19 m c) (a20 m c) (a21 m c) (a22 m c)) := bi m c 140 rfl (st_main_v107 m c) (st_main_v110 m c)
theorem st_main_v112 : St m c 142 main_v112 (val_main_v112 (F := F) (a0 m c) (a1 m c) (a2 m c) (a3 m c) (a4 m c) (a5 m c) (a6 m c) (a7 m c) (a8 m c) (a11 m c) (a12 m c) (a13 m c) (a14 m c) (a15 m c) (a16 m c) (a17 m c) (a18 m c) (a19 m c) (a20 m c) (a21 m c) (a22 m c)) := bi m c 141 rfl (st_main_v111 m c) (st_main_v83 m c)
theorem st_main_v113 : St m c 143 main_v113 (val_main_v113 (F := F) (a0 m c) (a1 m c) (a2 m c) (a3 m c) (a4 m c) (a5 m c) (a6 m c) (a7 m c) (a8 m c) (a11 m c) (a12 m c) (a13 m c) (a14 m c) (a15 m c) (a16 m c) (a17 m c) (a18 m c) (a19 m c) (a20 m c) (a21 m c) (a22 m c)) := rs m c 142 rfl (st_main_v112 m c)
theorem st_main_v114 : St m c 144 main_v114 (val_main_v114 (F := F) (a9 m c)) := un m c 143 rfl (arg m c main_arg9)
theorem st_main_v115 : St m c 145 main_v115 (val_main_v115 (F := F) (a0 m c) (a1 m c) (a2 m c) (a3 m c) (a4 m c) (a5 m c) (a6 m c) (a7 m c) (a8 m c) (a9 m c) (a11 m c) (a12 m c) (a13 m c) (a14 m c) (a15 m c) (a16 m c) (a17 m c) (a18 m c) (a19 m c) (a20 m c) (a21 m c) (a22 m c)) := bi m c 144 rfl (st_main_v113 m c) (st_main_v114 m c)
theorem st_main_v116 : St m c 146 main_v116 (val_main_v116 (F := F) (a10 m c)) := un m c 145 rfl (arg m c main_arg10)
theorem st_main_v117 : St m c 147 main_v117 (val_main_v117 (F := F) (a10 m c)) := un m c 146 rfl (st_main_v116 m c)
theorem st_main_v118 : St m c 148 main_v118 (val_main_v118 (F := F) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c)) := bi m c 147 rfl (st_main_v115 m c) (st_main_v117 m c)

end Cert.ReferenceIdeal.RefStages

end
-- ==== Proof.RefRun.lean ====
import proofs.«403671_j61134564491522_3_alg».proof.Proof.RefStages
import Idealize.ShloMosaic.Lib.StableHlo.Run

noncomputable section

namespace Cert.ReferenceIdeal.HRun

open Cert.ReferenceIdeal Cert.ReferenceIdeal.Gen Cert.ReferenceIdeal.RefOps Cert.ReferenceIdeal.ReadP Cert.ReferenceIdeal.RefStages
open Idealize.ShloMosaic Idealize.ShloMosaic.TcCoe Idealize.SL.Sem Idealize.ShloMosaic.StableHlo Idealize.ShloMosaic.HostPeel

variable {F : FTy → Type} [FloatOps F]

theorem ops_fresh : (ops (F := F)).Forall fun op => op.fresh = ∅ := by
  simp only [List.Forall]; repeat' constructor

/-- The run ends at the fold of all 148 operations; the stage equations and `arg` read that fold buffer by buffer. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v118) = val_main_v118 (F := F) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c)
      ∧ r.2.mem ((c.tc : Thread nD τ).loc main_v113) = val_main_v113 (F := F) (a0 m c) (a1 m c) (a2 m c) (a3 m c) (a4 m c) (a5 m c) (a6 m c) (a7 m c) (a8 m c) (a11 m c) (a12 m c) (a13 m c) (a14 m c) (a15 m c) (a16 m c) (a17 m c) (a18 m c) (a19 m c) (a20 m c) (a21 m c) (a22 m c)
      ∧ ∀ b ∉ written, r.2.mem ((c.tc : Thread nD τ).loc b) = m ((c.tc : Thread nD τ).loc b) :=
  (θ_run defs _ _).mono (fun _ h c => ⟨(h c main_v118).trans (Settled.at_end (st_main_v118 m c) (Nat.le_refl _)),
      (h c main_v113).trans (Settled.at_end (st_main_v113 m c) (show 143 ≤ 148 by decide)),
      fun b hb => (h c b).trans (Settled.at_end (arg m c b hb) (Nat.zero_le _))⟩)
    (run_seq scopedRefs_eq scopedSems_eq defs main (fun _ => ops) main_eq (fun _ => ops_sub) m ρ
      (hfresh := fun _ => List.forall_iff_forall_mem.mp ops_fresh))

end Cert.ReferenceIdeal.HRun

end
-- ==== Proof.RVal1.lean ====
import proofs.«403671_j61134564491522_3_alg».proof.Proof.ReadP
import proofs.«403671_j61134564491522_3_alg».proof.Proof.Whole
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.HValue

open Idealize.ShloMosaic Idealize.ShloMosaic.ValueIdx Cert.ReferenceIdeal Cert.ReferenceIdeal.ReadP RNNSpec

namespace RVal1

section stages

variable (P : Weights)
variable (x0 : (⟨S131072x96, .f32⟩ : BufTy).Contents (Elt Ideal)) (x1 : (⟨S131072x128, .f32⟩ : BufTy).Contents (Elt Ideal)) (x3 : (⟨S128x96, .f32⟩ : BufTy).Contents (Elt Ideal)) (x4 : (⟨S128, .f32⟩ : BufTy).Contents (Elt Ideal)) (x5 : (⟨S384x128, .f32⟩ : BufTy).Contents (Elt Ideal)) (x6 : (⟨S384, .f32⟩ : BufTy).Contents (Elt Ideal)) (x7 : (⟨S384x128, .f32⟩ : BufTy).Contents (Elt Ideal)) (x8 : (⟨S384, .f32⟩ : BufTy).Contents (Elt Ideal))

theorem ofBits_one_f32 : Ideal.ofBits .f32 0x3F800000#32 = 1 := by
  simp [Ideal.ofBits, Ideal.ieee]
  rw [← EReal.coe_mul]
  norm_num

theorem v0_at (h3 : ∀ (j : Fin 128) (k : Fin 96), x3 (ix2 j k) = P.Wfc1 j k) (k : Fin 96) (j : Fin 128) :
    val_main_v0 (F := Ideal) x3 (ix2 k j) = P.Wfc1 j k := by
  rw [val_main_v0_apply]
  have e : idx_main_v0 (ix2 k j) = ix2 j k := funext fun a => match a with | ⟨0, _⟩ => rfl | ⟨1, _⟩ => rfl
  rw [e, h3]

theorem v1_at (h3 : ∀ (j : Fin 128) (k : Fin 96), x3 (ix2 j k) = P.Wfc1 j k) (r : Fin 131072) (j : Fin 128) :
    val_main_v1 (F := Ideal) x0 x3 (ix2 r j) = ∑ k : Fin 96, x0 (ix2 r k) * P.Wfc1 j k := by
  rw [val_main_v1_apply]
  refine Finset.sum_congr rfl fun k _ => ?_
  have el : lidx_main_v1 (ix2 r j) k = ix2 r k := funext fun a => match a with | ⟨0, _⟩ => rfl | ⟨1, _⟩ => rfl
  have er : ridx_main_v1 (ix2 r j) k = ix2 k j := funext fun a => match a with | ⟨0, _⟩ => rfl | ⟨1, _⟩ => rfl
  rw [el, er, v0_at P x3 h3]

theorem v3_at (h4 : ∀ j : Fin 128, x4 (ix1 j) = P.bfc1 j) (r : Fin 131072) (j : Fin 128) :
    val_main_v3 (F := Ideal) x4 (ix2 r j) = P.bfc1 j := by
  rw [val_main_v3_apply, val_main_v2_apply]
  have e : idx_main_v2 (idx_main_v3 (ix2 r j)) = ix1 j := funext fun a => match a with | ⟨0, _⟩ => rfl
  rw [e, h4]

theorem call0_v0_at (i : S131072x128.Idx) : val_main_call0_v0 (F := Ideal) i = 0 := by
  rw [val_main_call0_v0_apply, val_main_call0_cst_apply, Ideal.ofBits_def, Ideal.ofBits_zero_f32]

theorem v5_at (h3 : ∀ (j : Fin 128) (k : Fin 96), x3 (ix2 j k) = P.Wfc1 j k) (h4 : ∀ j : Fin 128, x4 (ix1 j) = P.bfc1 j)
    (r : Fin 131072) (j : Fin 128) :
    val_main_v5 (F := Ideal) x0 x3 x4 (ix2 r j) = fc1 P.Wfc1 P.bfc1 (fun d => x0 (ix2 r d)) j := by
  rw [val_main_v5_apply, val_main_v4_apply, v1_at P x0 x3 h3, v3_at P x4 h4, call0_v0_at]
  rfl

theorem v6_at (h5 : ∀ (c : Fin 384) (k : Fin 128), x5 (ix2 c k) = P.Wih c k) (k : Fin 128) (c : Fin 384) :
    val_main_v6 (F := Ideal) x5 (ix2 k c) = P.Wih c k := by
  rw [val_main_v6_apply]
  have e : idx_main_v6 (ix2 k c) = ix2 c k := funext fun a => match a with | ⟨0, _⟩ => rfl | ⟨1, _⟩ => rfl
  rw [e, h5]

theorem v9_at (h6 : ∀ c : Fin 384, x6 (ix1 c) = P.bih c) (r : Fin 131072) (c : Fin 384) :
    val_main_v9 (F := Ideal) x6 (ix2 r c) = P.bih c := by
  rw [val_main_v9_apply, val_main_v8_apply]
  have e : idx_main_v8 (idx_main_v9 (ix2 r c)) = ix1 c := funext fun a => match a with | ⟨0, _⟩ => rfl
  rw [e, h6]

theorem v10_at (h3 : ∀ (j : Fin 128) (k : Fin 96), x3 (ix2 j k) = P.Wfc1 j k) (h4 : ∀ j : Fin 128, x4 (ix1 j) = P.bfc1 j)
    (h5 : ∀ (c : Fin 384) (k : Fin 128), x5 (ix2 c k) = P.Wih c k) (h6 : ∀ c : Fin 384, x6 (ix1 c) = P.bih c)
    (r : Fin 131072) (c : Fin 384) :
    val_main_v10 (F := Ideal) x0 x3 x4 x5 x6 (ix2 r c)
      = dense P.Wih P.bih (fc1 P.Wfc1 P.bfc1 (fun d => x0 (ix2 r d))) c := by
  rw [val_main_v10_apply, val_main_v7_apply, v9_at P x6 h6]
  refine congrArg (· + P.bih c) (Finset.sum_congr rfl fun k _ => ?_)
  have el : lidx_main_v7 (ix2 r c) k = ix2 r k := funext fun a => match a with | ⟨0, _⟩ => rfl | ⟨1, _⟩ => rfl
  have er : ridx_main_v7 (ix2 r c) k = ix2 k c := funext fun a => match a with | ⟨0, _⟩ => rfl | ⟨1, _⟩ => rfl
  rw [el, er, v5_at P x0 x3 x4 h3 h4, v6_at P x5 h5]

theorem v11_at (h7 : ∀ (c : Fin 384) (k : Fin 128), x7 (ix2 c k) = P.Whh c k) (k : Fin 128) (c : Fin 384) :
    val_main_v11 (F := Ideal) x7 (ix2 k c) = P.Whh c k := by
  rw [val_main_v11_apply]
  have e : idx_main_v11 (ix2 k c) = ix2 c k := funext fun a => match a with | ⟨0, _⟩ => rfl | ⟨1, _⟩ => rfl
  rw [e, h7]

theorem v14_at (h8 : ∀ c : Fin 384, x8 (ix1 c) = P.bhh c) (r : Fin 131072) (c : Fin 384) :
    val_main_v14 (F := Ideal) x8 (ix2 r c) = P.bhh c := by
  rw [val_main_v14_apply, val_main_v13_apply]
  have e : idx_main_v13 (idx_main_v14 (ix2 r c)) = ix1 c := funext fun a => match a with | ⟨0, _⟩ => rfl
  rw [e, h8]

theorem v15_at (h7 : ∀ (c : Fin 384) (k : Fin 128), x7 (ix2 c k) = P.Whh c k) (h8 : ∀ c : Fin 384, x8 (ix1 c) = P.bhh c)
    (r : Fin 131072) (c : Fin 384) :
    val_main_v15 (F := Ideal) x1 x7 x8 (ix2 r c) = dense P.Whh P.bhh (fun d => x1 (ix2 r d)) c := by
  rw [val_main_v15_apply, val_main_v12_apply, v14_at P x8 h8]
  refine congrArg (· + P.bhh c) (Finset.sum_congr rfl fun k _ => ?_)
  have el : lidx_main_v12 (ix2 r c) k = ix2 r k := funext fun a => match a with | ⟨0, _⟩ => rfl | ⟨1, _⟩ => rfl
  have er : ridx_main_v12 (ix2 r c) k = ix2 k c := funext fun a => match a with | ⟨0, _⟩ => rfl | ⟨1, _⟩ => rfl
  rw [el, er, v11_at P x7 h7]

theorem idx16_at (r : Fin 131072) (j : Fin 128) : idx_main_v16 (ix2 r j) = ix2 r (lo j) :=
  funext fun a => match a with | ⟨0, _⟩ => rfl | ⟨1, _⟩ => rfl
theorem idx17_at (r : Fin 131072) (j : Fin 128) : idx_main_v17 (ix2 r j) = ix2 r (mid j) :=
  funext fun a => match a with | ⟨0, _⟩ => rfl | ⟨1, _⟩ => Fin.ext (Nat.add_comm 128 j.val)
theorem idx18_at (r : Fin 131072) (j : Fin 128) : idx_main_v18 (ix2 r j) = ix2 r (hi j) :=
  funext fun a => match a with | ⟨0, _⟩ => rfl | ⟨1, _⟩ => Fin.ext (Nat.add_comm 256 j.val)
theorem idx19_at (r : Fin 131072) (j : Fin 128) : idx_main_v19 (ix2 r j) = ix2 r (lo j) :=
  funext fun a => match a with | ⟨0, _⟩ => rfl | ⟨1, _⟩ => rfl
theorem idx20_at (r : Fin 131072) (j : Fin 128) : idx_main_v20 (ix2 r j) = ix2 r (mid j) :=
  funext fun a => match a with | ⟨0, _⟩ => rfl | ⟨1, _⟩ => Fin.ext (Nat.add_comm 128 j.val)
theorem idx21_at (r : Fin 131072) (j : Fin 128) : idx_main_v21 (ix2 r j) = ix2 r (hi j) :=
  funext fun a => match a with | ⟨0, _⟩ => rfl | ⟨1, _⟩ => Fin.ext (Nat.add_comm 256 j.val)

theorem v25_at (i : S131072x128.Idx) : val_main_v25 (F := Ideal) i = 1 := by
  rw [val_main_v25_apply, val_main_cst_apply, Ideal.ofBits_def, ofBits_one_f32]
theorem v27_at (i : S131072x128.Idx) : val_main_v27 (F := Ideal) i = 1 := by
  rw [val_main_v27_apply, val_main_cst_0_apply, Ideal.ofBits_def, ofBits_one_f32]
theorem v32_at (i : S131072x128.Idx) : val_main_v32 (F := Ideal) i = 1 := by
  rw [val_main_v32_apply, val_main_cst_1_apply, Ideal.ofBits_def, ofBits_one_f32]
theorem v34_at (i : S131072x128.Idx) : val_main_v34 (F := Ideal) i = 1 := by
  rw [val_main_v34_apply, val_main_cst_2_apply, Ideal.ofBits_def, ofBits_one_f32]
theorem v39_at (i : S131072x128.Idx) : val_main_v39 (F := Ideal) i = one32 := by
  rw [val_main_v39_apply, val_main_cst_3_apply, Ideal.ofBits_def]

variable (h3 : ∀ (j : Fin 128) (k : Fin 96), x3 (ix2 j k) = P.Wfc1 j k) (h4 : ∀ j : Fin 128, x4 (ix1 j) = P.bfc1 j)
  (h5 : ∀ (c : Fin 384) (k : Fin 128), x5 (ix2 c k) = P.Wih c k) (h6 : ∀ c : Fin 384, x6 (ix1 c) = P.bih c)
  (h7 : ∀ (c : Fin 384) (k : Fin 128), x7 (ix2 c k) = P.Whh c k) (h8 : ∀ c : Fin 384, x8 (ix1 c) = P.bhh c)
include h3 h4 h5 h6 h7 h8

theorem v28_at (r : Fin 131072) (j : Fin 128) :
    val_main_v28 (F := Ideal) x0 x1 x3 x4 x5 x6 x7 x8 (ix2 r j)
      = rgate P.Wih P.bih P.Whh P.bhh (fc1 P.Wfc1 P.bfc1 (fun d => x0 (ix2 r d))) (fun d => x1 (ix2 r d)) j := by
  rw [val_main_v28_apply, val_main_v26_apply, val_main_v24_apply, val_main_v23_apply, val_main_v22_apply,
    val_main_v16_apply, val_main_v19_apply, idx16_at, idx19_at, v10_at P x0 x3 x4 x5 x6 h3 h4 h5 h6,
    v15_at P x1 x7 x8 h7 h8, v27_at, v25_at]
  rfl

theorem v35_at (r : Fin 131072) (j : Fin 128) :
    val_main_v35 (F := Ideal) x0 x1 x3 x4 x5 x6 x7 x8 (ix2 r j)
      = zgate P.Wih P.bih P.Whh P.bhh (fc1 P.Wfc1 P.bfc1 (fun d => x0 (ix2 r d))) (fun d => x1 (ix2 r d)) j := by
  rw [val_main_v35_apply, val_main_v33_apply, val_main_v31_apply, val_main_v30_apply, val_main_v29_apply,
    val_main_v17_apply, val_main_v20_apply, idx17_at, idx20_at, v10_at P x0 x3 x4 x5 x6 h3 h4 h5 h6,
    v15_at P x1 x7 x8 h7 h8, v34_at, v32_at]
  rfl

theorem v38_at (r : Fin 131072) (j : Fin 128) :
    val_main_v38 (F := Ideal) x0 x1 x3 x4 x5 x6 x7 x8 (ix2 r j)
      = ngate P.Wih P.bih P.Whh P.bhh (fc1 P.Wfc1 P.bfc1 (fun d => x0 (ix2 r d))) (fun d => x1 (ix2 r d)) j := by
  rw [val_main_v38_apply, val_main_v37_apply, val_main_v36_apply, val_main_v18_apply, val_main_v21_apply,
    idx18_at, idx21_at, v10_at P x0 x3 x4 x5 x6 h3 h4 h5 h6, v15_at P x1 x7 x8 h7 h8,
    v28_at P x0 x1 x3 x4 x5 x6 x7 x8 h3 h4 h5 h6 h7 h8]
  rfl

theorem v43_at (r : Fin 131072) (j : Fin 128) :
    val_main_v43 (F := Ideal) x0 x1 x3 x4 x5 x6 x7 x8 (ix2 r j)
      = cell P.Wfc1 P.bfc1 P.Wih P.bih P.Whh P.bhh (fun d => x0 (ix2 r d)) (fun d => x1 (ix2 r d)) j := by
  rw [val_main_v43_apply, val_main_v41_apply, val_main_v42_apply, val_main_v40_apply, v39_at,
    v35_at P x0 x1 x3 x4 x5 x6 x7 x8 h3 h4 h5 h6 h7 h8, v38_at P x0 x1 x3 x4 x5 x6 x7 x8 h3 h4 h5 h6 h7 h8]
  rfl

end stages

end RVal1

variable (P : Weights)

variable (x0 : (⟨S131072x96, .f32⟩ : BufTy).Contents (Elt Ideal)) (x1 : (⟨S131072x128, .f32⟩ : BufTy).Contents (Elt Ideal)) (x3 : (⟨S128x96, .f32⟩ : BufTy).Contents (Elt Ideal)) (x4 : (⟨S128, .f32⟩ : BufTy).Contents (Elt Ideal)) (x5 : (⟨S384x128, .f32⟩ : BufTy).Contents (Elt Ideal)) (x6 : (⟨S384, .f32⟩ : BufTy).Contents (Elt Ideal)) (x7 : (⟨S384x128, .f32⟩ : BufTy).Contents (Elt Ideal)) (x8 : (⟨S384, .f32⟩ : BufTy).Contents (Elt Ideal))
  (h3 : ∀ (j : Fin 128) (k : Fin 96), x3 (ix2 j k) = P.Wfc1 j k) (h4 : ∀ j : Fin 128, x4 (ix1 j) = P.bfc1 j)
  (h5 : ∀ (c : Fin 384) (k : Fin 128), x5 (ix2 c k) = P.Wih c k) (h6 : ∀ c : Fin 384, x6 (ix1 c) = P.bih c)
  (h7 : ∀ (c : Fin 384) (k : Fin 128), x7 (ix2 c k) = P.Whh c k) (h8 : ∀ c : Fin 384, x8 (ix1 c) = P.bhh c)
include h3 h4 h5 h6 h7 h8

theorem ref_cell (b : Fin 4096) (a : Fin 32) (j : Fin 128) :
    val_main_v44 (F := Ideal) x0 x1 x3 x4 x5 x6 x7 x8 (ix3 b a j) = H0 P (Xof x0 b) (Hof x1 b) a j := by
  rw [val_main_v44_apply]
  have e : idx_main_v44 (ix3 b a j) = ix2 (row b a) j := funext fun d => match d with
    | ⟨0, _⟩ => Fin.ext (by
        have hj : j.val < 128 := j.isLt
        show ((b.val * 32 + a.val) * 128 + j.val) / 128 = b.val * 32 + a.val
        omega)
    | ⟨1, _⟩ => Fin.ext (by
        have hj : j.val < 128 := j.isLt
        show ((b.val * 32 + a.val) * 128 + j.val) % 128 = j.val
        omega)
  rw [e, RVal1.v43_at P x0 x1 x3 x4 x5 x6 x7 x8 h3 h4 h5 h6 h7 h8]
  rfl

end Cert.ReferenceIdeal.HValue

end
-- ==== Proof.RVal2.lean ====
import proofs.«403671_j61134564491522_3_alg».proof.Proof.ReadP
import proofs.«403671_j61134564491522_3_alg».proof.Proof.Whole
import Idealize.ShloMosaic.Lib.ValueIdx
import Idealize.ShloMosaic.Lib.ValueLayout
import Idealize.ShloMosaic.Lib.Pipeline.Value
import Idealize.ShloMosaic.PureOps.Ideal.Laws
import proofs.«403671_j61134564491522_3_alg».proof.Proof.RVal1

noncomputable section

namespace Cert.ReferenceIdeal.HValue

open Idealize.ShloMosaic Idealize.ShloMosaic.ValueIdx Cert.ReferenceIdeal Cert.ReferenceIdeal.ReadP RNNSpec

theorem ofBits_neg_inf_f32 : Ideal.ofBits .f32 0xFF800000#32 = (⊥ : EReal) := by
  simp [Ideal.ofBits, Ideal.ieee]

variable (P : Weights)

variable (x0 : (⟨S131072x96, .f32⟩ : BufTy).Contents (Elt Ideal)) (x1 : (⟨S131072x128, .f32⟩ : BufTy).Contents (Elt Ideal)) (x2 : (⟨S4096x32x32, .f32⟩ : BufTy).Contents (Elt Ideal)) (x3 : (⟨S128x96, .f32⟩ : BufTy).Contents (Elt Ideal)) (x4 : (⟨S128, .f32⟩ : BufTy).Contents (Elt Ideal)) (x5 : (⟨S384x128, .f32⟩ : BufTy).Contents (Elt Ideal)) (x6 : (⟨S384, .f32⟩ : BufTy).Contents (Elt Ideal)) (x7 : (⟨S384x128, .f32⟩ : BufTy).Contents (Elt Ideal)) (x8 : (⟨S384, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128x128, .f32⟩ : BufTy).Contents (Elt Ideal)) (x16 : (⟨S128, .f32⟩ : BufTy).Contents (Elt Ideal))
  (h3 : ∀ (j : Fin 128) (k : Fin 96), x3 (ix2 j k) = P.Wfc1 j k) (h4 : ∀ j : Fin 128, x4 (ix1 j) = P.bfc1 j)
  (h5 : ∀ (c : Fin 384) (k : Fin 128), x5 (ix2 c k) = P.Wih c k) (h6 : ∀ c : Fin 384, x6 (ix1 c) = P.bih c)
  (h7 : ∀ (c : Fin 384) (k : Fin 128), x7 (ix2 c k) = P.Whh c k) (h8 : ∀ c : Fin 384, x8 (ix1 c) = P.bhh c)
  (h11 : ∀ (j k : Fin 128), x11 (ix2 j k) = P.Wv1 j k) (h12 : ∀ j : Fin 128, x12 (ix1 j) = P.bv1 j)
  (h13 : ∀ (j k : Fin 128), x13 (ix2 j k) = P.Wk1 j k) (h14 : ∀ j : Fin 128, x14 (ix1 j) = P.bk1 j)
  (h15 : ∀ (j k : Fin 128), x15 (ix2 j k) = P.Wq1 j k) (h16 : ∀ j : Fin 128, x16 (ix1 j) = P.bq1 j)
include h3 h4 h5 h6 h7 h8 h11 h12 h13 h14 h15 h16

theorem ref_projV (b : Fin 4096) (a : Fin 32) (j : Fin 128) :
    val_main_v49 (F := Ideal) x0 x1 x3 x4 x5 x6 x7 x8 x11 x12 (ix3 b a j)
      = proj P.Wv1 P.bv1 (H0 P (Xof x0 b) (Hof x1 b)) a j := by
  rw [val_main_v49_apply, val_main_v48_apply, val_main_v45_apply, val_main_v47_apply, val_main_v46_apply,
    val_main_call1_v0_apply, val_main_call1_cst_apply]
  have el : ∀ k : Fin 128, lidx_main_v45 (ix3 b a j) k = ix3 b a k := fun k =>
    funext fun d => match d with | ⟨0, _⟩ => rfl | ⟨1, _⟩ => rfl | ⟨2, _⟩ => rfl
  have er : ∀ k : Fin 128, ridx_main_v45 (ix3 b a j) k = ix2 j k := fun k =>
    funext fun d => match d with | ⟨0, _⟩ => rfl | ⟨1, _⟩ => rfl
  have eb : idx_main_v46 (idx_main_v47 (ix3 b a j)) = ix1 j :=
    funext fun d => match d with | ⟨0, _⟩ => rfl
  simp only [el, er, eb, ref_cell P x0 x1 x3 x4 x5 x6 x7 x8 h3 h4 h5 h6 h7 h8, h11, h12,
    Ideal.maximumf_def, Ideal.addf_def, Ideal.ofBits_def, Ideal.ofBits_zero_f32]
  rfl

theorem ref_projQ (b : Fin 4096) (a : Fin 32) (j : Fin 128) :
    val_main_v54 (F := Ideal) x0 x1 x3 x4 x5 x6 x7 x8 x15 x16 (ix3 b a j)
      = proj P.Wq1 P.bq1 (H0 P (Xof x0 b) (Hof x1 b)) a j := by
  rw [val_main_v54_apply, val_main_v53_apply, val_main_v50_apply, val_main_v52_apply, val_main_v51_apply,
    val_main_call2_v0_apply, val_main_call2_cst_apply]
  have el : ∀ k : Fin 128, lidx_main_v50 (ix3 b a j) k = ix3 b a k := fun k =>
    funext fun d => match d with | ⟨0, _⟩ => rfl | ⟨1, _⟩ => rfl | ⟨2, _⟩ => rfl
  have er : ∀ k : Fin 128, ridx_main_v50 (ix3 b a j) k = ix2 j k := fun k =>
    funext fun d => match d with | ⟨0, _⟩ => rfl | ⟨1, _⟩ => rfl
  have eb : idx_main_v51 (idx_main_v52 (ix3 b a j)) = ix1 j :=
    funext fun d => match d with | ⟨0, _⟩ => rfl
  simp only [el, er, eb, ref_cell P x0 x1 x3 x4 x5 x6 x7 x8 h3 h4 h5 h6 h7 h8, h15, h16,
    Ideal.maximumf_def, Ideal.addf_def, Ideal.ofBits_def, Ideal.ofBits_zero_f32]
  rfl

theorem ref_projK (b : Fin 4096) (a : Fin 32) (j : Fin 128) :
    val_main_v59 (F := Ideal) x0 x1 x3 x4 x5 x6 x7 x8 x13 x14 (ix3 b a j)
      = proj P.Wk1 P.bk1 (H0 P (Xof x0 b) (Hof x1 b)) a j := by
  rw [val_main_v59_apply, val_main_v58_apply, val_main_v55_apply, val_main_v57_apply, val_main_v56_apply,
    val_main_call3_v0_apply, val_main_call3_cst_apply]
  have el : ∀ k : Fin 128, lidx_main_v55 (ix3 b a j) k = ix3 b a k := fun k =>
    funext fun d => match d with | ⟨0, _⟩ => rfl | ⟨1, _⟩ => rfl | ⟨2, _⟩ => rfl
  have er : ∀ k : Fin 128, ridx_main_v55 (ix3 b a j) k = ix2 j k := fun k =>
    funext fun d => match d with | ⟨0, _⟩ => rfl | ⟨1, _⟩ => rfl
  have eb : idx_main_v56 (idx_main_v57 (ix3 b a j)) = ix1 j :=
    funext fun d => match d with | ⟨0, _⟩ => rfl
  simp only [el, er, eb, ref_cell P x0 x1 x3 x4 x5 x6 x7 x8 h3 h4 h5 h6 h7 h8, h13, h14,
    Ideal.maximumf_def, Ideal.addf_def, Ideal.ofBits_def, Ideal.ofBits_zero_f32]
  rfl

theorem ref_logits (b : Fin 4096) (i j : Fin 32) :
    val_main_v66 (F := Ideal) x0 x1 x2 x3 x4 x5 x6 x7 x8 x13 x14 x15 x16 (ix3 b i j)
      = logits P.Wk1 P.bk1 P.Wq1 P.bq1 (Mof x2 b) (H0 P (Xof x0 b) (Hof x1 b)) i j := by
  rw [val_main_v66_apply, val_main_v61_apply, val_main_v65_apply, val_main_v64_apply, val_main_cst_5_apply,
    val_main_v63_apply, val_main_v62_apply, val_main_cst_4_apply, val_main_v60_apply]
  have el : ∀ k : Fin 128, lidx_main_v60 (ix3 b i j) k = ix3 b i k := fun k =>
    funext fun d => match d with | ⟨0, _⟩ => rfl | ⟨1, _⟩ => rfl | ⟨2, _⟩ => rfl
  have er : ∀ k : Fin 128, ridx_main_v60 (ix3 b i j) k = ix3 b j k := fun k =>
    funext fun d => match d with | ⟨0, _⟩ => rfl | ⟨1, _⟩ => rfl | ⟨2, _⟩ => rfl
  simp only [el, er, ref_projQ P x0 x1 x3 x4 x5 x6 x7 x8 x11 x12 x13 x14 x15 x16 h3 h4 h5 h6 h7 h8 h11 h12 h13 h14 h15 h16, ref_projK P x0 x1 x3 x4 x5 x6 x7 x8 x11 x12 x13 x14 x15 x16 h3 h4 h5 h6 h7 h8 h11 h12 h13 h14 h15 h16,
    Ideal.subf_def, Ideal.mulf_def, Ideal.ofBits_def]
  rfl

theorem ref_rowmax (b : Fin 4096) (i : Fin 32) :
    val_main_v69 (F := Ideal) x0 x1 x2 x3 x4 x5 x6 x7 x8 x13 x14 x15 x16 (ix2 b i) = rowmax (logits P.Wk1 P.bk1 P.Wq1 P.bq1 (Mof x2 b) (H0 P (Xof x0 b) (Hof x1 b)) i) := by
  have hR : S4096x32x32.Reduces [2] S4096x32 := by decide
  rw [val_main_v69_apply, val_main_v68_apply, val_main_cst_7_apply]
  unfold val_main_v67
  rw [Host.reduce_eq_fold_single FloatOps.maximumf _ _ Gen.reducesTo_S4096x32x32_S4096x32_d2 hR Gen.h_S_ (ix2 b i)]
  have hl : ∀ k : Fin 32, hR.lift (ix2 b i) k = ix3 b i k := fun k =>
    funext fun d => match d with | ⟨0, _⟩ => rfl | ⟨1, _⟩ => rfl | ⟨2, _⟩ => rfl
  have hf : (val_main_v66 (F := Ideal) x0 x1 x2 x3 x4 x5 x6 x7 x8 x13 x14 x15 x16 ∘ hR.lift (ix2 b i)) = logits P.Wk1 P.bk1 P.Wq1 P.bq1 (Mof x2 b) (H0 P (Xof x0 b) (Hof x1 b)) i :=
    funext fun (k : Fin 32) => by
      show val_main_v66 (F := Ideal) x0 x1 x2 x3 x4 x5 x6 x7 x8 x13 x14 x15 x16 (hR.lift (ix2 b i) k) = _
      rw [hl k]
      exact ref_logits P x0 x1 x2 x3 x4 x5 x6 x7 x8 x11 x12 x13 x14 x15 x16 h3 h4 h5 h6 h7 h8 h11 h12 h13 h14 h15 h16 b i k
  rw [hf, val_main_cst_6_apply]
  simp only [Ideal.ofBits_def, ofBits_neg_inf_f32]
  show max ⊥ (rowmax (logits P.Wk1 P.bk1 P.Wq1 P.bq1 (Mof x2 b) (H0 P (Xof x0 b) (Hof x1 b)) i)) = _
  exact max_eq_right bot_le

theorem ref_expo (b : Fin 4096) (i j : Fin 32) :
    val_main_v73 (F := Ideal) x0 x1 x2 x3 x4 x5 x6 x7 x8 x13 x14 x15 x16 (ix3 b i j) = Ideal.exp (logits P.Wk1 P.bk1 P.Wq1 P.bq1 (Mof x2 b) (H0 P (Xof x0 b) (Hof x1 b)) i j - rowmax (logits P.Wk1 P.bk1 P.Wq1 P.bq1 (Mof x2 b) (H0 P (Xof x0 b) (Hof x1 b)) i)) := by
  rw [val_main_v73_apply, val_main_v72_apply, val_main_v71_apply, val_main_v70_apply]
  have e : idx_main_v70 (idx_main_v71 (ix3 b i j)) = ix2 b i :=
    funext fun d => match d with | ⟨0, _⟩ => rfl | ⟨1, _⟩ => rfl
  rw [e, ref_rowmax P x0 x1 x2 x3 x4 x5 x6 x7 x8 x11 x12 x13 x14 x15 x16 h3 h4 h5 h6 h7 h8 h11 h12 h13 h14 h15 h16, ref_logits P x0 x1 x2 x3 x4 x5 x6 x7 x8 x11 x12 x13 x14 x15 x16 h3 h4 h5 h6 h7 h8 h11 h12 h13 h14 h15 h16]
  rfl

theorem ref_den (b : Fin 4096) (i : Fin 32) :
    val_main_v74 (F := Ideal) x0 x1 x2 x3 x4 x5 x6 x7 x8 x13 x14 x15 x16 (ix2 b i) = ∑ j' : Fin 32, Ideal.exp (logits P.Wk1 P.bk1 P.Wq1 P.bq1 (Mof x2 b) (H0 P (Xof x0 b) (Hof x1 b)) i j' - rowmax (logits P.Wk1 P.bk1 P.Wq1 P.bq1 (Mof x2 b) (H0 P (Xof x0 b) (Hof x1 b)) i)) := by
  rw [val_main_v74_apply, val_main_cst_8_apply]
  have e : ∀ k : Fin 32, idx_main_v74 (ix2 b i) k = ix3 b i k := fun k =>
    funext fun d => match d with | ⟨0, _⟩ => rfl | ⟨1, _⟩ => rfl | ⟨2, _⟩ => rfl
  simp only [e, ref_expo P x0 x1 x2 x3 x4 x5 x6 x7 x8 x11 x12 x13 x14 x15 x16 h3 h4 h5 h6 h7 h8 h11 h12 h13 h14 h15 h16, Ideal.ofBits_def, Ideal.ofBits_zero_f32, zero_add]

theorem ref_soft (b : Fin 4096) (i j : Fin 32) :
    val_main_v77 (F := Ideal) x0 x1 x2 x3 x4 x5 x6 x7 x8 x13 x14 x15 x16 (ix3 b i j) = soft (logits P.Wk1 P.bk1 P.Wq1 P.bq1 (Mof x2 b) (H0 P (Xof x0 b) (Hof x1 b)) i) j := by
  rw [val_main_v77_apply, val_main_v76_apply, val_main_v75_apply]
  have e : idx_main_v75 (idx_main_v76 (ix3 b i j)) = ix2 b i :=
    funext fun d => match d with | ⟨0, _⟩ => rfl | ⟨1, _⟩ => rfl
  rw [e, ref_den P x0 x1 x2 x3 x4 x5 x6 x7 x8 x11 x12 x13 x14 x15 x16 h3 h4 h5 h6 h7 h8 h11 h12 h13 h14 h15 h16, ref_expo P x0 x1 x2 x3 x4 x5 x6 x7 x8 x11 x12 x13 x14 x15 x16 h3 h4 h5 h6 h7 h8 h11 h12 h13 h14 h15 h16]
  rfl

theorem ref_att1 (b : Fin 4096) (i : Fin 32) (h : Fin 128) :
    val_main_v78 (F := Ideal) x0 x1 x2 x3 x4 x5 x6 x7 x8 x11 x12 x13 x14 x15 x16 (ix3 b i h) = H1 P (Xof x0 b) (Hof x1 b) (Mof x2 b) i h := by
  rw [val_main_v78_apply]
  have el : ∀ k : Fin 32, lidx_main_v78 (ix3 b i h) k = ix3 b i k := fun k =>
    funext fun d => match d with | ⟨0, _⟩ => rfl | ⟨1, _⟩ => rfl | ⟨2, _⟩ => rfl
  have er : ∀ k : Fin 32, ridx_main_v78 (ix3 b i h) k = ix3 b k h := fun k =>
    funext fun d => match d with | ⟨0, _⟩ => rfl | ⟨1, _⟩ => rfl | ⟨2, _⟩ => rfl
  simp only [el, er, ref_soft P x0 x1 x2 x3 x4 x5 x6 x7 x8 x11 x12 x13 x14 x15 x16 h3 h4 h5 h6 h7 h8 h11 h12 h13 h14 h15 h16, ref_projV P x0 x1 x3 x4 x5 x6 x7 x8 x11 x12 x13 x14 x15 x16 h3 h4 h5 h6 h7 h8 h11 h12 h13 h14 h15 h16]
  rfl

end Cert.ReferenceIdeal.HValue

end
-- ==== Proof.RVal3.lean ====
import proofs.«403671_j61134564491522_3_alg».proof.Proof.ReadP
import proofs.«403671_j61134564491522_3_alg».proof.Proof.Whole
import Idealize.ShloMosaic.Lib.ValueIdx
import Idealize.ShloMosaic.Lib.ValueLayout
import Idealize.ShloMosaic.Lib.Pipeline.Value
import Idealize.ShloMosaic.PureOps.Ideal.Laws
import proofs.«403671_j61134564491522_3_alg».proof.Proof.RVal2

noncomputable section

namespace Cert.ReferenceIdeal.HValue

open Idealize.ShloMosaic Idealize.ShloMosaic.ValueIdx Cert.ReferenceIdeal Cert.ReferenceIdeal.ReadP RNNSpec

variable (P : Weights)

variable (x0 : (⟨S131072x96, .f32⟩ : BufTy).Contents (Elt Ideal)) (x1 : (⟨S131072x128, .f32⟩ : BufTy).Contents (Elt Ideal)) (x2 : (⟨S4096x32x32, .f32⟩ : BufTy).Contents (Elt Ideal)) (x3 : (⟨S128x96, .f32⟩ : BufTy).Contents (Elt Ideal)) (x4 : (⟨S128, .f32⟩ : BufTy).Contents (Elt Ideal)) (x5 : (⟨S384x128, .f32⟩ : BufTy).Contents (Elt Ideal)) (x6 : (⟨S384, .f32⟩ : BufTy).Contents (Elt Ideal)) (x7 : (⟨S384x128, .f32⟩ : BufTy).Contents (Elt Ideal)) (x8 : (⟨S384, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128x128, .f32⟩ : BufTy).Contents (Elt Ideal)) (x16 : (⟨S128, .f32⟩ : BufTy).Contents (Elt Ideal)) (x17 : (⟨S128x128, .f32⟩ : BufTy).Contents (Elt Ideal)) (x18 : (⟨S128, .f32⟩ : BufTy).Contents (Elt Ideal)) (x19 : (⟨S128x128, .f32⟩ : BufTy).Contents (Elt Ideal)) (x20 : (⟨S128, .f32⟩ : BufTy).Contents (Elt Ideal)) (x21 : (⟨S128x128, .f32⟩ : BufTy).Contents (Elt Ideal)) (x22 : (⟨S128, .f32⟩ : BufTy).Contents (Elt Ideal))
  (h3 : ∀ (j : Fin 128) (k : Fin 96), x3 (ix2 j k) = P.Wfc1 j k) (h4 : ∀ j : Fin 128, x4 (ix1 j) = P.bfc1 j)
  (h5 : ∀ (c : Fin 384) (k : Fin 128), x5 (ix2 c k) = P.Wih c k) (h6 : ∀ c : Fin 384, x6 (ix1 c) = P.bih c)
  (h7 : ∀ (c : Fin 384) (k : Fin 128), x7 (ix2 c k) = P.Whh c k) (h8 : ∀ c : Fin 384, x8 (ix1 c) = P.bhh c)
  (h11 : ∀ (j k : Fin 128), x11 (ix2 j k) = P.Wv1 j k) (h12 : ∀ j : Fin 128, x12 (ix1 j) = P.bv1 j)
  (h13 : ∀ (j k : Fin 128), x13 (ix2 j k) = P.Wk1 j k) (h14 : ∀ j : Fin 128, x14 (ix1 j) = P.bk1 j)
  (h15 : ∀ (j k : Fin 128), x15 (ix2 j k) = P.Wq1 j k) (h16 : ∀ j : Fin 128, x16 (ix1 j) = P.bq1 j)
  (h17 : ∀ (j k : Fin 128), x17 (ix2 j k) = P.Wv2 j k) (h18 : ∀ j : Fin 128, x18 (ix1 j) = P.bv2 j)
  (h19 : ∀ (j k : Fin 128), x19 (ix2 j k) = P.Wk2 j k) (h20 : ∀ j : Fin 128, x20 (ix1 j) = P.bk2 j)
  (h21 : ∀ (j k : Fin 128), x21 (ix2 j k) = P.Wq2 j k) (h22 : ∀ j : Fin 128, x22 (ix1 j) = P.bq2 j)

theorem lidx79 (b : Fin 4096) (a : Fin 32) (j k : Fin 128) : lidx_main_v79 (ix3 b a j) k = ix3 b a k := by
  funext c; match c with | ⟨0, _⟩ => rfl | ⟨1, _⟩ => rfl | ⟨2, _⟩ => rfl
theorem ridx79 (b : Fin 4096) (a : Fin 32) (j k : Fin 128) : ridx_main_v79 (ix3 b a j) k = ix2 j k := by
  funext c; match c with | ⟨0, _⟩ => rfl | ⟨1, _⟩ => rfl
theorem idx80_81 (b : Fin 4096) (a : Fin 32) (j : Fin 128) : idx_main_v80 (idx_main_v81 (ix3 b a j)) = ix1 j := by
  funext c; match c with | ⟨0, _⟩ => rfl

include h17 h18 in

theorem v83_at (b : Fin 4096) (a : Fin 32) (j : Fin 128) :
    val_main_v83 (F := Ideal) x0 x1 x2 x3 x4 x5 x6 x7 x8 x11 x12 x13 x14 x15 x16 x17 x18 (ix3 b a j) = proj P.Wv2 P.bv2 (fun a d => val_main_v78 (F := Ideal) x0 x1 x2 x3 x4 x5 x6 x7 x8 x11 x12 x13 x14 x15 x16 (ix3 b a d)) a j := by
  rw [val_main_v83_apply, val_main_v82_apply, val_main_v79_apply, val_main_v81_apply, val_main_v80_apply,
    val_main_call4_v0_apply, val_main_call4_cst_apply]
  simp only [lidx79, ridx79, idx80_81, h17, h18, Ideal.maximumf_def, Ideal.addf_def, Ideal.ofBits_def,
    Ideal.ofBits_zero_f32]
  rfl

theorem lidx84 (b : Fin 4096) (a : Fin 32) (j k : Fin 128) : lidx_main_v84 (ix3 b a j) k = ix3 b a k := by
  funext c; match c with | ⟨0, _⟩ => rfl | ⟨1, _⟩ => rfl | ⟨2, _⟩ => rfl
theorem ridx84 (b : Fin 4096) (a : Fin 32) (j k : Fin 128) : ridx_main_v84 (ix3 b a j) k = ix2 j k := by
  funext c; match c with | ⟨0, _⟩ => rfl | ⟨1, _⟩ => rfl
theorem idx85_86 (b : Fin 4096) (a : Fin 32) (j : Fin 128) : idx_main_v85 (idx_main_v86 (ix3 b a j)) = ix1 j := by
  funext c; match c with | ⟨0, _⟩ => rfl

include h21 h22 in

theorem v88_at (b : Fin 4096) (a : Fin 32) (j : Fin 128) :
    val_main_v88 (F := Ideal) x0 x1 x2 x3 x4 x5 x6 x7 x8 x11 x12 x13 x14 x15 x16 x21 x22 (ix3 b a j) = proj P.Wq2 P.bq2 (fun a d => val_main_v78 (F := Ideal) x0 x1 x2 x3 x4 x5 x6 x7 x8 x11 x12 x13 x14 x15 x16 (ix3 b a d)) a j := by
  rw [val_main_v88_apply, val_main_v87_apply, val_main_v84_apply, val_main_v86_apply, val_main_v85_apply,
    val_main_call5_v0_apply, val_main_call5_cst_apply]
  simp only [lidx84, ridx84, idx85_86, h21, h22, Ideal.maximumf_def, Ideal.addf_def, Ideal.ofBits_def,
    Ideal.ofBits_zero_f32]
  rfl

theorem lidx89 (b : Fin 4096) (a : Fin 32) (j k : Fin 128) : lidx_main_v89 (ix3 b a j) k = ix3 b a k := by
  funext c; match c with | ⟨0, _⟩ => rfl | ⟨1, _⟩ => rfl | ⟨2, _⟩ => rfl
theorem ridx89 (b : Fin 4096) (a : Fin 32) (j k : Fin 128) : ridx_main_v89 (ix3 b a j) k = ix2 j k := by
  funext c; match c with | ⟨0, _⟩ => rfl | ⟨1, _⟩ => rfl
theorem idx90_91 (b : Fin 4096) (a : Fin 32) (j : Fin 128) : idx_main_v90 (idx_main_v91 (ix3 b a j)) = ix1 j := by
  funext c; match c with | ⟨0, _⟩ => rfl

include h19 h20 in

theorem v93_at (b : Fin 4096) (a : Fin 32) (j : Fin 128) :
    val_main_v93 (F := Ideal) x0 x1 x2 x3 x4 x5 x6 x7 x8 x11 x12 x13 x14 x15 x16 x19 x20 (ix3 b a j) = proj P.Wk2 P.bk2 (fun a d => val_main_v78 (F := Ideal) x0 x1 x2 x3 x4 x5 x6 x7 x8 x11 x12 x13 x14 x15 x16 (ix3 b a d)) a j := by
  rw [val_main_v93_apply, val_main_v92_apply, val_main_v89_apply, val_main_v91_apply, val_main_v90_apply,
    val_main_call6_v0_apply, val_main_call6_cst_apply]
  simp only [lidx89, ridx89, idx90_91, h19, h20, Ideal.maximumf_def, Ideal.addf_def, Ideal.ofBits_def,
    Ideal.ofBits_zero_f32]
  rfl

theorem lidx94 (b : Fin 4096) (i j : Fin 32) (k : Fin 128) : lidx_main_v94 (ix3 b i j) k = ix3 b i k := by
  funext c; match c with | ⟨0, _⟩ => rfl | ⟨1, _⟩ => rfl | ⟨2, _⟩ => rfl
theorem ridx94 (b : Fin 4096) (i j : Fin 32) (k : Fin 128) : ridx_main_v94 (ix3 b i j) k = ix3 b j k := by
  funext c; match c with | ⟨0, _⟩ => rfl | ⟨1, _⟩ => rfl | ⟨2, _⟩ => rfl

include h19 h20 h21 h22 in

theorem v94_at (b : Fin 4096) (i j : Fin 32) :
    val_main_v94 (F := Ideal) x0 x1 x2 x3 x4 x5 x6 x7 x8 x11 x12 x13 x14 x15 x16 x19 x20 x21 x22 (ix3 b i j)
      = score (proj P.Wq2 P.bq2 (fun a d => val_main_v78 (F := Ideal) x0 x1 x2 x3 x4 x5 x6 x7 x8 x11 x12 x13 x14 x15 x16 (ix3 b a d))) (proj P.Wk2 P.bk2 (fun a d => val_main_v78 (F := Ideal) x0 x1 x2 x3 x4 x5 x6 x7 x8 x11 x12 x13 x14 x15 x16 (ix3 b a d))) i j := by
  rw [val_main_v94_apply]
  simp only [lidx94, ridx94, v88_at (h21 := h21) (h22 := h22), v93_at (h19 := h19) (h20 := h20)]
  rfl

include h19 h20 h21 h22 in

theorem v100_at (b : Fin 4096) (i j : Fin 32) :
    val_main_v100 (F := Ideal) x0 x1 x2 x3 x4 x5 x6 x7 x8 x11 x12 x13 x14 x15 x16 x19 x20 x21 x22 (ix3 b i j) = (logits P.Wk2 P.bk2 P.Wq2 P.bq2 (Mof x2 b) (fun a d => val_main_v78 (F := Ideal) x0 x1 x2 x3 x4 x5 x6 x7 x8 x11 x12 x13 x14 x15 x16 (ix3 b a d)) i) j := by
  rw [val_main_v100_apply, val_main_v95_apply, val_main_v99_apply, val_main_v98_apply, val_main_cst_10_apply,
    val_main_v97_apply, val_main_v96_apply, val_main_cst_9_apply, v94_at (h19 := h19) (h20 := h20) (h21 := h21) (h22 := h22)]
  simp only [Ideal.subf_def, Ideal.mulf_def, Ideal.ofBits_def]
  rfl

theorem att2_ofBits_neg_inf : Ideal.ofBits .f32 0xFF800000#32 = (⊥ : EReal) := by simp [Ideal.ofBits, Ideal.ieee]

theorem att2_lift_last (h : S4096x32x32.Reduces [2] S4096x32) (b : Fin 4096) (i : Fin 32) (k : Fin (S4096x32x32.size 2)) :
    h.lift (ix2 b i) k = ix3 b i (⟨k.val, k.isLt⟩ : Fin 32) := by
  funext c; apply Fin.ext
  match c with | ⟨0, _⟩ => rfl | ⟨1, _⟩ => rfl | ⟨2, _⟩ => rfl

theorem att2_reduce_max_at (Y : (⟨S4096x32x32, .f32⟩ : BufTy).Contents (Elt Ideal)) (b : Fin 4096) (i : Fin 32) :
    Host.reduce (FloatOps.maximumf (F := Ideal) (φ := .f32)) Y (val_main_cst_11 (F := Ideal)) Gen.reducesTo_S4096x32x32_S4096x32_d2 Gen.h_S_ (ix2 b i)
      = rowmax (fun j => Y (ix3 b i j)) := by
  have h : S4096x32x32.Reduces [2] S4096x32 := by decide
  rw [Host.reduce_eq_fold_single (FloatOps.maximumf (F := Ideal) (φ := .f32)) Y _ Gen.reducesTo_S4096x32x32_S4096x32_d2 h Gen.h_S_, val_main_cst_11_apply]
  have hf : (Y ∘ h.lift (ix2 b i)) = fun k : Fin 32 => Y (ix3 b i k) := funext fun k => congrArg Y (att2_lift_last h b i k)
  rw [hf]
  unfold rowmax
  show Finset.fold max (Ideal.ofBits .f32 0xFF800000#32) (fun k : Fin 32 => Y (ix3 b i k)) Finset.univ = _
  rw [att2_ofBits_neg_inf]

include h19 h20 h21 h22 in

theorem v103_at (b : Fin 4096) (i : Fin 32) :
    val_main_v103 (F := Ideal) x0 x1 x2 x3 x4 x5 x6 x7 x8 x11 x12 x13 x14 x15 x16 x19 x20 x21 x22 (ix2 b i) = rowmax (logits P.Wk2 P.bk2 P.Wq2 P.bq2 (Mof x2 b) (fun a d => val_main_v78 (F := Ideal) x0 x1 x2 x3 x4 x5 x6 x7 x8 x11 x12 x13 x14 x15 x16 (ix3 b a d)) i) := by
  rw [val_main_v103_apply, val_main_v102_apply, val_main_cst_12_apply]
  unfold val_main_v101
  rw [att2_reduce_max_at]
  simp only [v100_at (h19 := h19) (h20 := h20) (h21 := h21) (h22 := h22), Ideal.maximumf_def, Ideal.ofBits_def,
    att2_ofBits_neg_inf, max_bot_left]

theorem idx104_105 (b : Fin 4096) (i j : Fin 32) : idx_main_v104 (idx_main_v105 (ix3 b i j)) = ix2 b i := by
  funext c; match c with | ⟨0, _⟩ => rfl | ⟨1, _⟩ => rfl
theorem idx109_110 (b : Fin 4096) (i j : Fin 32) : idx_main_v109 (idx_main_v110 (ix3 b i j)) = ix2 b i := by
  funext c; match c with | ⟨0, _⟩ => rfl | ⟨1, _⟩ => rfl
theorem idx108 (b : Fin 4096) (i k : Fin 32) : idx_main_v108 (ix2 b i) k = ix3 b i k := by
  funext c; match c with | ⟨0, _⟩ => rfl | ⟨1, _⟩ => rfl | ⟨2, _⟩ => rfl

include h19 h20 h21 h22 in

theorem v107_at (b : Fin 4096) (i j : Fin 32) :
    val_main_v107 (F := Ideal) x0 x1 x2 x3 x4 x5 x6 x7 x8 x11 x12 x13 x14 x15 x16 x19 x20 x21 x22 (ix3 b i j) = Ideal.exp ((logits P.Wk2 P.bk2 P.Wq2 P.bq2 (Mof x2 b) (fun a d => val_main_v78 (F := Ideal) x0 x1 x2 x3 x4 x5 x6 x7 x8 x11 x12 x13 x14 x15 x16 (ix3 b a d)) i) j - rowmax (logits P.Wk2 P.bk2 P.Wq2 P.bq2 (Mof x2 b) (fun a d => val_main_v78 (F := Ideal) x0 x1 x2 x3 x4 x5 x6 x7 x8 x11 x12 x13 x14 x15 x16 (ix3 b a d)) i)) := by
  rw [val_main_v107_apply, val_main_v106_apply, val_main_v105_apply, val_main_v104_apply, idx104_105,
    v100_at (h19 := h19) (h20 := h20) (h21 := h21) (h22 := h22), v103_at (h19 := h19) (h20 := h20) (h21 := h21) (h22 := h22)]
  simp only [Ideal.hostUnary_exp_def, Ideal.subf_def]

include h19 h20 h21 h22 in

theorem v108_at (b : Fin 4096) (i : Fin 32) :
    val_main_v108 (F := Ideal) x0 x1 x2 x3 x4 x5 x6 x7 x8 x11 x12 x13 x14 x15 x16 x19 x20 x21 x22 (ix2 b i) = ∑ j' : Fin 32, Ideal.exp ((logits P.Wk2 P.bk2 P.Wq2 P.bq2 (Mof x2 b) (fun a d => val_main_v78 (F := Ideal) x0 x1 x2 x3 x4 x5 x6 x7 x8 x11 x12 x13 x14 x15 x16 (ix3 b a d)) i) j' - rowmax (logits P.Wk2 P.bk2 P.Wq2 P.bq2 (Mof x2 b) (fun a d => val_main_v78 (F := Ideal) x0 x1 x2 x3 x4 x5 x6 x7 x8 x11 x12 x13 x14 x15 x16 (ix3 b a d)) i)) := by
  rw [val_main_v108_apply, val_main_cst_13_apply]
  simp only [idx108, v107_at (h19 := h19) (h20 := h20) (h21 := h21) (h22 := h22), Ideal.ofBits_def, Ideal.ofBits_zero_f32,
    zero_add]

include h19 h20 h21 h22 in

theorem v111_at (b : Fin 4096) (i j : Fin 32) :
    val_main_v111 (F := Ideal) x0 x1 x2 x3 x4 x5 x6 x7 x8 x11 x12 x13 x14 x15 x16 x19 x20 x21 x22 (ix3 b i j) = soft (logits P.Wk2 P.bk2 P.Wq2 P.bq2 (Mof x2 b) (fun a d => val_main_v78 (F := Ideal) x0 x1 x2 x3 x4 x5 x6 x7 x8 x11 x12 x13 x14 x15 x16 (ix3 b a d)) i) j := by
  rw [val_main_v111_apply, val_main_v110_apply, val_main_v109_apply, idx109_110,
    v107_at (h19 := h19) (h20 := h20) (h21 := h21) (h22 := h22), v108_at (h19 := h19) (h20 := h20) (h21 := h21) (h22 := h22)]
  simp only [Ideal.hostDivf_def]
  rfl

theorem lidx112 (b : Fin 4096) (i : Fin 32) (h : Fin 128) (k : Fin 32) : lidx_main_v112 (ix3 b i h) k = ix3 b i k := by
  funext c; match c with | ⟨0, _⟩ => rfl | ⟨1, _⟩ => rfl | ⟨2, _⟩ => rfl
theorem ridx112 (b : Fin 4096) (i : Fin 32) (h : Fin 128) (k : Fin 32) : ridx_main_v112 (ix3 b i h) k = ix3 b k h := by
  funext c; match c with | ⟨0, _⟩ => rfl | ⟨1, _⟩ => rfl | ⟨2, _⟩ => rfl

include h3 h4 h5 h6 h7 h8 h11 h12 h13 h14 h15 h16 h17 h18 h19 h20 h21 h22

theorem ref_att2 (b : Fin 4096) (i : Fin 32) (h : Fin 128) :
    val_main_v112 (F := Ideal) x0 x1 x2 x3 x4 x5 x6 x7 x8 x11 x12 x13 x14 x15 x16 x17 x18 x19 x20 x21 x22 (ix3 b i h) = H2 P (Xof x0 b) (Hof x1 b) (Mof x2 b) i h := by
  rw [val_main_v112_apply]
  simp only [lidx112, ridx112, v111_at (h19 := h19) (h20 := h20) (h21 := h21) (h22 := h22), v83_at (h17 := h17) (h18 := h18)]
  have hH : (fun a d => val_main_v78 (F := Ideal) x0 x1 x2 x3 x4 x5 x6 x7 x8 x11 x12 x13 x14 x15 x16 (ix3 b a d)) = H1 P (Xof x0 b) (Hof x1 b) (Mof x2 b) :=
    funext fun a => funext fun d =>
      ref_att1 P x0 x1 x2 x3 x4 x5 x6 x7 x8 x11 x12 x13 x14 x15 x16 h3 h4 h5 h6 h7 h8 h11 h12 h13 h14 h15 h16 b a d
  rw [hH]
  rfl

end Cert.ReferenceIdeal.HValue

end
-- ==== Proof.RVal4.lean ====
import proofs.«403671_j61134564491522_3_alg».proof.Proof.ReadP
import proofs.«403671_j61134564491522_3_alg».proof.Proof.Whole
import Idealize.ShloMosaic.Lib.ValueIdx
import Idealize.ShloMosaic.Lib.ValueLayout
import Idealize.ShloMosaic.Lib.Pipeline.Value
import Idealize.ShloMosaic.PureOps.Ideal.Laws
import proofs.«403671_j61134564491522_3_alg».proof.Proof.RVal3

noncomputable section

namespace Cert.ReferenceIdeal.HValue

open Idealize.ShloMosaic Idealize.ShloMosaic.ValueIdx Cert.ReferenceIdeal Cert.ReferenceIdeal.ReadP RNNSpec

variable (x0 : (⟨S131072x96, .f32⟩ : BufTy).Contents (Elt Ideal)) (x1 : (⟨S131072x128, .f32⟩ : BufTy).Contents (Elt Ideal)) (x2 : (⟨S4096x32x32, .f32⟩ : BufTy).Contents (Elt Ideal)) (x3 : (⟨S128x96, .f32⟩ : BufTy).Contents (Elt Ideal)) (x4 : (⟨S128, .f32⟩ : BufTy).Contents (Elt Ideal)) (x5 : (⟨S384x128, .f32⟩ : BufTy).Contents (Elt Ideal)) (x6 : (⟨S384, .f32⟩ : BufTy).Contents (Elt Ideal)) (x7 : (⟨S384x128, .f32⟩ : BufTy).Contents (Elt Ideal)) (x8 : (⟨S384, .f32⟩ : BufTy).Contents (Elt Ideal)) (x9 : (⟨S16x128, .f32⟩ : BufTy).Contents (Elt Ideal)) (x10 : (⟨S16, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128x128, .f32⟩ : BufTy).Contents (Elt Ideal)) (x16 : (⟨S128, .f32⟩ : BufTy).Contents (Elt Ideal)) (x17 : (⟨S128x128, .f32⟩ : BufTy).Contents (Elt Ideal)) (x18 : (⟨S128, .f32⟩ : BufTy).Contents (Elt Ideal)) (x19 : (⟨S128x128, .f32⟩ : BufTy).Contents (Elt Ideal)) (x20 : (⟨S128, .f32⟩ : BufTy).Contents (Elt Ideal)) (x21 : (⟨S128x128, .f32⟩ : BufTy).Contents (Elt Ideal)) (x22 : (⟨S128, .f32⟩ : BufTy).Contents (Elt Ideal))

theorem row_batchOf_agentOf (r : Fin 131072) : row (batchOf r) (agentOf r) = r := by
  apply Fin.ext
  simp only [row, batchOf, agentOf]
  omega

theorem idx113 (r : Fin 131072) (j : Fin 128) : idx_main_v113 (ix2 r j) = ix3 (batchOf r) (agentOf r) j := by
  have hr := r.isLt
  have hj := j.isLt
  funext c
  match c with
  | ⟨0, _⟩ => exact Fin.ext (by show (r.val * 128 + j.val) / 4096 = r.val / 32; omega)
  | ⟨1, _⟩ => exact Fin.ext (by show (r.val * 128 + j.val) / 128 % 32 = r.val % 32; omega)
  | ⟨2, _⟩ => exact Fin.ext (by show (r.val * 128 + j.val) % 128 = j.val; omega)

theorem lidx115 (r : Fin 131072) (j : Fin 16) (k : Fin 128) : lidx_main_v115 (ix2 r j) k = ix2 r k := by
  funext c; match c with | ⟨0, _⟩ => rfl | ⟨1, _⟩ => rfl
theorem ridx115 (r : Fin 131072) (j : Fin 16) (k : Fin 128) : ridx_main_v115 (ix2 r j) k = ix2 k j := by
  funext c; match c with | ⟨0, _⟩ => rfl | ⟨1, _⟩ => rfl
theorem idx114 (j : Fin 16) (k : Fin 128) : idx_main_v114 (ix2 k j) = ix2 j k := by
  funext c; match c with | ⟨0, _⟩ => rfl | ⟨1, _⟩ => rfl
theorem idx116_117 (r : Fin 131072) (j : Fin 16) : idx_main_v116 (idx_main_v117 (ix2 r j)) = ix1 j := by
  funext c; match c with | ⟨0, _⟩ => rfl

theorem ref_h : val_main_v113 (F := Ideal) x0 x1 x2 x3 x4 x5 x6 x7 x8 x11 x12 x13 x14 x15 x16 x17 x18 x19 x20 x21 x22 = Gh x0 x1 x2 x3 x4 x5 x6 x7 x8 x9 x10 x11 x12 x13 x14 x15 x16 x17 x18 x19 x20 x21 x22 := by
  funext idx
  obtain ⟨r, j, rfl⟩ : ∃ (r : Fin 131072) (j : Fin 128), idx = ix2 r j := ⟨idx 0, idx 1, eq_ix2 idx⟩
  rw [val_main_v113_apply, idx113,
    ref_att2 (weightsOf x3 x4 x5 x6 x7 x8 x9 x10 x11 x12 x13 x14 x15 x16 x17 x18 x19 x20 x21 x22) x0 x1 x2 x3 x4 x5 x6 x7 x8 x11 x12 x13 x14 x15 x16 x17 x18 x19 x20 x21 x22
      (fun _ _ => rfl) (fun _ => rfl) (fun _ _ => rfl) (fun _ => rfl) (fun _ _ => rfl) (fun _ => rfl)
      (fun _ _ => rfl) (fun _ => rfl) (fun _ _ => rfl) (fun _ => rfl) (fun _ _ => rfl) (fun _ => rfl)
      (fun _ _ => rfl) (fun _ => rfl) (fun _ _ => rfl) (fun _ => rfl) (fun _ _ => rfl) (fun _ => rfl)
      (batchOf r) (agentOf r) j]
  rfl

theorem ref_q : val_main_v118 (F := Ideal) x0 x1 x2 x3 x4 x5 x6 x7 x8 x9 x10 x11 x12 x13 x14 x15 x16 x17 x18 x19 x20 x21 x22 = Gq x0 x1 x2 x3 x4 x5 x6 x7 x8 x9 x10 x11 x12 x13 x14 x15 x16 x17 x18 x19 x20 x21 x22 := by
  funext idx
  obtain ⟨r, j, rfl⟩ : ∃ (r : Fin 131072) (j : Fin 16), idx = ix2 r j := ⟨idx 0, idx 1, eq_ix2 idx⟩
  rw [val_main_v118_apply, val_main_v115_apply, val_main_v117_apply, val_main_v116_apply, idx116_117, ref_h]
  simp only [lidx115, ridx115, val_main_v114_apply, idx114, Ideal.addf_def]
  rfl

end Cert.ReferenceIdeal.HValue

end
-- ==== Proof.lean ====
/-
  One fused kernel for an agent network (a dense layer, a GRU cell, two masked attention layers, a linear head)
  against its array-at-a-time reference, over the extended reals. Each side is shown equal to one specification,
  `Gq` and `Gh` of the 23 arguments. Sums are only regrouped and reordered on the way, so finiteness is never used.
-/
import proofs.«403671_j61134564491522_3_alg».proof.Defs
import proofs.«403671_j61134564491522_3_alg».proof.Proof.Gen.Kernel
import proofs.«403671_j61134564491522_3_alg».proof.Proof.Gen.KernelIdeal
import proofs.«403671_j61134564491522_3_alg».proof.Proof.Gen.ReferenceIdeal
import proofs.«403671_j61134564491522_3_alg».proof.Proof.Gen.Pre_finite_inputs
import proofs.«403671_j61134564491522_3_alg».proof.Proof.KBFrame
import proofs.«403671_j61134564491522_3_alg».proof.Proof.KFinal
import proofs.«403671_j61134564491522_3_alg».proof.Proof.RefRun
import proofs.«403671_j61134564491522_3_alg».proof.Proof.RVal4
import Idealize.ShloMosaic.Adequacy
import Idealize.ShloMosaic.Init

noncomputable section

namespace Cert.Proof

open Idealize.ShloMosaic Idealize.ShloMosaic.TcCoe Idealize.SL.Sem

/-- Each frame below holds for every listed argument; the claim wants them one by one. -/
theorem frame_k : Cert.frame_Kernel := fun m ρ _ =>
  (θ_run Cert.Kernel.defs _ _).mono (fun _ h c => have hk := h c; ⟨hk _ (by decide), hk _ (by decide), hk _ (by decide), hk _ (by decide), hk _ (by decide), hk _ (by decide), hk _ (by decide), hk _ (by decide), hk _ (by decide), hk _ (by decide), hk _ (by decide), hk _ (by decide), hk _ (by decide), hk _ (by decide), hk _ (by decide), hk _ (by decide), hk _ (by decide), hk _ (by decide), hk _ (by decide), hk _ (by decide), hk _ (by decide), hk _ (by decide), hk _ (by decide)⟩) (Cert.Kernel.HFrame.frame m ρ)

theorem frame_ki : Cert.frame_KernelIdeal := fun m ρ _ =>
  (θ_run Cert.KernelIdeal.defs _ _).mono (fun _ h c => have hk := h c; ⟨hk _ (by decide), hk _ (by decide), hk _ (by decide), hk _ (by decide), hk _ (by decide), hk _ (by decide), hk _ (by decide), hk _ (by decide), hk _ (by decide), hk _ (by decide), hk _ (by decide), hk _ (by decide), hk _ (by decide), hk _ (by decide), hk _ (by decide), hk _ (by decide), hk _ (by decide), hk _ (by decide), hk _ (by decide), hk _ (by decide), hk _ (by decide), hk _ (by decide), hk _ (by decide)⟩) (Cert.KernelIdeal.HFrame.frame m ρ)

/-- None of the 23 arguments is a buffer some operation writes. -/
theorem frame_ri : Cert.frame_ReferenceIdeal := fun m ρ _ =>
  (θ_run Cert.ReferenceIdeal.defs _ _).mono (fun _ h c => have hk := (h c).2.2; ⟨hk _ (by decide), hk _ (by decide), hk _ (by decide), hk _ (by decide), hk _ (by decide), hk _ (by decide), hk _ (by decide), hk _ (by decide), hk _ (by decide), hk _ (by decide), hk _ (by decide), hk _ (by decide), hk _ (by decide), hk _ (by decide), hk _ (by decide), hk _ (by decide), hk _ (by decide), hk _ (by decide), hk _ (by decide), hk _ (by decide), hk _ (by decide), hk _ (by decide), hk _ (by decide)⟩)
    (Cert.ReferenceIdeal.HRun.run (F := Ideal) m ρ)

theorem preserves : Cert.preserves_Kernel_KernelIdeal := trivial

/-- Each run ends at `Gq`, `Gh` of its own arguments, and the arguments agree. -/
theorem algebraic : Cert.algebraic_KernelIdeal_ReferenceIdeal := by
  intro m ρ m' ρ' _ hagree
  refine ⟨_, _, (θ_run Cert.KernelIdeal.defs _ _).mono (fun _ h c => have hk := (h c).2.2;
    ⟨(h c).1, (h c).2.1, hk _ (by decide), hk _ (by decide), hk _ (by decide), hk _ (by decide), hk _ (by decide), hk _ (by decide), hk _ (by decide), hk _ (by decide), hk _ (by decide), hk _ (by decide), hk _ (by decide), hk _ (by decide), hk _ (by decide), hk _ (by decide), hk _ (by decide), hk _ (by decide), hk _ (by decide), hk _ (by decide), hk _ (by decide), hk _ (by decide), hk _ (by decide), hk _ (by decide), hk _ (by decide)⟩) (Cert.KernelIdeal.HValue.kernel_run m ρ), ?_⟩
  refine (θ_run Cert.ReferenceIdeal.defs _ _).mono (fun _ h c => ?_) (Cert.ReferenceIdeal.HRun.run (F := Ideal) m' ρ')
  obtain ⟨hq, hh, hk⟩ := h c
  obtain ⟨h0, h1, h2, h3, h4, h5, h6, h7, h8, h9, h10, h11, h12, h13, h14, h15, h16, h17, h18, h19, h20, h21, h22⟩ := hagree c
  refine ⟨hq.trans ?_, hh.trans ?_, hk _ (by decide), hk _ (by decide), hk _ (by decide), hk _ (by decide), hk _ (by decide), hk _ (by decide), hk _ (by decide), hk _ (by decide), hk _ (by decide), hk _ (by decide), hk _ (by decide), hk _ (by decide), hk _ (by decide), hk _ (by decide), hk _ (by decide), hk _ (by decide), hk _ (by decide), hk _ (by decide), hk _ (by decide), hk _ (by decide), hk _ (by decide), hk _ (by decide), hk _ (by decide)⟩
  · rw [Cert.ReferenceIdeal.HValue.ref_q]; simp only [h0, h1, h2, h3, h4, h5, h6, h7, h8, h9, h10, h11, h12, h13, h14, h15, h16, h17, h18, h19, h20, h21, h22] <;> rfl
  · rw [Cert.ReferenceIdeal.HValue.ref_h (x9 := Cert.ReferenceIdeal.RefStages.a9 m' c) (x10 := Cert.ReferenceIdeal.RefStages.a10 m' c)]; simp only [h0, h1, h2, h3, h4, h5, h6, h7, h8, h9, h10, h11, h12, h13, h14, h15, h16, h17, h18, h19, h20, h21, h22] <;> rfl

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
